-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16x16x16 : Shape := ⟨4, ![2048, 16, 16, 16]⟩
abbrev S16 : Shape := ⟨1, ![16]⟩
abbrev S128x4096 : Shape := ⟨2, ![128, 4096]⟩
abbrev S128 : Shape := ⟨1, ![128]⟩
abbrev S_ : Shape := ⟨0, ![]⟩

class Facts : Prop where
  bcast_S_S2048x16x16x16 : S_.BroadcastsInDim S2048x16x16x16 (![] : Fin 0 → Fin S2048x16x16x16.rank)
  reducesTo_S2048x16x16x16_S_d0_1_2_3 : S2048x16x16x16.ReducesTo [0, 1, 2, 3] S_
  h_S_ : 0 < S_.numel
  bcast_S_S16 : S_.BroadcastsInDim S16 (![] : Fin 0 → Fin S16.rank)
  reducesTo_S16_S_d0 : S16.ReducesTo [0] S_
  bcast_S_S128x4096 : S_.BroadcastsInDim S128x4096 (![] : Fin 0 → Fin S128x4096.rank)
  reducesTo_S128x4096_S_d0_1 : S128x4096.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x4096 1) : IVec S_ 1 :=
  let main_c_5 : IVec S_ 1 := constantI S_ 1 1#1
  let main_v17 : IVec S_ 1 := (fun x v => Host.reduce IntOp.andi x v reducesTo_S128x4096_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S2048x16x16x16 .f32) (main_arg1 : FVec F S16 .f32) (main_arg2 : FVec F S16 .f32) (main_arg3 : FVec F S128x4096 .f32) (main_arg4 : FVec F S128 .f32) : IVec S_ 1 :=
  let main_v0 : FVec F S2048x16x16x16 .f32 := Host.absf main_arg0
  let main_cst : FVec F S_ .f32 := constant S_ .f32 0x7F800000#32
  let main_v1 : FVec F S2048x16x16x16 .f32 := broadcastInDim S2048x16x16x16 ![] bcast_S_S2048x16x16x16 main_cst
  let main_v2 : IVec S2048x16x16x16 1 := cmpf .olt main_v0 main_v1
  let main_c : IVec S_ 1 := constantI S_ 1 1#1
  let main_v3 : IVec S_ 1 := (fun x v => Host.reduce IntOp.andi x v reducesTo_S2048x16x16x16_S_d0_1_2_3 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S128x4096 .f32 := Host.absf main_arg3
  let main_cst_4 : FVec F S_ .f32 := constant S_ .f32 0x7F800000#32
  let main_v15 : FVec F S128x4096 .f32 := broadcastInDim S128x4096 ![] bcast_S_S128x4096 main_cst_4
  let main_v16 : IVec S128x4096 1 := cmpf .olt main_v14 main_v15
  fn_part1 (F := F) main_arg4 main_v13 main_v16
-- ==== Kernel.lean ====
abbrev S2048x16x16x16 : Shape := ⟨4, ![2048, 16, 16, 16]⟩
abbrev S16 : Shape := ⟨1, ![16]⟩
abbrev S128x4096 : Shape := ⟨2, ![128, 4096]⟩
abbrev S128 : Shape := ⟨1, ![128]⟩
abbrev S2048x16x256 : Shape := ⟨3, ![2048, 16, 256]⟩
abbrev S128x16x256 : Shape := ⟨3, ![128, 16, 256]⟩
abbrev S16x1 : Shape := ⟨2, ![16, 1]⟩
abbrev S1x128 : Shape := ⟨2, ![1, 128]⟩
abbrev S2048x128 : Shape := ⟨2, ![2048, 128]⟩
abbrev S256x16x256 : Shape := ⟨3, ![256, 16, 256]⟩
abbrev S16x256 : Shape := ⟨2, ![16, 256]⟩
abbrev S16x2048x128 : Shape := ⟨3, ![16, 2048, 128]⟩
abbrev S256x1x256 : Shape := ⟨3, ![256, 1, 256]⟩
abbrev S256x256 : Shape := ⟨2, ![256, 256]⟩
abbrev S128x1x256 : Shape := ⟨3, ![128, 1, 256]⟩
abbrev S128x256 : Shape := ⟨2, ![128, 256]⟩
abbrev S256x128 : Shape := ⟨2, ![256, 128]⟩
abbrev S1x256x128 : Shape := ⟨3, ![1, 256, 128]⟩
abbrev S1x256 : Shape := ⟨2, ![1, 256]⟩
abbrev S1x1 : Shape := ⟨2, ![1, 1]⟩
abbrev S1x2048x128 : Shape := ⟨3, ![1, 2048, 128]⟩

abbrev nBuf : Space → Nat
  | .hbm => 11
  | .vmem => 11
  | .smem => 0
  | _ => 0

abbrev bufTy : (tb : Table) → Fin (tcTables nBuf tb) → BufTy
  | .hbm, ⟨0, _⟩ => ⟨S2048x16x16x16, .f32⟩
  | .hbm, ⟨1, _⟩ => ⟨S16, .f32⟩
  | .hbm, ⟨2, _⟩ => ⟨S16, .f32⟩
  | .hbm, ⟨3, _⟩ => ⟨S128x4096, .f32⟩
  | .hbm, ⟨4, _⟩ => ⟨S128, .f32⟩
  | .hbm, ⟨5, _⟩ => ⟨S2048x16x256, .f32⟩
  | .hbm, ⟨6, _⟩ => ⟨S128x16x256, .f32⟩
  | .hbm, ⟨7, _⟩ => ⟨S16x1, .f32⟩
  | .hbm, ⟨8, _⟩ => ⟨S16x1, .f32⟩
  | .hbm, ⟨9, _⟩ => ⟨S1x128, .f32⟩
  | .hbm, ⟨10, _⟩ => ⟨S2048x128, .f32⟩
  | .local _ .vmem, ⟨0, _⟩ => ⟨S256x16x256, .f32⟩
  | .local _ .vmem, ⟨1, _⟩ => ⟨S256x16x256, .f32⟩
  | .local _ .vmem, ⟨2, _⟩ => ⟨S16x1, .f32⟩
  | .local _ .vmem, ⟨3, _⟩ => ⟨S16x1, .f32⟩
  | .local _ .vmem, ⟨4, _⟩ => ⟨S128x16x256, .f32⟩
  | .local _ .vmem, ⟨5, _⟩ => ⟨S1x128, .f32⟩
  | .local _ .vmem, ⟨6, _⟩ => ⟨S2048x128, .f32⟩
  | .local _ .vmem, ⟨7, _⟩ => ⟨S128x16x256, .bf16⟩
  | .local _ .vmem, ⟨8, _⟩ => ⟨S16x256, .f32⟩
  | .local _ .vmem, ⟨9, _⟩ => ⟨S16x256, .f32⟩
  | .local _ .vmem, ⟨10, _⟩ => ⟨S16x2048x128, .f32⟩
  | _, _ => ⟨S2048x16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let c0_16 : Index := 0#32
  let arg0 : BitVec 32 := BitVec.ofNat 32 (i 0).val
  let c256_i32 : BitVec 32 := 256#32
  let v24 : BitVec 32 := Scalar.muli arg0 c256_i32
  let v25 : Index := Scalar.indexCast v24
  let c0_17 : Index := 0#32
  ![0, v25.toNat, 0]
def k0_off2 (i : grid0.Coords) : Fin 3 → Nat :=
  let c1_22 : Index := 1#32
  let arg0 : BitVec 32 := BitVec.ofNat 32 (i 0).val
  let c256_i32_21 : BitVec 32 := 256#32
  let v34 : BitVec 32 := Scalar.muli arg0 c256_i32_21
  let v35 : Index := Scalar.indexCast v34
  let c0_23 : Index := 0#32
  ![1, v35.toNat, 0]
def k0_off3 (i : grid0.Coords) : Fin 3 → Nat :=
  let c2_28 : Index := 2#32
  let arg0 : BitVec 32 := BitVec.ofNat 32 (i 0).val
  let c256_i32_27 : BitVec 32 := 256#32
  let v44 : BitVec 32 := Scalar.muli arg0 c256_i32_27
  let v45 : Index := Scalar.indexCast v44
  let c0_29 : Index := 0#32
  ![2, v45.toNat, 0]
def k0_off4 (i : grid0.Coords) : Fin 3 → Nat :=
  let c3_34 : Index := 3#32
  let arg0 : BitVec 32 := BitVec.ofNat 32 (i 0).val
  let c256_i32_33 : BitVec 32 := 256#32
  let v54 : BitVec 32 := Scalar.muli arg0 c256_i32_33
  let v55 : Index := Scalar.indexCast v54
  let c0_35 : Index := 0#32
  ![3, v55.toNat, 0]
def k0_off5 (i : grid0.Coords) : Fin 3 → Nat :=
  let c4_40 : Index := 4#32
  let arg0 : BitVec 32 := BitVec.ofNat 32 (i 0).val
  let c256_i32_39 : BitVec 32 := 256#32
  let v64 : BitVec 32 := Scalar.muli arg0 c256_i32_39
  let v65 : Index := Scalar.indexCast v64
  let c0_41 : Index := 0#32
  ![4, v65.toNat, 0]
def k0_off6 (i : grid0.Coords) : Fin 3 → Nat :=
  let c5_46 : Index := 5#32
  let arg0 : BitVec 32 := BitVec.ofNat 32 (i 0).val
  let c256_i32_45 : BitVec 32 := 256#32
  let v74 : BitVec 32 := Scalar.muli arg0 c256_i32_45
  let v75 : Index := Scalar.indexCast v74
  let c0_47 : Index := 0#32
  ![5, v75.toNat, 0]
def k0_off7 (i : grid0.Coords) : Fin 3 → Nat :=
  let c6_52 : Index := 6#32
  let arg0 : BitVec 32 := BitVec.ofNat 32 (i 0).val
  let c256_i32_51 : BitVec 32 := 256#32
  let v84 : BitVec 32 := Scalar.muli arg0 c256_i32_51
  let v85 : Index := Scalar.indexCast v84
  let c0_53 : Index := 0#32
  ![6, v85.toNat, 0]
def k0_off8 (i : grid0.Coords) : Fin 3 → Nat :=
  let c7_58 : Index := 7#32
  let arg0 : BitVec 32 := BitVec.ofNat 32 (i 0).val
  let c256_i32_57 : BitVec 32 := 256#32
  let v94 : BitVec 32 := Scalar.muli arg0 c256_i32_57
  let v95 : Index := Scalar.indexCast v94
  let c0_59 : Index := 0#32
  ![7, v95.toNat, 0]
def k0_off9 (i : grid0.Coords) : Fin 3 → Nat :=
  let c8_64 : Index := 8#32
  let arg0 : BitVec 32 := BitVec.ofNat 32 (i 0).val
  let c256_i32_63 : BitVec 32 := 256#32
  let v104 : BitVec 32 := Scalar.muli arg0 c256_i32_63
  let v105 : Index := Scalar.indexCast v104
  let c0_65 : Index := 0#32
  ![8, v105.toNat, 0]
def k0_off10 (i : grid0.Coords) : Fin 3 → Nat :=
  let c9_70 : Index := 9#32
  let arg0 : BitVec 32 := BitVec.ofNat 32 (i 0).val
  let c256_i32_69 : BitVec 32 := 256#32
  let v114 : BitVec 32 := Scalar.muli arg0 c256_i32_69
  let v115 : Index := Scalar.indexCast v114
  let c0_71 : Index := 0#32
  ![9, v115.toNat, 0]
def k0_off11 (i : grid0.Coords) : Fin 3 → Nat :=
  let c10_76 : Index := 10#32
  let arg0 : BitVec 32 := BitVec.ofNat 32 (i 0).val
  let c256_i32_75 : BitVec 32 := 256#32
  let v124 : BitVec 32 := Scalar.muli arg0 c256_i32_75
  let v125 : Index := Scalar.indexCast v124
  let c0_77 : Index := 0#32
  ![10, v125.toNat, 0]
def k0_off12 (i : grid0.Coords) : Fin 3 → Nat :=
  let c11_82 : Index := 11#32
  let arg0 : BitVec 32 := BitVec.ofNat 32 (i 0).val
  let c256_i32_81 : BitVec 32 := 256#32
  let v134 : BitVec 32 := Scalar.muli arg0 c256_i32_81
  let v135 : Index := Scalar.indexCast v134
  let c0_83 : Index := 0#32
  ![11, v135.toNat, 0]
def k0_off13 (i : grid0.Coords) : Fin 3 → Nat :=
  let c12_88 : Index := 12#32
  let arg0 : BitVec 32 := BitVec.ofNat 32 (i 0).val
  let c256_i32_87 : BitVec 32 := 256#32
  let v144 : BitVec 32 := Scalar.muli arg0 c256_i32_87
  let v145 : Index := Scalar.indexCast v144
  let c0_89 : Index := 0#32
  ![12, v145.toNat, 0]
def k0_off14 (i : grid0.Coords) : Fin 3 → Nat :=
  let c13_94 : Index := 13#32
  let arg0 : BitVec 32 := BitVec.ofNat 32 (i 0).val
  let c256_i32_93 : BitVec 32 := 256#32
  let v154 : BitVec 32 := Scalar.muli arg0 c256_i32_93
  let v155 : Index := Scalar.indexCast v154
  let c0_95 : Index := 0#32
  ![13, v155.toNat, 0]
def k0_off15 (i : grid0.Coords) : Fin 3 → Nat :=
  let c14_100 : Index := 14#32
  let arg0 : BitVec 32 := BitVec.ofNat 32 (i 0).val
  let c256_i32_99 : BitVec 32 := 256#32
  let v164 : BitVec 32 := Scalar.muli arg0 c256_i32_99
  let v165 : Index := Scalar.indexCast v164
  let c0_101 : Index := 0#32
  ![14, v165.toNat, 0]
def k0_off16 (i : grid0.Coords) : Fin 3 → Nat :=
  let c15_106 : Index := 15#32
  let arg0 : BitVec 32 := BitVec.ofNat 32 (i 0).val
  let c256_i32_105 : BitVec 32 := 256#32
  let v174 : BitVec 32 := Scalar.muli arg0 c256_i32_105
  let v175 : Index := Scalar.indexCast v174
  let c0_107 : Index := 0#32
  ![15, v175.toNat, 0]
def k0_cond2 (i : grid0.Coords) : BitVec 1 :=
  let arg0 : BitVec 32 := BitVec.ofNat 32 (i 0).val
  let c7_i32 : BitVec 32 := 7#32
  let v179 : BitVec 1 := Scalar.cmpi .eq arg0 c7_i32
  let v180 : BitVec 32 := Scalar.extui v179
  let c0_i32_108 : BitVec 32 := 0#32
  let v181 : BitVec 1 := Scalar.cmpi .ne v180 c0_i32_108
  v181

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S2048x16x16x16_S2048x16x256 : S2048x16x16x16.ShapeCasts S2048x16x256
  shapeCasts_S128x4096_S128x16x256 : S128x4096.ShapeCasts S128x16x256
  shapeCasts_S16_S16x1 : S16.ShapeCasts S16x1
  shapeCasts_S128_S1x128 : S128.ShapeCasts S1x128
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S128x16x256_S128x16x256_0_0_0 : ∀ a, (![0, 0, 0] : Fin 3 → Nat) a + S128x16x256.size a ≤ S128x16x256.size a
  h_S128x16x256 : 0 < S128x16x256.numel
  shapeCasts_S128x16x256_S128x16x256 : S128x16x256.ShapeCasts S128x16x256
  bitsLt_bf16_f32 : FTy.bits .bf16 < FTy.bits .f32
  packedbf16_S128x16x256_S128x16x256_0_0_0 : (Rect.unit (s := S128x16x256) ![0, 0, 0] S128x16x256.size inb_S128x16x256_S128x16x256_0_0_0).PackedRows (EltTy.packing .bf16)
  inb_S256x16x256_S256x16x256_0_0_0 : ∀ a, (![0, 0, 0] : Fin 3 → Nat) a + S256x16x256.size a ≤ S256x16x256.size a
  h_S256x16x256 : 0 < S256x16x256.numel
  shapeCasts_S256x16x256_S256x16x256 : S256x16x256.ShapeCasts S256x16x256
  reduces_S256x16x256_S16x256 : S256x16x256.Reduces [0] S16x256
  slices_S256x16x256_o0_0_0_S256x1x256 : S256x16x256.Slices ![0, 0, 0] S256x1x256
  shapeCasts_S256x1x256_S256x256 : S256x1x256.ShapeCasts S256x256
  inb_S128x16x256_S128x1x256_0_0_0 : ∀ a, (![0, 0, 0] : Fin 3 → Nat) a + S128x1x256.size a ≤ S128x16x256.size a
  h_S128x1x256 : 0 < S128x1x256.numel
  shapeCasts_S128x1x256_S128x256 : S128x1x256.ShapeCasts S128x256
  h_S1x256x128 : 0 < S1x256x128.numel
  shapeCasts_S1x256x128_S256x128 : S1x256x128.ShapeCasts S256x128
  shapeCasts_S256x128_S1x256x128 : S256x128.ShapeCasts S1x256x128
  slices_S256x16x256_o0_1_0_S256x1x256 : S256x16x256.Slices ![0, 1, 0] S256x1x256
  inb_S128x16x256_S128x1x256_0_1_0 : ∀ a, (![0, 1, 0] : Fin 3 → Nat) a + S128x1x256.size a ≤ S128x16x256.size a
  slices_S256x16x256_o0_2_0_S256x1x256 : S256x16x256.Slices ![0, 2, 0] S256x1x256
  inb_S128x16x256_S128x1x256_0_2_0 : ∀ a, (![0, 2, 0] : Fin 3 → Nat) a + S128x1x256.size a ≤ S128x16x256.size a
  slices_S256x16x256_o0_3_0_S256x1x256 : S256x16x256.Slices ![0, 3, 0] S256x1x256
  inb_S128x16x256_S128x1x256_0_3_0 : ∀ a, (![0, 3, 0] : Fin 3 → Nat) a + S128x1x256.size a ≤ S128x16x256.size a
  slices_S256x16x256_o0_4_0_S256x1x256 : S256x16x256.Slices ![0, 4, 0] S256x1x256
  inb_S128x16x256_S128x1x256_0_4_0 : ∀ a, (![0, 4, 0] : Fin 3 → Nat) a + S128x1x256.size a ≤ S128x16x256.size a
  slices_S256x16x256_o0_5_0_S256x1x256 : S256x16x256.Slices ![0, 5, 0] S256x1x256
  inb_S128x16x256_S128x1x256_0_5_0 : ∀ a, (![0, 5, 0] : Fin 3 → Nat) a + S128x1x256.size a ≤ S128x16x256.size a
  slices_S256x16x256_o0_6_0_S256x1x256 : S256x16x256.Slices ![0, 6, 0] S256x1x256
  inb_S128x16x256_S128x1x256_0_6_0 : ∀ a, (![0, 6, 0] : Fin 3 → Nat) a + S128x1x256.size a ≤ S128x16x256.size a
  slices_S256x16x256_o0_7_0_S256x1x256 : S256x16x256.Slices ![0, 7, 0] S256x1x256
  inb_S128x16x256_S128x1x256_0_7_0 : ∀ a, (![0, 7, 0] : Fin 3 → Nat) a + S128x1x256.size a ≤ S128x16x256.size a
  slices_S256x16x256_o0_8_0_S256x1x256 : S256x16x256.Slices ![0, 8, 0] S256x1x256
  inb_S128x16x256_S128x1x256_0_8_0 : ∀ a, (![0, 8, 0] : Fin 3 → Nat) a + S128x1x256.size a ≤ S128x16x256.size a
  slices_S256x16x256_o0_9_0_S256x1x256 : S256x16x256.Slices ![0, 9, 0] S256x1x256
  inb_S128x16x256_S128x1x256_0_9_0 : ∀ a, (![0, 9, 0] : Fin 3 → Nat) a + S128x1x256.size a ≤ S128x16x256.size a
  slices_S256x16x256_o0_10_0_S256x1x256 : S256x16x256.Slices ![0, 10, 0] S256x1x256
  inb_S128x16x256_S128x1x256_0_10_0 : ∀ a, (![0, 10, 0] : Fin 3 → Nat) a + S128x1x256.size a ≤ S128x16x256.size a
  slices_S256x16x256_o0_11_0_S256x1x256 : S256x16x256.Slices ![0, 11, 0] S256x1x256
  inb_S128x16x256_S128x1x256_0_11_0 : ∀ a, (![0, 11, 0] : Fin 3 → Nat) a + S128x1x256.size a ≤ S128x16x256.size a
  slices_S256x16x256_o0_12_0_S256x1x256 : S256x16x256.Slices ![0, 12, 0] S256x1x256
  inb_S128x16x256_S128x1x256_0_12_0 : ∀ a, (![0, 12, 0] : Fin 3 → Nat) a + S128x1x256.size a ≤ S128x16x256.size a
  slices_S256x16x256_o0_13_0_S256x1x256 : S256x16x256.Slices ![0, 13, 0] S256x1x256
  inb_S128x16x256_S128x1x256_0_13_0 : ∀ a, (![0, 13, 0] : Fin 3 → Nat) a + S128x1x256.size a ≤ S128x16x256.size a
  slices_S256x16x256_o0_14_0_S256x1x256 : S256x16x256.Slices ![0, 14, 0] S256x1x256
  inb_S128x16x256_S128x1x256_0_14_0 : ∀ a, (![0, 14, 0] : Fin 3 → Nat) a + S128x1x256.size a ≤ S128x16x256.size a
  slices_S256x16x256_o0_15_0_S256x1x256 : S256x16x256.Slices ![0, 15, 0] S256x1x256
  inb_S128x16x256_S128x1x256_0_15_0 : ∀ a, (![0, 15, 0] : Fin 3 → Nat) a + S128x1x256.size a ≤ S128x16x256.size a
  reduces_S16x256_S16 : S16x256.Reduces [1] S16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S16x1_o0_0_S1x1 : S16x1.Slices ![0, 0] S1x1
  broadcasts_S1x1_S1x128 : S1x1.Broadcasts S1x128
  slices_S16x1_o1_0_S1x1 : S16x1.Slices ![1, 0] S1x1
  slices_S16x1_o2_0_S1x1 : S16x1.Slices ![2, 0] S1x1
  slices_S16x1_o3_0_S1x1 : S16x1.Slices ![3, 0] S1x1
  slices_S16x1_o4_0_S1x1 : S16x1.Slices ![4, 0] S1x1
  slices_S16x1_o5_0_S1x1 : S16x1.Slices ![5, 0] S1x1
  slices_S16x1_o6_0_S1x1 : S16x1.Slices ![6, 0] S1x1
  slices_S16x1_o7_0_S1x1 : S16x1.Slices ![7, 0] S1x1
  slices_S16x1_o8_0_S1x1 : S16x1.Slices ![8, 0] S1x1
  slices_S16x1_o9_0_S1x1 : S16x1.Slices ![9, 0] S1x1
  slices_S16x1_o10_0_S1x1 : S16x1.Slices ![10, 0] S1x1
  slices_S16x1_o11_0_S1x1 : S16x1.Slices ![11, 0] S1x1
  slices_S16x1_o12_0_S1x1 : S16x1.Slices ![12, 0] S1x1
  slices_S16x1_o13_0_S1x1 : S16x1.Slices ![13, 0] S1x1
  slices_S16x1_o14_0_S1x1 : S16x1.Slices ![14, 0] S1x1
  slices_S16x1_o15_0_S1x1 : S16x1.Slices ![15, 0] S1x1
  inb_S16x2048x128_S1x2048x128_0_0_0 : ∀ a, (![0, 0, 0] : Fin 3 → Nat) a + S1x2048x128.size a ≤ S16x2048x128.size a
  h_S1x2048x128 : 0 < S1x2048x128.numel
  shapeCasts_S1x2048x128_S2048x128 : S1x2048x128.ShapeCasts S2048x128
  broadcasts_S1x1_S2048x128 : S1x1.Broadcasts S2048x128
  inb_S16x2048x128_S1x2048x128_1_0_0 : ∀ a, (![1, 0, 0] : Fin 3 → Nat) a + S1x2048x128.size a ≤ S16x2048x128.size a
  inb_S16x2048x128_S1x2048x128_2_0_0 : ∀ a, (![2, 0, 0] : Fin 3 → Nat) a + S1x2048x128.size a ≤ S16x2048x128.size a
  inb_S16x2048x128_S1x2048x128_3_0_0 : ∀ a, (![3, 0, 0] : Fin 3 → Nat) a + S1x2048x128.size a ≤ S16x2048x128.size a
  inb_S16x2048x128_S1x2048x128_4_0_0 : ∀ a, (![4, 0, 0] : Fin 3 → Nat) a + S1x2048x128.size a ≤ S16x2048x128.size a
  inb_S16x2048x128_S1x2048x128_5_0_0 : ∀ a, (![5, 0, 0] : Fin 3 → Nat) a + S1x2048x128.size a ≤ S16x2048x128.size a
  inb_S16x2048x128_S1x2048x128_6_0_0 : ∀ a, (![6, 0, 0] : Fin 3 → Nat) a + S1x2048x128.size a ≤ S16x2048x128.size a
  inb_S16x2048x128_S1x2048x128_7_0_0 : ∀ a, (![7, 0, 0] : Fin 3 → Nat) a + S1x2048x128.size a ≤ S16x2048x128.size a
  inb_S16x2048x128_S1x2048x128_8_0_0 : ∀ a, (![8, 0, 0] : Fin 3 → Nat) a + S1x2048x128.size a ≤ S16x2048x128.size a
  inb_S16x2048x128_S1x2048x128_9_0_0 : ∀ a, (![9, 0, 0] : Fin 3 → Nat) a + S1x2048x128.size a ≤ S16x2048x128.size a
  inb_S16x2048x128_S1x2048x128_10_0_0 : ∀ a, (![10, 0, 0] : Fin 3 → Nat) a + S1x2048x128.size a ≤ S16x2048x128.size a
  inb_S16x2048x128_S1x2048x128_11_0_0 : ∀ a, (![11, 0, 0] : Fin 3 → Nat) a + S1x2048x128.size a ≤ S16x2048x128.size a
  inb_S16x2048x128_S1x2048x128_12_0_0 : ∀ a, (![12, 0, 0] : Fin 3 → Nat) a + S1x2048x128.size a ≤ S16x2048x128.size a
  inb_S16x2048x128_S1x2048x128_13_0_0 : ∀ a, (![13, 0, 0] : Fin 3 → Nat) a + S1x2048x128.size a ≤ S16x2048x128.size a
  inb_S16x2048x128_S1x2048x128_14_0_0 : ∀ a, (![14, 0, 0] : Fin 3 → Nat) a + S1x2048x128.size a ≤ S16x2048x128.size a
  inb_S16x2048x128_S1x2048x128_15_0_0 : ∀ a, (![15, 0, 0] : Fin 3 → Nat) a + S1x2048x128.size a ≤ S16x2048x128.size a
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  dot_S256x256_S128x256_S256x128_1_1_0_0_n_n_wf : DotDims.WF S256x256 S128x256 S256x128 [1] [1] [0] [0] [] []
  dot_S1x256_S128x256_S1x128_1_1_0_0_n_n_wf : DotDims.WF S1x256 S128x256 S1x128 [1] [1] [0] [0] [] []
  hrank0 : 0 < grid0.rank
  k0_off1_inb : ∀ i : grid0.Coords, ∀ a, (k0_off1 i) a + S1x256x128.size a ≤ S16x2048x128.size a
  k0_off2_inb : ∀ i : grid0.Coords, ∀ a, (k0_off2 i) a + S1x256x128.size a ≤ S16x2048x128.size a
  k0_off3_inb : ∀ i : grid0.Coords, ∀ a, (k0_off3 i) a + S1x256x128.size a ≤ S16x2048x128.size a
  k0_off4_inb : ∀ i : grid0.Coords, ∀ a, (k0_off4 i) a + S1x256x128.size a ≤ S16x2048x128.size a
  k0_off5_inb : ∀ i : grid0.Coords, ∀ a, (k0_off5 i) a + S1x256x128.size a ≤ S16x2048x128.size a
  k0_off6_inb : ∀ i : grid0.Coords, ∀ a, (k0_off6 i) a + S1x256x128.size a ≤ S16x2048x128.size a
  k0_off7_inb : ∀ i : grid0.Coords, ∀ a, (k0_off7 i) a + S1x256x128.size a ≤ S16x2048x128.size a
  k0_off8_inb : ∀ i : grid0.Coords, ∀ a, (k0_off8 i) a + S1x256x128.size a ≤ S16x2048x128.size a
  k0_off9_inb : ∀ i : grid0.Coords, ∀ a, (k0_off9 i) a + S1x256x128.size a ≤ S16x2048x128.size a
  k0_off10_inb : ∀ i : grid0.Coords, ∀ a, (k0_off10 i) a + S1x256x128.size a ≤ S16x2048x128.size a
  k0_off11_inb : ∀ i : grid0.Coords, ∀ a, (k0_off11 i) a + S1x256x128.size a ≤ S16x2048x128.size a
  k0_off12_inb : ∀ i : grid0.Coords, ∀ a, (k0_off12 i) a + S1x256x128.size a ≤ S16x2048x128.size a
  k0_off13_inb : ∀ i : grid0.Coords, ∀ a, (k0_off13 i) a + S1x256x128.size a ≤ S16x2048x128.size a
  k0_off14_inb : ∀ i : grid0.Coords, ∀ a, (k0_off14 i) a + S1x256x128.size a ≤ S16x2048x128.size a
  k0_off15_inb : ∀ i : grid0.Coords, ∀ a, (k0_off15 i) a + S1x256x128.size a ≤ S16x2048x128.size a
  k0_off16_inb : ∀ i : grid0.Coords, ∀ a, (k0_off16 i) a + S1x256x128.size a ≤ S16x2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16x256.size a ≤ S2048x16x256.size a
  hwx0_0 : ∀ i : grid0.Coords, EltTy.bits .f32 = 32 ∨ (Rect.block (s := S2048x16x256) S256x16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1.size a ≤ S16x1.size a
  hwx0_1 : ∀ i : grid0.Coords, EltTy.bits .f32 = 32 ∨ (Rect.block (s := S16x1) S16x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x16x256.size a ≤ S128x16x256.size a
  hwx0_3 : ∀ i : grid0.Coords, EltTy.bits .f32 = 32 ∨ (Rect.block (s := S128x16x256) S128x16x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S2048x128.size a
  hwx0_5 : ∀ i : grid0.Coords, EltTy.bits .f32 = 32 ∨ (Rect.block (s := S2048x128) S2048x128.size (cc0_transform_5 i) (hinb0_5 i)).WholeWords (EltTy.packing .f32)

variable [Facts₀]

def dot_S256x256_S128x256_S256x128_1_1_0_0_n_n : DotDims S256x256 S128x256 S256x128 where
  lhsContracting := [1]
  rhsContracting := [1]
  lhsNonContracting := [0]
  rhsNonContracting := [0]
  lhsBatch := []
  rhsBatch := []
  wf := dot_S256x256_S128x256_S256x128_1_1_0_0_n_n_wf
def dot_S1x256_S128x256_S1x128_1_1_0_0_n_n : DotDims S1x256 S128x256 S1x128 where
  lhsContracting := [1]
  rhsContracting := [1]
  lhsNonContracting := [0]
  rhsNonContracting := [0]
  lhsBatch := []
  rhsBatch := []
  wf := dot_S1x256_S128x256_S1x128_1_1_0_0_n_n_wf

abbrev win0_0 : Pipeline.Window sig grid0 :=
  Pipeline.Window.ofSpec (Memref.whole main_v0) S256x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x16x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2048x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x16x16x16 : Shape := ⟨4, ![2048, 16, 16, 16]⟩
abbrev S16 : Shape := ⟨1, ![16]⟩
abbrev S128x4096 : Shape := ⟨2, ![128, 4096]⟩
abbrev S128 : Shape := ⟨1, ![128]⟩
abbrev S2048x16x256 : Shape := ⟨3, ![2048, 16, 256]⟩
abbrev S128x16x256 : Shape := ⟨3, ![128, 16, 256]⟩
abbrev S16x1 : Shape := ⟨2, ![16, 1]⟩
abbrev S16x2048x128 : Shape := ⟨3, ![16, 2048, 128]⟩
abbrev S256x16x256 : Shape := ⟨3, ![256, 16, 256]⟩
abbrev S16x256x128 : Shape := ⟨3, ![16, 256, 128]⟩
abbrev S16x256 : Shape := ⟨2, ![16, 256]⟩
abbrev S256x1x256 : Shape := ⟨3, ![256, 1, 256]⟩
abbrev S256x256 : Shape := ⟨2, ![256, 256]⟩
abbrev S128x1x256 : Shape := ⟨3, ![128, 1, 256]⟩
abbrev S128x256 : Shape := ⟨2, ![128, 256]⟩
abbrev S256x128 : Shape := ⟨2, ![256, 128]⟩
abbrev S1x256x128 : Shape := ⟨3, ![1, 256, 128]⟩
abbrev S_ : Shape := ⟨0, ![]⟩
abbrev S128x16 : Shape := ⟨2, ![128, 16]⟩
abbrev S1x128 : Shape := ⟨2, ![1, 128]⟩
abbrev S1x16 : Shape := ⟨2, ![1, 16]⟩
abbrev S16x128 : Shape := ⟨2, ![16, 128]⟩
abbrev S2048x128 : Shape := ⟨2, ![2048, 128]⟩
abbrev S1x1 : Shape := ⟨2, ![1, 1]⟩

abbrev nBuf : Space → Nat
  | .hbm => 20
  | .vmem => 17
  | .smem => 0
  | _ => 0

abbrev bufTy : (tb : Table) → Fin (tcTables nBuf tb) → BufTy
  | .hbm, ⟨0, _⟩ => ⟨S2048x16x16x16, .f32⟩
  | .hbm, ⟨1, _⟩ => ⟨S16, .f32⟩
  | .hbm, ⟨2, _⟩ => ⟨S16, .f32⟩
  | .hbm, ⟨3, _⟩ => ⟨S128x4096, .f32⟩
  | .hbm, ⟨4, _⟩ => ⟨S128, .f32⟩
  | .hbm, ⟨5, _⟩ => ⟨S2048x16x256, .f32⟩
  | .hbm, ⟨6, _⟩ => ⟨S128x16x256, .f32⟩
  | .hbm, ⟨7, _⟩ => ⟨S16x1, .f32⟩
  | .hbm, ⟨8, _⟩ => ⟨S16x1, .f32⟩
  | .hbm, ⟨9, _⟩ => ⟨S16x2048x128, .f32⟩
  | .hbm, ⟨10, _⟩ => ⟨S16x1, .f32⟩
  | .hbm, ⟨11, _⟩ => ⟨S16x1, .f32⟩
  | .hbm, ⟨12, _⟩ => ⟨S_, .f32⟩
  | .hbm, ⟨13, _⟩ => ⟨S128x16, .f32⟩
  | .hbm, ⟨14, _⟩ => ⟨S1x128, .f32⟩
  | .hbm, ⟨15, _⟩ => ⟨S1x16, .f32⟩
  | .hbm, ⟨16, _⟩ => ⟨S16x128, .f32⟩
  | .hbm, ⟨17, _⟩ => ⟨S1x128, .f32⟩
  | .hbm, ⟨18, _⟩ => ⟨S1x128, .f32⟩
  | .hbm, ⟨19, _⟩ => ⟨S2048x128, .f32⟩
  | .local _ .vmem, ⟨0, _⟩ => ⟨S256x16x256, .f32⟩
  | .local _ .vmem, ⟨1, _⟩ => ⟨S256x16x256, .f32⟩
  | .local _ .vmem, ⟨2, _⟩ => ⟨S16x1, .f32⟩
  | .local _ .vmem, ⟨3, _⟩ => ⟨S16x1, .f32⟩
  | .local _ .vmem, ⟨4, _⟩ => ⟨S128x16x256, .f32⟩
  | .local _ .vmem, ⟨5, _⟩ => ⟨S16x256x128, .f32⟩
  | .local _ .vmem, ⟨6, _⟩ => ⟨S16x256x128, .f32⟩
  | .local _ .vmem, ⟨7, _⟩ => ⟨S16x1, .f32⟩
  | .local _ .vmem, ⟨8, _⟩ => ⟨S16x1, .f32⟩
  | .local _ .vmem, ⟨9, _⟩ => ⟨S16x256, .f32⟩
  | .local _ .vmem, ⟨10, _⟩ => ⟨S16x256, .f32⟩
  | .local _ .vmem, ⟨11, _⟩ => ⟨S16x256x128, .f32⟩
  | .local _ .vmem, ⟨12, _⟩ => ⟨S16x256x128, .f32⟩
  | .local _ .vmem, ⟨13, _⟩ => ⟨S16x1, .f32⟩
  | .local _ .vmem, ⟨14, _⟩ => ⟨S1x128, .f32⟩
  | .local _ .vmem, ⟨15, _⟩ => ⟨S256x128, .f32⟩
  | .local _ .vmem, ⟨16, _⟩ => ⟨S256x128, .f32⟩
  | _, _ => ⟨S2048x16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v146 : BitVec 1 := Scalar.cmpi .eq arg0 c7_i32
  let v147 : BitVec 32 := Scalar.extui v146
  let c0_i32_157 : BitVec 32 := 0#32
  let v148 : BitVec 1 := Scalar.cmpi .ne v147 c0_i32_157
  v148

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S2048x16x16x16_S2048x16x256 : S2048x16x16x16.ShapeCasts S2048x16x256
  shapeCasts_S128x4096_S128x16x256 : S128x4096.ShapeCasts S128x16x256
  shapeCasts_S16_S16x1 : S16.ShapeCasts S16x1
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S256x16x256_S256x16x256_0_0_0 : ∀ a, (![0, 0, 0] : Fin 3 → Nat) a + S256x16x256.size a ≤ S256x16x256.size a
  h_S256x16x256 : 0 < S256x16x256.numel
  shapeCasts_S256x16x256_S256x16x256 : S256x16x256.ShapeCasts S256x16x256
  reduces_S256x16x256_S16x256 : S256x16x256.Reduces [0] S16x256
  inb_S256x16x256_S256x1x256_0_0_0 : ∀ a, (![0, 0, 0] : Fin 3 → Nat) a + S256x1x256.size a ≤ S256x16x256.size a
  h_S256x1x256 : 0 < S256x1x256.numel
  shapeCasts_S256x1x256_S256x256 : S256x1x256.ShapeCasts S256x256
  inb_S128x16x256_S128x1x256_0_0_0 : ∀ a, (![0, 0, 0] : Fin 3 → Nat) a + S128x1x256.size a ≤ S128x16x256.size a
  h_S128x1x256 : 0 < S128x1x256.numel
  shapeCasts_S128x1x256_S128x256 : S128x1x256.ShapeCasts S128x256
  inb_S16x256x128_S1x256x128_0_0_0 : ∀ a, (![0, 0, 0] : Fin 3 → Nat) a + S1x256x128.size a ≤ S16x256x128.size a
  h_S1x256x128 : 0 < S1x256x128.numel
  shapeCasts_S1x256x128_S256x128 : S1x256x128.ShapeCasts S256x128
  shapeCasts_S256x128_S1x256x128 : S256x128.ShapeCasts S1x256x128
  inb_S256x16x256_S256x1x256_0_1_0 : ∀ a, (![0, 1, 0] : Fin 3 → Nat) a + S256x1x256.size a ≤ S256x16x256.size a
  inb_S128x16x256_S128x1x256_0_1_0 : ∀ a, (![0, 1, 0] : Fin 3 → Nat) a + S128x1x256.size a ≤ S128x16x256.size a
  inb_S16x256x128_S1x256x128_1_0_0 : ∀ a, (![1, 0, 0] : Fin 3 → Nat) a + S1x256x128.size a ≤ S16x256x128.size a
  inb_S256x16x256_S256x1x256_0_2_0 : ∀ a, (![0, 2, 0] : Fin 3 → Nat) a + S256x1x256.size a ≤ S256x16x256.size a
  inb_S128x16x256_S128x1x256_0_2_0 : ∀ a, (![0, 2, 0] : Fin 3 → Nat) a + S128x1x256.size a ≤ S128x16x256.size a
  inb_S16x256x128_S1x256x128_2_0_0 : ∀ a, (![2, 0, 0] : Fin 3 → Nat) a + S1x256x128.size a ≤ S16x256x128.size a
  inb_S256x16x256_S256x1x256_0_3_0 : ∀ a, (![0, 3, 0] : Fin 3 → Nat) a + S256x1x256.size a ≤ S256x16x256.size a
  inb_S128x16x256_S128x1x256_0_3_0 : ∀ a, (![0, 3, 0] : Fin 3 → Nat) a + S128x1x256.size a ≤ S128x16x256.size a
  inb_S16x256x128_S1x256x128_3_0_0 : ∀ a, (![3, 0, 0] : Fin 3 → Nat) a + S1x256x128.size a ≤ S16x256x128.size a
  inb_S256x16x256_S256x1x256_0_4_0 : ∀ a, (![0, 4, 0] : Fin 3 → Nat) a + S256x1x256.size a ≤ S256x16x256.size a
  inb_S128x16x256_S128x1x256_0_4_0 : ∀ a, (![0, 4, 0] : Fin 3 → Nat) a + S128x1x256.size a ≤ S128x16x256.size a
  inb_S16x256x128_S1x256x128_4_0_0 : ∀ a, (![4, 0, 0] : Fin 3 → Nat) a + S1x256x128.size a ≤ S16x256x128.size a
  inb_S256x16x256_S256x1x256_0_5_0 : ∀ a, (![0, 5, 0] : Fin 3 → Nat) a + S256x1x256.size a ≤ S256x16x256.size a
  inb_S128x16x256_S128x1x256_0_5_0 : ∀ a, (![0, 5, 0] : Fin 3 → Nat) a + S128x1x256.size a ≤ S128x16x256.size a
  inb_S16x256x128_S1x256x128_5_0_0 : ∀ a, (![5, 0, 0] : Fin 3 → Nat) a + S1x256x128.size a ≤ S16x256x128.size a
  inb_S256x16x256_S256x1x256_0_6_0 : ∀ a, (![0, 6, 0] : Fin 3 → Nat) a + S256x1x256.size a ≤ S256x16x256.size a
  inb_S128x16x256_S128x1x256_0_6_0 : ∀ a, (![0, 6, 0] : Fin 3 → Nat) a + S128x1x256.size a ≤ S128x16x256.size a
  inb_S16x256x128_S1x256x128_6_0_0 : ∀ a, (![6, 0, 0] : Fin 3 → Nat) a + S1x256x128.size a ≤ S16x256x128.size a
  inb_S256x16x256_S256x1x256_0_7_0 : ∀ a, (![0, 7, 0] : Fin 3 → Nat) a + S256x1x256.size a ≤ S256x16x256.size a
  inb_S128x16x256_S128x1x256_0_7_0 : ∀ a, (![0, 7, 0] : Fin 3 → Nat) a + S128x1x256.size a ≤ S128x16x256.size a
  inb_S16x256x128_S1x256x128_7_0_0 : ∀ a, (![7, 0, 0] : Fin 3 → Nat) a + S1x256x128.size a ≤ S16x256x128.size a
  inb_S256x16x256_S256x1x256_0_8_0 : ∀ a, (![0, 8, 0] : Fin 3 → Nat) a + S256x1x256.size a ≤ S256x16x256.size a
  inb_S128x16x256_S128x1x256_0_8_0 : ∀ a, (![0, 8, 0] : Fin 3 → Nat) a + S128x1x256.size a ≤ S128x16x256.size a
  inb_S16x256x128_S1x256x128_8_0_0 : ∀ a, (![8, 0, 0] : Fin 3 → Nat) a + S1x256x128.size a ≤ S16x256x128.size a
  inb_S256x16x256_S256x1x256_0_9_0 : ∀ a, (![0, 9, 0] : Fin 3 → Nat) a + S256x1x256.size a ≤ S256x16x256.size a
  inb_S128x16x256_S128x1x256_0_9_0 : ∀ a, (![0, 9, 0] : Fin 3 → Nat) a + S128x1x256.size a ≤ S128x16x256.size a
  inb_S16x256x128_S1x256x128_9_0_0 : ∀ a, (![9, 0, 0] : Fin 3 → Nat) a + S1x256x128.size a ≤ S16x256x128.size a
  inb_S256x16x256_S256x1x256_0_10_0 : ∀ a, (![0, 10, 0] : Fin 3 → Nat) a + S256x1x256.size a ≤ S256x16x256.size a
  inb_S128x16x256_S128x1x256_0_10_0 : ∀ a, (![0, 10, 0] : Fin 3 → Nat) a + S128x1x256.size a ≤ S128x16x256.size a
  inb_S16x256x128_S1x256x128_10_0_0 : ∀ a, (![10, 0, 0] : Fin 3 → Nat) a + S1x256x128.size a ≤ S16x256x128.size a
  inb_S256x16x256_S256x1x256_0_11_0 : ∀ a, (![0, 11, 0] : Fin 3 → Nat) a + S256x1x256.size a ≤ S256x16x256.size a
  inb_S128x16x256_S128x1x256_0_11_0 : ∀ a, (![0, 11, 0] : Fin 3 → Nat) a + S128x1x256.size a ≤ S128x16x256.size a
  inb_S16x256x128_S1x256x128_11_0_0 : ∀ a, (![11, 0, 0] : Fin 3 → Nat) a + S1x256x128.size a ≤ S16x256x128.size a
  inb_S256x16x256_S256x1x256_0_12_0 : ∀ a, (![0, 12, 0] : Fin 3 → Nat) a + S256x1x256.size a ≤ S256x16x256.size a
  inb_S128x16x256_S128x1x256_0_12_0 : ∀ a, (![0, 12, 0] : Fin 3 → Nat) a + S128x1x256.size a ≤ S128x16x256.size a
  inb_S16x256x128_S1x256x128_12_0_0 : ∀ a, (![12, 0, 0] : Fin 3 → Nat) a + S1x256x128.size a ≤ S16x256x128.size a
  inb_S256x16x256_S256x1x256_0_13_0 : ∀ a, (![0, 13, 0] : Fin 3 → Nat) a + S256x1x256.size a ≤ S256x16x256.size a
  inb_S128x16x256_S128x1x256_0_13_0 : ∀ a, (![0, 13, 0] : Fin 3 → Nat) a + S128x1x256.size a ≤ S128x16x256.size a
  inb_S16x256x128_S1x256x128_13_0_0 : ∀ a, (![13, 0, 0] : Fin 3 → Nat) a + S1x256x128.size a ≤ S16x256x128.size a
  inb_S256x16x256_S256x1x256_0_14_0 : ∀ a, (![0, 14, 0] : Fin 3 → Nat) a + S256x1x256.size a ≤ S256x16x256.size a
  inb_S128x16x256_S128x1x256_0_14_0 : ∀ a, (![0, 14, 0] : Fin 3 → Nat) a + S128x1x256.size a ≤ S128x16x256.size a
  inb_S16x256x128_S1x256x128_14_0_0 : ∀ a, (![14, 0, 0] : Fin 3 → Nat) a + S1x256x128.size a ≤ S16x256x128.size a
  inb_S256x16x256_S256x1x256_0_15_0 : ∀ a, (![0, 15, 0] : Fin 3 → Nat) a + S256x1x256.size a ≤ S256x16x256.size a
  inb_S128x16x256_S128x1x256_0_15_0 : ∀ a, (![0, 15, 0] : Fin 3 → Nat) a + S128x1x256.size a ≤ S128x16x256.size a
  inb_S16x256x128_S1x256x128_15_0_0 : ∀ a, (![15, 0, 0] : Fin 3 → Nat) a + S1x256x128.size a ≤ S16x256x128.size a
  reduces_S16x256_S16 : S16x256.Reduces [1] S16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  reducesTo_S128x16x256_S128x16_d2 : S128x16x256.ReducesTo [2] S128x16
  h_S_ : 0 < S_.numel
  shapeCasts_S128_S1x128 : S128.ShapeCasts S1x128
  shapeCasts_S16x1_S1x16 : S16x1.ShapeCasts S1x16
  transposes_S128x16_S16x128_1_0 : S128x16.Transposes [1, 0] S16x128
  inb_S16x1_S1x1_0_0 : ∀ a, (![0, 0] : Fin 2 → Nat) a + S1x1.size a ≤ S16x1.size a
  h_S1x1 : 0 < S1x1.numel
  shapeCasts_S1x1_S1x1 : S1x1.ShapeCasts S1x1
  broadcasts_S1x1_S256x128 : S1x1.Broadcasts S256x128
  inb_S16x1_S1x1_1_0 : ∀ a, (![1, 0] : Fin 2 → Nat) a + S1x1.size a ≤ S16x1.size a
  inb_S16x1_S1x1_2_0 : ∀ a, (![2, 0] : Fin 2 → Nat) a + S1x1.size a ≤ S16x1.size a
  inb_S16x1_S1x1_3_0 : ∀ a, (![3, 0] : Fin 2 → Nat) a + S1x1.size a ≤ S16x1.size a
  inb_S16x1_S1x1_4_0 : ∀ a, (![4, 0] : Fin 2 → Nat) a + S1x1.size a ≤ S16x1.size a
  inb_S16x1_S1x1_5_0 : ∀ a, (![5, 0] : Fin 2 → Nat) a + S1x1.size a ≤ S16x1.size a
  inb_S16x1_S1x1_6_0 : ∀ a, (![6, 0] : Fin 2 → Nat) a + S1x1.size a ≤ S16x1.size a
  inb_S16x1_S1x1_7_0 : ∀ a, (![7, 0] : Fin 2 → Nat) a + S1x1.size a ≤ S16x1.size a
  inb_S16x1_S1x1_8_0 : ∀ a, (![8, 0] : Fin 2 → Nat) a + S1x1.size a ≤ S16x1.size a
  inb_S16x1_S1x1_9_0 : ∀ a, (![9, 0] : Fin 2 → Nat) a + S1x1.size a ≤ S16x1.size a
  inb_S16x1_S1x1_10_0 : ∀ a, (![10, 0] : Fin 2 → Nat) a + S1x1.size a ≤ S16x1.size a
  inb_S16x1_S1x1_11_0 : ∀ a, (![11, 0] : Fin 2 → Nat) a + S1x1.size a ≤ S16x1.size a
  inb_S16x1_S1x1_12_0 : ∀ a, (![12, 0] : Fin 2 → Nat) a + S1x1.size a ≤ S16x1.size a
  inb_S16x1_S1x1_13_0 : ∀ a, (![13, 0] : Fin 2 → Nat) a + S1x1.size a ≤ S16x1.size a
  inb_S16x1_S1x1_14_0 : ∀ a, (![14, 0] : Fin 2 → Nat) a + S1x1.size a ≤ S16x1.size a
  inb_S16x1_S1x1_15_0 : ∀ a, (![15, 0] : Fin 2 → Nat) a + S1x1.size a ≤ S16x1.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  dot_S256x256_S128x256_S256x128_1_1_0_0_n_n_wf : DotDims.WF S256x256 S128x256 S256x128 [1] [1] [0] [0] [] []
  dot_S1x16_S16x128_S1x128_1_0_0_1_n_n_wf : DotDims.WF S1x16 S16x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16x256.size a ≤ S2048x16x256.size a
  hwx0_0 : ∀ i : grid0.Coords, EltTy.bits .f32 = 32 ∨ (Rect.block (s := S2048x16x256) S256x16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1.size a ≤ S16x1.size a
  hwx0_1 : ∀ i : grid0.Coords, EltTy.bits .f32 = 32 ∨ (Rect.block (s := S16x1) S16x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x16x256.size a ≤ S128x16x256.size a
  hwx0_3 : ∀ i : grid0.Coords, EltTy.bits .f32 = 32 ∨ (Rect.block (s := S128x16x256) S128x16x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256x128.size a ≤ S16x2048x128.size a
  hwx0_4 : ∀ i : grid0.Coords, EltTy.bits .f32 = 32 ∨ (Rect.block (s := S16x2048x128) S16x256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1.size a ≤ S16x1.size a
  hwx0_6 : ∀ i : grid0.Coords, EltTy.bits .f32 = 32 ∨ (Rect.block (s := S16x1) S16x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x256x128.size a ≤ S16x2048x128.size a
  hwx1_0 : ∀ i : grid1.Coords, EltTy.bits .f32 = 32 ∨ (Rect.block (s := S16x2048x128) S16x256x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x1.size a ≤ S16x1.size a
  hwx1_1 : ∀ i : grid1.Coords, EltTy.bits .f32 = 32 ∨ (Rect.block (s := S16x1) S16x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S2048x128.size a
  hwx1_3 : ∀ i : grid1.Coords, EltTy.bits .f32 = 32 ∨ (Rect.block (s := S2048x128) S256x128.size (cc1_transform_3 i) (hinb1_3 i)).WholeWords (EltTy.packing .f32)

variable [Facts₀]

def dot_S256x256_S128x256_S256x128_1_1_0_0_n_n : DotDims S256x256 S128x256 S256x128 where
  lhsContracting := [1]
  rhsContracting := [1]
  lhsNonContracting := [0]
  rhsNonContracting := [0]
  lhsBatch := []
  rhsBatch := []
  wf := dot_S256x256_S128x256_S256x128_1_1_0_0_n_n_wf
def dot_S1x16_S16x128_S1x128_1_0_0_1_n_n : DotDims S1x16 S16x128 S1x128 where
  lhsContracting := [1]
  rhsContracting := [0]
  lhsNonContracting := [0]
  rhsNonContracting := [1]
  lhsBatch := []
  rhsBatch := []
  wf := dot_S1x16_S16x128_S1x128_1_0_0_1_n_n_wf

abbrev win0_0 : Pipeline.Window sig grid0 :=
  Pipeline.Window.ofSpec (Memref.whole main_v0) S256x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x16x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S16x256x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S16x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S16x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v4_0) S16x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S16x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.KI.Common.lean ====
import proofs.«135015_g2000502485364553_pallasbulk_1302_1_alg».proof.Proof.Gen.KernelIdeal.Frame
import proofs.«135015_g2000502485364553_pallasbulk_1302_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

theorem idleAt0_5 : ∀ t : Fin cfg0.N, cfg0.idle 5 (grid0.coords t) = true ↔ ¬ t.val % 8 = 7 := by decide +kernel
theorem liveAt0_5 : ∀ t : Fin cfg0.N, cfg0.idle 5 (grid0.coords t) = false ↔ t.val % 8 = 7 := by decide +kernel

abbrev ms0_0 (t : Fin cfg0.N) : Memref sig .tc .vmem S256x16x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x16x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .f32 := win0_5.stage (cfg0.slots t 5)
abbrev hs0_5 (t : Fin cfg0.N) : (ms0_5 t).IsWhole := hstage0_5 ((cfg0.slots t 5).cast nbuf0_5)

abbrev scM0_0 : Memref sig .tc .vmem S128x16x256 .bf16 := Memref.whole cc0_scratch0
abbrev scM0_1 : Memref sig .tc .vmem S16x256 .f32 := Memref.whole cc0_scratch1
abbrev scM0_2 : Memref sig .tc .vmem S16x256 .f32 := Memref.whole cc0_scratch2
abbrev scM0_3 : Memref sig .tc .vmem S16x2048x128 .f32 := Memref.whole cc0_scratch3

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.H

end
-- ==== Proof.KI.RunA.lean ====
import proofs.«135015_g2000502485364553_pallasbulk_1302_1_alg».proof.Proof.KI.Common

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg1 : Memref sig .tc .vmem S256x16x256 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S128x16x256 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S128x16x256 .bf16) (harg7 : arg7.IsWhole) (arg8 : Memref sig .tc .vmem S16x256 .f32) (harg8 : arg8.IsWhole) (arg9 : Memref sig .tc .vmem S16x256 .f32) (harg9 : arg9.IsWhole) (arg10 : Memref sig .tc .vmem S16x2048x128 .f32) (harg10 : arg10.IsWhole) (hc0 : cond0_0 i) (hc1 : ¬cond0_1 i)
    (x0 : Vec F S256x16x256 .f32) (x1 : Vec F S16x1 .f32) (x2 : Vec F S16x1 .f32) (x3 : Vec F S128x16x256 .f32) (x4 : Vec F S1x128 .f32) (xs3 : Vec F S16x2048x128 .f32) :
    Σ' (LS0 : List (View.Piece (Elt F) S128x16x256 .bf16)), Σ' (LS1 : List (View.Piece (Elt F) S16x256 .f32)), Σ' (LS2 : List (View.Piece (Elt F) S16x256 .f32)), { LS3 : List (View.Piece (Elt F) S16x2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (arg10.view.loc (c : Thread nD τ) ↦[arg10.view.set]{fullShare} arg10.view.writes (Elt F) (harg10.unread xs3) LS3)) -∗ K ⟨⟩))
          ⊢ wp frame (wpE (defs₀ (F := F)) Variants.none c none) E (cc0__fused_bn_fc_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__fused_bn_fc_kernel_eq_skeleton]; unfold cc0__fused_bn_fc_kernel_skel
    simp only [k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hfs3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [HS0]; · iexists _; iexact HS0
    isplitl [HS1]; · iexists _; iexact HS1
    isplitl [HS2]; · iexists _; iexact HS2
    iexact HS3

end Cert.KernelIdeal.H

end
-- ==== Proof.KI.RunB.lean ====
import proofs.«135015_g2000502485364553_pallasbulk_1302_1_alg».proof.Proof.KI.RunA

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg1 : Memref sig .tc .vmem S256x16x256 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S128x16x256 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S128x16x256 .bf16) (harg7 : arg7.IsWhole) (arg8 : Memref sig .tc .vmem S16x256 .f32) (harg8 : arg8.IsWhole) (arg9 : Memref sig .tc .vmem S16x256 .f32) (harg9 : arg9.IsWhole) (arg10 : Memref sig .tc .vmem S16x2048x128 .f32) (harg10 : arg10.IsWhole) (hc0 : ¬cond0_0 i) (hc1 : ¬cond0_1 i)
    (x0 : Vec F S256x16x256 .f32) (x1 : Vec F S16x1 .f32) (x2 : Vec F S16x1 .f32) (x3 : Vec F S128x16x256 .f32) (x4 : Vec F S1x128 .f32) (xs0 : Vec F S128x16x256 .bf16) (xs1 : Vec F S16x256 .f32) (xs2 : Vec F S16x256 .f32) (xs3 : Vec F S16x2048x128 .f32) :
    Σ' (LS1 : List (View.Piece (Elt F) S16x256 .f32)), Σ' (LS2 : List (View.Piece (Elt F) S16x256 .f32)), { LS3 : List (View.Piece (Elt F) S16x2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (arg10.view.loc (c : Thread nD τ) ↦[arg10.view.set]{fullShare} arg10.view.writes (Elt F) (harg10.unread xs3) LS3)) -∗ K ⟨⟩))
          ⊢ wp frame (wpE (defs₀ (F := F)) Variants.none c none) E (cc0__fused_bn_fc_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__fused_bn_fc_kernel_eq_skeleton]; unfold cc0__fused_bn_fc_kernel_skel
    simp only [k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [HS0]
    · iexists _; isplitr; · ipureintro; exact harg7.read_unread _
      iexact HS0
    isplitl [HS1]; · iexists _; iexact HS1
    isplitl [HS2]; · iexists _; iexact HS2
    iexact HS3

end Cert.KernelIdeal.H

end
-- ==== Proof.KI.RunC.lean ====
import proofs.«135015_g2000502485364553_pallasbulk_1302_1_alg».proof.Proof.KI.RunB

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg1 : Memref sig .tc .vmem S256x16x256 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S128x16x256 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S128x16x256 .bf16) (harg7 : arg7.IsWhole) (arg8 : Memref sig .tc .vmem S16x256 .f32) (harg8 : arg8.IsWhole) (arg9 : Memref sig .tc .vmem S16x256 .f32) (harg9 : arg9.IsWhole) (arg10 : Memref sig .tc .vmem S16x2048x128 .f32) (harg10 : arg10.IsWhole) (hc0 : ¬cond0_0 i) (hc1 : cond0_1 i)
    (x0 : Vec F S256x16x256 .f32) (x1 : Vec F S16x1 .f32) (x2 : Vec F S16x1 .f32) (x3 : Vec F S128x16x256 .f32) (x4 : Vec F S1x128 .f32) (xs0 : Vec F S128x16x256 .bf16) (xs1 : Vec F S16x256 .f32) (xs2 : Vec F S16x256 .f32) (xs3 : Vec F S16x2048x128 .f32) :
    Σ' (LS1 : List (View.Piece (Elt F) S16x256 .f32)), Σ' (LS2 : List (View.Piece (Elt F) S16x256 .f32)), Σ' (LS3 : List (View.Piece (Elt F) S16x2048x128 .f32)), { LO : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f LO) ∗ owns (c : Thread nD τ) arg7 fullShare xs0 ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (arg10.view.loc (c : Thread nD τ) ↦[arg10.view.set]{fullShare} arg10.view.writes (Elt F) (harg10.unread xs3) LS3)) -∗ K ⟨⟩))
          ⊢ wp frame (wpE (defs₀ (F := F)) Variants.none c none) E (cc0__fused_bn_fc_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__fused_bn_fc_kernel_eq_skeleton]; unfold cc0__fused_bn_fc_kernel_skel
    simp only [k0_part7_eq_skeleton, k0_part8_eq_skeleton, k0_part9_eq_skeleton, k0_part10_eq_skeleton, k0_part11_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _; isplitr; · ipureintro; exact harg7.read_unread _
      iexact HS0
    isplitl [HS1]; · iexists _; iexact HS1
    isplitl [HS2]; · iexists _; iexact HS2
    iexact HS3

end Cert.KernelIdeal.H

end
-- ==== Proof.KI.State.lean ====
import proofs.«135015_g2000502485364553_pallasbulk_1302_1_alg».proof.Proof.KI.RunC

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def pj : Vec F S16x2048x128 .f32 := scM0_3.view.read (Elt F) scM0_3.view.junk

abbrev RA (c : Dev nD) (t : Fin cfg0.N) (h0 : t.val % 8 = 0) (h1 : ¬t.val % 8 = 7) (xs3 : Vec F S16x2048x128 .f32) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) xs3

abbrev RB (c : Dev nD) (t : Fin cfg0.N) (h0 : ¬t.val % 8 = 0) (h1 : ¬t.val % 8 = 7) (xs0 : Vec F S128x16x256 .bf16) (xs1 xs2 : Vec F S16x256 .f32) (xs3 : Vec F S16x2048x128 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) xs0 xs1 xs2 xs3

abbrev RC (c : Dev nD) (t : Fin cfg0.N) (h0 : ¬t.val % 8 = 0) (h1 : t.val % 8 = 7) (xs0 : Vec F S128x16x256 .bf16) (xs1 xs2 : Vec F S16x256 .f32) (xs3 : Vec F S16x2048x128 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) xs0 xs1 xs2 xs3

abbrev readBack {S : Shape} {e : EltTy} (M : Memref sig .tc .vmem S e) (L : List (View.Piece (Elt F) S e)) : S.Idx → Elt F e :=
  M.view.read (Elt F) (M.view.writes (Elt F) M.view.junk L)

abbrev overWrite {S : Shape} {e : EltTy} (M : Memref sig .tc .vmem S e) (hM : M.IsWhole) (g : S.Idx → Elt F e) (L : List (View.Piece (Elt F) S e)) : S.Idx → Elt F e :=
  M.view.read (Elt F) (M.view.writes (Elt F) (hM.unread g) L)

def st3 (c : Dev nD) : (n : ℕ) → n < cfg0.N → Vec F S128x16x256 .bf16 × Vec F S16x256 .f32 × Vec F S16x256 .f32
  | 0, hn =>
    let R := RA m c ⟨0, hn⟩ (Nat.zero_mod _) (by show ¬ ((0 : ℕ) % 8 = 7); decide) (pj (F := F))
    (readBack scM0_0 R.1, readBack scM0_1 R.2.1, readBack scM0_2 R.2.2.1)
  | n + 1, hn =>
    have hN : n + 1 < 8 := lt_of_lt_of_eq hn (show cfg0.N = 8 from N_0)
    let prev := st3 c n (Nat.lt_of_succ_lt hn)
    if h1 : (n + 1) % 8 = 7 then
      let R := RC m c ⟨n + 1, hn⟩ (by show ¬ (n + 1) % 8 = 0; omega) h1 prev.1 prev.2.1 prev.2.2 (pj (F := F))
      (prev.1, readBack scM0_1 R.1, readBack scM0_2 R.2.1)
    else
      let R := RB m c ⟨n + 1, hn⟩ (by show ¬ (n + 1) % 8 = 0; omega) h1 prev.1 prev.2.1 prev.2.2 (pj (F := F))
      (prev.1, readBack scM0_1 R.1, readBack scM0_2 R.2.1)

def updA (c : Dev nD) (t : Fin cfg0.N) (h0 : t.val % 8 = 0) (h1 : ¬t.val % 8 = 7) (g : Vec F S16x2048x128 .f32) : Vec F S16x2048x128 .f32 :=
  overWrite scM0_3 (Memref.isWhole_whole _) g (RA m c t h0 h1 g).2.2.2.1

def updB (c : Dev nD) (t : Fin cfg0.N) (h0 : ¬t.val % 8 = 0) (h1 : ¬t.val % 8 = 7) (xs0 : Vec F S128x16x256 .bf16) (xs1 xs2 : Vec F S16x256 .f32) (g : Vec F S16x2048x128 .f32) : Vec F S16x2048x128 .f32 :=
  overWrite scM0_3 (Memref.isWhole_whole _) g (RB m c t h0 h1 xs0 xs1 xs2 g).2.2.1

def updC (c : Dev nD) (t : Fin cfg0.N) (h0 : ¬t.val % 8 = 0) (h1 : t.val % 8 = 7) (xs0 : Vec F S128x16x256 .bf16) (xs1 xs2 : Vec F S16x256 .f32) (g : Vec F S16x2048x128 .f32) : Vec F S16x2048x128 .f32 :=
  overWrite scM0_3 (Memref.isWhole_whole _) g (RC m c t h0 h1 xs0 xs1 xs2 g).2.2.1

def upd (c : Dev nD) : (n : ℕ) → n < cfg0.N → Vec F S16x2048x128 .f32 → Vec F S16x2048x128 .f32
  | 0, hn => updA m c ⟨0, hn⟩ (Nat.zero_mod _) (by show ¬ ((0 : ℕ) % 8 = 7); decide)
  | n + 1, hn =>
    have hN : n + 1 < 8 := lt_of_lt_of_eq hn (show cfg0.N = 8 from N_0)
    let prev := st3 m c n (Nat.lt_of_succ_lt hn)
    if h1 : (n + 1) % 8 = 7 then
      updC m c ⟨n + 1, hn⟩ (by show ¬ (n + 1) % 8 = 0; omega) h1 prev.1 prev.2.1 prev.2.2
    else
      updB m c ⟨n + 1, hn⟩ (by show ¬ (n + 1) % 8 = 0; omega) h1 prev.1 prev.2.1 prev.2.2

def pAt (c : Dev nD) : (n : ℕ) → n < cfg0.N → Vec F S16x2048x128 .f32
  | 0, hn => upd m c 0 hn (pj (F := F))
  | n + 1, hn => upd m c (n + 1) hn (pAt c n (Nat.lt_of_succ_lt hn))

def pfull (c : Dev nD) : Vec F S16x2048x128 .f32 := pAt m c 7 (by rw [show cfg0.N = 8 from N_0]; decide)

def Agree (c : Dev nD) (n : ℕ) (f : Vec F S16x2048x128 .f32) : Prop :=
  ∀ idx : S16x2048x128.Idx, (idx 1).val < 256 * (n + 1) → f idx = pfull m c idx

def outOf (c : Dev nD) (g : Vec F S16x2048x128 .f32) : Vec F S2048x128 .f32 :=
  have h7 : 7 < cfg0.N := by rw [show cfg0.N = 8 from N_0]; decide
  have h6 : 6 < cfg0.N := by rw [show cfg0.N = 8 from N_0]; decide
  readBack (ms0_5 ⟨7, h7⟩) (RC m c ⟨7, h7⟩ (by show ¬ ((7 : ℕ) % 8 = 0); decide) (by show (7 : ℕ) % 8 = 7; decide) (st3 m c 6 h6).1 (st3 m c 6 h6).2.1 (st3 m c 6 h6).2.2 g).2.2.2.1

def outV (c : Dev nD) : Vec F S2048x128 .f32 :=
  outOf m c (pAt m c 6 (by rw [show cfg0.N = 8 from N_0]; decide))

end Cert.KernelIdeal.H

end
-- ==== Proof.KI.Chan.lean ====
import proofs.«135015_g2000502485364553_pallasbulk_1302_1_alg».proof.Proof.Gen.KernelIdeal.Skeleton

set_option maxRecDepth 16384

noncomputable section

namespace Cert.KernelIdeal.H

open Cert.KernelIdeal Cert.KernelIdeal.Gen
open Idealize.ShloMosaic Idealize.SL.Sem

variable {F : FTy → Type} [FloatOps F]

theorem slices_chan (ch : Fin 16) : S256x16x256.Slices ![0, ch.val, 0] S256x1x256 :=
  ⟨rfl, fun a => by
    match a with
    | ⟨0, _⟩ => show (0 : ℕ) + 256 ≤ 256; omega
    | ⟨1, _⟩ => show ch.val + 1 ≤ 16; omega
    | ⟨2, _⟩ => show (0 : ℕ) + 256 ≤ 256; omega⟩

def chanBlock (ch : Fin 16) (x : Vec F S256x16x256 .f32) (w : Vec F S128x1x256 .bf16) : FVec F S1x256x128 .f32 :=
  shapeCast S1x256x128
    (matmul dot_S256x256_S128x256_S256x128_1_1_0_0_n_n none
      (shapeCast S256x256 (extractStridedSlice S256x1x256 ![0, ch.val, 0] (k0_pay25 x) (slices_chan ch)) shapeCasts_S256x1x256_S256x256)
      (shapeCast S128x256 w shapeCasts_S128x1x256_S128x256)
      (constant S256x128 .f32 0x00000000#32))
    shapeCasts_S256x128_S1x256x128

theorem pay_chan0 (x : Vec F S256x16x256 .f32) (w : Vec F S128x1x256 .bf16) : k0_pay26 x w = chanBlock (0 : Fin 16) x w := rfl
theorem pay_chan1 (x : Vec F S256x16x256 .f32) (w : Vec F S128x1x256 .bf16) : k0_pay28 (k0_pay27 x) w = chanBlock (1 : Fin 16) x w := rfl
theorem pay_chan2 (x : Vec F S256x16x256 .f32) (w : Vec F S128x1x256 .bf16) : k0_pay29 (k0_pay25 x) w = chanBlock (2 : Fin 16) x w := rfl
theorem pay_chan3 (x : Vec F S256x16x256 .f32) (w : Vec F S128x1x256 .bf16) : k0_pay30 (k0_pay25 x) w = chanBlock (3 : Fin 16) x w := rfl
theorem pay_chan4 (x : Vec F S256x16x256 .f32) (w : Vec F S128x1x256 .bf16) : k0_pay32 (k0_pay31 (k0_pay25 x) w) = chanBlock (4 : Fin 16) x w := rfl
theorem pay_chan5 (x : Vec F S256x16x256 .f32) (w : Vec F S128x1x256 .bf16) : k0_pay33 (k0_pay25 x) w = chanBlock (5 : Fin 16) x w := rfl
theorem pay_chan6 (x : Vec F S256x16x256 .f32) (w : Vec F S128x1x256 .bf16) : k0_pay34 (k0_pay25 x) w = chanBlock (6 : Fin 16) x w := rfl
theorem pay_chan7 (x : Vec F S256x16x256 .f32) (w : Vec F S128x1x256 .bf16) : k0_pay36 (k0_pay35 (k0_pay25 x) w) = chanBlock (7 : Fin 16) x w := rfl
theorem pay_chan8 (x : Vec F S256x16x256 .f32) (w : Vec F S128x1x256 .bf16) : k0_pay37 (k0_pay25 x) w = chanBlock (8 : Fin 16) x w := rfl
theorem pay_chan9 (x : Vec F S256x16x256 .f32) (w : Vec F S128x1x256 .bf16) : k0_pay38 (k0_pay25 x) w = chanBlock (9 : Fin 16) x w := rfl
theorem pay_chan10 (x : Vec F S256x16x256 .f32) (w : Vec F S128x1x256 .bf16) : k0_pay39 (k0_pay25 x) w = chanBlock (10 : Fin 16) x w := rfl
theorem pay_chan11 (x : Vec F S256x16x256 .f32) (w : Vec F S128x1x256 .bf16) : k0_pay41 (k0_pay40 (k0_pay25 x)) w = chanBlock (11 : Fin 16) x w := rfl
theorem pay_chan12 (x : Vec F S256x16x256 .f32) (w : Vec F S128x1x256 .bf16) : k0_pay42 (k0_pay25 x) w = chanBlock (12 : Fin 16) x w := rfl
theorem pay_chan13 (x : Vec F S256x16x256 .f32) (w : Vec F S128x1x256 .bf16) : k0_pay43 (k0_pay25 x) w = chanBlock (13 : Fin 16) x w := rfl
theorem pay_chan14 (x : Vec F S256x16x256 .f32) (w : Vec F S128x1x256 .bf16) : k0_pay1 (k0_pay44 (k0_pay25 x) w) = chanBlock (14 : Fin 16) x w := rfl
theorem pay_chan15 (x : Vec F S256x16x256 .f32) (w : Vec F S128x1x256 .bf16) : k0_pay2 (k0_pay25 x) w = chanBlock (15 : Fin 16) x w := rfl

end Cert.KernelIdeal.H

end
-- ==== Proof.KI.Pieces.lean ====
import Idealize.ShloMosaic.Lib.Pipeline.Value
import proofs.«135015_g2000502485364553_pallasbulk_1302_1_alg».proof.Proof.KI.RunC
import proofs.«135015_g2000502485364553_pallasbulk_1302_1_alg».proof.Proof.KI.Chan

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem piece_off_congr {Val : EltTy → Type} {s : Shape} {e : EltTy} {off off' size : Fin s.rank → ℕ} (h : off = off')
    (inb : ∀ a, off a + size a ≤ s.size a) (inb' : ∀ a, off' a + size a ≤ s.size a)
    (w : (Rect.unit off size inb).shape.Idx → Val e) :
    (⟨Rect.unit off size inb, w⟩ : View.Piece Val s e) = ⟨Rect.unit off' size inb', w⟩ := by
  subst h; rfl

theorem rowoff_fin : ∀ n : Fin 8, BitVec.toNat (Scalar.indexCast (Scalar.muli (BitVec.ofNat 32 n.val) 256#32)) = 256 * n.val := by
  decide
theorem rowoff (i : grid0.Coords) :
    BitVec.toNat (Scalar.indexCast (Scalar.muli (BitVec.ofNat 32 (i 0).val) 256#32)) = 256 * (i 0).val :=
  rowoff_fin (i 0)

theorem prect_inb (i : grid0.Coords) (ch : Fin 16) :
    ∀ a : Fin 3, (![ch.val, 256 * (i 0).val, 0] : Fin 3 → ℕ) a + (![1, 256, 128] : Fin 3 → ℕ) a ≤ S16x2048x128.size a := by
  have hi : (i 0).val < 8 := (i 0).isLt
  intro a
  match a with
  | ⟨0, _⟩ => show ch.val + 1 ≤ 16; omega
  | ⟨1, _⟩ => show 256 * (i 0).val + 256 ≤ 2048; omega
  | ⟨2, _⟩ => show (0 : ℕ) + 128 ≤ 128; omega

def prect (i : grid0.Coords) (ch : Fin 16) : Rect S16x2048x128 :=
  Rect.unit ![ch.val, 256 * (i 0).val, 0] ![1, 256, 128] (prect_inb i ch)

theorem mem_prect (i : grid0.Coords) (ch : Fin 16) (idx : S16x2048x128.Idx) :
    idx ∈ (prect i ch).set ↔ (idx 0).val = ch.val ∧ 256 * (i 0).val ≤ (idx 1).val ∧ (idx 1).val < 256 * (i 0).val + 256 := by
  unfold prect
  rw [Rect.mem_set_unit]
  constructor
  · intro h
    have h0 : ch.val ≤ (idx 0).val ∧ (idx 0).val < ch.val + 1 := h 0
    have h1 : 256 * (i 0).val ≤ (idx 1).val ∧ (idx 1).val < 256 * (i 0).val + 256 := h 1
    omega
  · rintro ⟨e0, l1, u1⟩ a
    match a with
    | ⟨0, _⟩ => show ch.val ≤ (idx 0).val ∧ (idx 0).val < ch.val + 1; omega
    | ⟨1, _⟩ => show 256 * (i 0).val ≤ (idx 1).val ∧ (idx 1).val < 256 * (i 0).val + 256; omega
    | ⟨2, _⟩ =>
      have h2 : (idx 2).val < 128 := (idx 2).isLt
      show 0 ≤ (idx 2).val ∧ (idx 2).val < 0 + 128; omega

theorem wrect_inb (ch : Fin 16) :
    ∀ a : Fin 3, (![0, ch.val, 0] : Fin 3 → ℕ) a + (![128, 1, 256] : Fin 3 → ℕ) a ≤ S128x16x256.size a := by
  intro a
  match a with
  | ⟨0, _⟩ => show (0 : ℕ) + 128 ≤ 128; omega
  | ⟨1, _⟩ => show ch.val + 1 ≤ 16; omega
  | ⟨2, _⟩ => show (0 : ℕ) + 256 ≤ 256; omega

def wslice (wb : Vec F S128x16x256 .bf16) (ch : Fin 16) : Vec F S128x1x256 .bf16 :=
  View.ld wb (Rect.unit ![0, ch.val, 0] ![128, 1, 256] (wrect_inb ch))

def ppiece (i : grid0.Coords) (x : Vec F S256x16x256 .f32) (wb : Vec F S128x16x256 .bf16) (ch : Fin 16) :
    View.Piece (Elt F) S16x2048x128 .f32 :=
  ⟨prect i ch, chanBlock ch x (wslice wb ch)⟩

def chans : List (Fin 16) := [15, 14, 13, 12, 11, 10, 9, 8, 7, 6, 5, 4, 3, 2, 1, 0]
theorem mem_chans : ∀ ch : Fin 16, ch ∈ chans := by decide

def plist (i : grid0.Coords) (x : Vec F S256x16x256 .f32) (wb : Vec F S128x16x256 .bf16) :
    List (View.Piece (Elt F) S16x2048x128 .f32) :=
  chans.map (ppiece i x wb)

theorem plist_eq (i : grid0.Coords) (x : Vec F S256x16x256 .f32) (wb : Vec F S128x16x256 .bf16) :
    plist i x wb =
      [⟨prect i 15, chanBlock 15 x (wslice wb 15)⟩, ⟨prect i 14, chanBlock 14 x (wslice wb 14)⟩,
       ⟨prect i 13, chanBlock 13 x (wslice wb 13)⟩, ⟨prect i 12, chanBlock 12 x (wslice wb 12)⟩,
       ⟨prect i 11, chanBlock 11 x (wslice wb 11)⟩, ⟨prect i 10, chanBlock 10 x (wslice wb 10)⟩,
       ⟨prect i 9, chanBlock 9 x (wslice wb 9)⟩, ⟨prect i 8, chanBlock 8 x (wslice wb 8)⟩,
       ⟨prect i 7, chanBlock 7 x (wslice wb 7)⟩, ⟨prect i 6, chanBlock 6 x (wslice wb 6)⟩,
       ⟨prect i 5, chanBlock 5 x (wslice wb 5)⟩, ⟨prect i 4, chanBlock 4 x (wslice wb 4)⟩,
       ⟨prect i 3, chanBlock 3 x (wslice wb 3)⟩, ⟨prect i 2, chanBlock 2 x (wslice wb 2)⟩,
       ⟨prect i 1, chanBlock 1 x (wslice wb 1)⟩, ⟨prect i 0, chanBlock 0 x (wslice wb 0)⟩] := rfl

theorem mem_plist_iff (i : grid0.Coords) (x : Vec F S256x16x256 .f32) (wb : Vec F S128x16x256 .bf16)
    (p : View.Piece (Elt F) S16x2048x128 .f32) : p ∈ plist i x wb ↔ ∃ ch : Fin 16, ppiece i x wb ch = p := by
  unfold plist
  rw [List.mem_map]
  exact ⟨fun ⟨ch, _, e⟩ => ⟨ch, e⟩, fun ⟨ch, e⟩ => ⟨ch, mem_chans ch, e⟩⟩

theorem plist_not_mem (i : grid0.Coords) (x : Vec F S256x16x256 .f32) (wb : Vec F S128x16x256 .bf16) (idx : S16x2048x128.Idx)
    (h : (idx 1).val < 256 * (i 0).val ∨ 256 * (i 0).val + 256 ≤ (idx 1).val) :
    ∀ p ∈ plist i x wb, idx ∉ p.1.set := by
  intro p hp hm
  obtain ⟨ch, rfl⟩ := (mem_plist_iff i x wb p).mp hp
  have hm' := (mem_prect i ch idx).mp hm
  omega

theorem plist_mem (i : grid0.Coords) (x : Vec F S256x16x256 .f32) (wb : Vec F S128x16x256 .bf16) (idx : S16x2048x128.Idx)
    (h : 256 * (i 0).val ≤ (idx 1).val ∧ (idx 1).val < 256 * (i 0).val + 256) :
    ∃ p ∈ plist i x wb, idx ∈ p.1.set :=
  ⟨ppiece i x wb (idx 0), (mem_plist_iff i x wb _).mpr ⟨idx 0, rfl⟩, (mem_prect i (idx 0) idx).mpr ⟨rfl, h.1, h.2⟩⟩

theorem hz3 : (![0, 0, 0] : Fin 3 → ℕ) = fun _ => 0 := by
  funext a; match a with | ⟨0, _⟩ => rfl | ⟨1, _⟩ => rfl | ⟨2, _⟩ => rfl

theorem poffN (i : grid0.Coords) (n : ℕ) :
    (![n, BitVec.toNat (Scalar.indexCast (Scalar.muli (BitVec.ofNat 32 (i 0).val) 256#32)), 0] : Fin 3 → ℕ)
      = ![n, 256 * (i 0).val, 0] := by
  rw [rowoff i]

set_option maxHeartbeats 1000000 in

theorem LS3_A_eq (c : Dev nD) (i : grid0.Coords) (arg1 : Memref sig .tc .vmem S256x16x256 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S128x16x256 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S128x16x256 .bf16) (harg7 : arg7.IsWhole) (arg8 : Memref sig .tc .vmem S16x256 .f32) (harg8 : arg8.IsWhole) (arg9 : Memref sig .tc .vmem S16x256 .f32) (harg9 : arg9.IsWhole) (arg10 : Memref sig .tc .vmem S16x2048x128 .f32) (harg10 : arg10.IsWhole) (hc0 : cond0_0 i) (hc1 : ¬cond0_1 i)
    (x0 : Vec F S256x16x256 .f32) (x1 : Vec F S16x1 .f32) (x2 : Vec F S16x1 .f32) (x3 : Vec F S128x16x256 .f32) (x4 : Vec F S1x128 .f32) (xs3 : Vec F S16x2048x128 .f32) :
    (kernelRun0_A c i arg1 harg1 arg2 harg2 arg3 harg3 arg4 harg4 arg5 harg5 arg6 harg6 arg7 harg7 arg8 harg8 arg9 harg9 arg10 harg10 hc0 hc1 x0 x1 x2 x3 x4 xs3).2.2.2.1 = plist i x0 (k0_pay21 x3) := by
  unfold kernelRun0_A
  dsimp only
  sl_unfold_words
  dsimp only
  simp only [View.readCov_eq_canon', View.canon_unit_zero (S := S128x16x256) hz3, View.readAt_eq_ld, harg1.read_unread, harg4.read_unread,
    View.ld_unit_zero (S := S256x16x256) hz3, View.ld_unit_zero (S := S128x16x256) hz3]
  simp only [pay_chan0, pay_chan1, pay_chan2, pay_chan3, pay_chan4, pay_chan5, pay_chan6, pay_chan7, pay_chan8, pay_chan9, pay_chan10, pay_chan11, pay_chan12, pay_chan13, pay_chan14, pay_chan15]
  rw [plist_eq]
  simp only [List.cons.injEq, and_true]
  refine ⟨?_, ?_, ?_, ?_, ?_, ?_, ?_, ?_, ?_, ?_, ?_, ?_, ?_, ?_, ?_, ?_⟩
  · exact piece_off_congr (s := S16x2048x128) (Val := Elt F) (e := .f32) (poffN i 15) _ (prect_inb i 15) _
  · exact piece_off_congr (s := S16x2048x128) (Val := Elt F) (e := .f32) (poffN i 14) _ (prect_inb i 14) _
  · exact piece_off_congr (s := S16x2048x128) (Val := Elt F) (e := .f32) (poffN i 13) _ (prect_inb i 13) _
  · exact piece_off_congr (s := S16x2048x128) (Val := Elt F) (e := .f32) (poffN i 12) _ (prect_inb i 12) _
  · exact piece_off_congr (s := S16x2048x128) (Val := Elt F) (e := .f32) (poffN i 11) _ (prect_inb i 11) _
  · exact piece_off_congr (s := S16x2048x128) (Val := Elt F) (e := .f32) (poffN i 10) _ (prect_inb i 10) _
  · exact piece_off_congr (s := S16x2048x128) (Val := Elt F) (e := .f32) (poffN i 9) _ (prect_inb i 9) _
  · exact piece_off_congr (s := S16x2048x128) (Val := Elt F) (e := .f32) (poffN i 8) _ (prect_inb i 8) _
  · exact piece_off_congr (s := S16x2048x128) (Val := Elt F) (e := .f32) (poffN i 7) _ (prect_inb i 7) _
  · exact piece_off_congr (s := S16x2048x128) (Val := Elt F) (e := .f32) (poffN i 6) _ (prect_inb i 6) _
  · exact piece_off_congr (s := S16x2048x128) (Val := Elt F) (e := .f32) (poffN i 5) _ (prect_inb i 5) _
  · exact piece_off_congr (s := S16x2048x128) (Val := Elt F) (e := .f32) (poffN i 4) _ (prect_inb i 4) _
  · exact piece_off_congr (s := S16x2048x128) (Val := Elt F) (e := .f32) (poffN i 3) _ (prect_inb i 3) _
  · exact piece_off_congr (s := S16x2048x128) (Val := Elt F) (e := .f32) (poffN i 2) _ (prect_inb i 2) _
  · exact piece_off_congr (s := S16x2048x128) (Val := Elt F) (e := .f32) (poffN i 1) _ (prect_inb i 1) _
  · exact piece_off_congr (s := S16x2048x128) (Val := Elt F) (e := .f32) (poffN i 0) _ (prect_inb i 0) _

set_option maxHeartbeats 1000000 in

theorem LS3_B_eq (c : Dev nD) (i : grid0.Coords) (arg1 : Memref sig .tc .vmem S256x16x256 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S128x16x256 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S128x16x256 .bf16) (harg7 : arg7.IsWhole) (arg8 : Memref sig .tc .vmem S16x256 .f32) (harg8 : arg8.IsWhole) (arg9 : Memref sig .tc .vmem S16x256 .f32) (harg9 : arg9.IsWhole) (arg10 : Memref sig .tc .vmem S16x2048x128 .f32) (harg10 : arg10.IsWhole) (hc0 : ¬cond0_0 i) (hc1 : ¬cond0_1 i)
    (x0 : Vec F S256x16x256 .f32) (x1 : Vec F S16x1 .f32) (x2 : Vec F S16x1 .f32) (x3 : Vec F S128x16x256 .f32) (x4 : Vec F S1x128 .f32) (xs0 : Vec F S128x16x256 .bf16) (xs1 : Vec F S16x256 .f32) (xs2 : Vec F S16x256 .f32) (xs3 : Vec F S16x2048x128 .f32) :
    (kernelRun0_B c i arg1 harg1 arg2 harg2 arg3 harg3 arg4 harg4 arg5 harg5 arg6 harg6 arg7 harg7 arg8 harg8 arg9 harg9 arg10 harg10 hc0 hc1 x0 x1 x2 x3 x4 xs0 xs1 xs2 xs3).2.2.1 = plist i x0 xs0 := by
  unfold kernelRun0_B
  dsimp only
  sl_unfold_words
  dsimp only
  simp only [View.readAt_eq_ld, harg1.read_unread, harg7.read_unread, View.ld_unit_zero (S := S256x16x256) hz3]
  simp only [pay_chan0, pay_chan1, pay_chan2, pay_chan3, pay_chan4, pay_chan5, pay_chan6, pay_chan7, pay_chan8, pay_chan9, pay_chan10, pay_chan11, pay_chan12, pay_chan13, pay_chan14, pay_chan15]
  rw [plist_eq]
  simp only [List.cons.injEq, and_true]
  refine ⟨?_, ?_, ?_, ?_, ?_, ?_, ?_, ?_, ?_, ?_, ?_, ?_, ?_, ?_, ?_, ?_⟩
  · exact piece_off_congr (s := S16x2048x128) (Val := Elt F) (e := .f32) (poffN i 15) _ (prect_inb i 15) _
  · exact piece_off_congr (s := S16x2048x128) (Val := Elt F) (e := .f32) (poffN i 14) _ (prect_inb i 14) _
  · exact piece_off_congr (s := S16x2048x128) (Val := Elt F) (e := .f32) (poffN i 13) _ (prect_inb i 13) _
  · exact piece_off_congr (s := S16x2048x128) (Val := Elt F) (e := .f32) (poffN i 12) _ (prect_inb i 12) _
  · exact piece_off_congr (s := S16x2048x128) (Val := Elt F) (e := .f32) (poffN i 11) _ (prect_inb i 11) _
  · exact piece_off_congr (s := S16x2048x128) (Val := Elt F) (e := .f32) (poffN i 10) _ (prect_inb i 10) _
  · exact piece_off_congr (s := S16x2048x128) (Val := Elt F) (e := .f32) (poffN i 9) _ (prect_inb i 9) _
  · exact piece_off_congr (s := S16x2048x128) (Val := Elt F) (e := .f32) (poffN i 8) _ (prect_inb i 8) _
  · exact piece_off_congr (s := S16x2048x128) (Val := Elt F) (e := .f32) (poffN i 7) _ (prect_inb i 7) _
  · exact piece_off_congr (s := S16x2048x128) (Val := Elt F) (e := .f32) (poffN i 6) _ (prect_inb i 6) _
  · exact piece_off_congr (s := S16x2048x128) (Val := Elt F) (e := .f32) (poffN i 5) _ (prect_inb i 5) _
  · exact piece_off_congr (s := S16x2048x128) (Val := Elt F) (e := .f32) (poffN i 4) _ (prect_inb i 4) _
  · exact piece_off_congr (s := S16x2048x128) (Val := Elt F) (e := .f32) (poffN i 3) _ (prect_inb i 3) _
  · exact piece_off_congr (s := S16x2048x128) (Val := Elt F) (e := .f32) (poffN i 2) _ (prect_inb i 2) _
  · exact piece_off_congr (s := S16x2048x128) (Val := Elt F) (e := .f32) (poffN i 1) _ (prect_inb i 1) _
  · exact piece_off_congr (s := S16x2048x128) (Val := Elt F) (e := .f32) (poffN i 0) _ (prect_inb i 0) _

set_option maxHeartbeats 1000000 in

theorem LS3_C_eq (c : Dev nD) (i : grid0.Coords) (arg1 : Memref sig .tc .vmem S256x16x256 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S128x16x256 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S128x16x256 .bf16) (harg7 : arg7.IsWhole) (arg8 : Memref sig .tc .vmem S16x256 .f32) (harg8 : arg8.IsWhole) (arg9 : Memref sig .tc .vmem S16x256 .f32) (harg9 : arg9.IsWhole) (arg10 : Memref sig .tc .vmem S16x2048x128 .f32) (harg10 : arg10.IsWhole) (hc0 : ¬cond0_0 i) (hc1 : cond0_1 i)
    (x0 : Vec F S256x16x256 .f32) (x1 : Vec F S16x1 .f32) (x2 : Vec F S16x1 .f32) (x3 : Vec F S128x16x256 .f32) (x4 : Vec F S1x128 .f32) (xs0 : Vec F S128x16x256 .bf16) (xs1 : Vec F S16x256 .f32) (xs2 : Vec F S16x256 .f32) (xs3 : Vec F S16x2048x128 .f32) :
    (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.2.1 = plist i x0 xs0 := by
  unfold kernelRun0_C
  dsimp only
  sl_unfold_words
  dsimp only
  simp only [View.readAt_eq_ld, harg1.read_unread, harg7.read_unread, View.ld_unit_zero (S := S256x16x256) hz3]
  simp only [pay_chan0, pay_chan1, pay_chan2, pay_chan3, pay_chan4, pay_chan5, pay_chan6, pay_chan7, pay_chan8, pay_chan9, pay_chan10, pay_chan11, pay_chan12, pay_chan13, pay_chan14, pay_chan15]
  rw [plist_eq]
  simp only [List.cons.injEq, and_true]
  refine ⟨?_, ?_, ?_, ?_, ?_, ?_, ?_, ?_, ?_, ?_, ?_, ?_, ?_, ?_, ?_, ?_⟩
  · exact piece_off_congr (s := S16x2048x128) (Val := Elt F) (e := .f32) (poffN i 15) _ (prect_inb i 15) _
  · exact piece_off_congr (s := S16x2048x128) (Val := Elt F) (e := .f32) (poffN i 14) _ (prect_inb i 14) _
  · exact piece_off_congr (s := S16x2048x128) (Val := Elt F) (e := .f32) (poffN i 13) _ (prect_inb i 13) _
  · exact piece_off_congr (s := S16x2048x128) (Val := Elt F) (e := .f32) (poffN i 12) _ (prect_inb i 12) _
  · exact piece_off_congr (s := S16x2048x128) (Val := Elt F) (e := .f32) (poffN i 11) _ (prect_inb i 11) _
  · exact piece_off_congr (s := S16x2048x128) (Val := Elt F) (e := .f32) (poffN i 10) _ (prect_inb i 10) _
  · exact piece_off_congr (s := S16x2048x128) (Val := Elt F) (e := .f32) (poffN i 9) _ (prect_inb i 9) _
  · exact piece_off_congr (s := S16x2048x128) (Val := Elt F) (e := .f32) (poffN i 8) _ (prect_inb i 8) _
  · exact piece_off_congr (s := S16x2048x128) (Val := Elt F) (e := .f32) (poffN i 7) _ (prect_inb i 7) _
  · exact piece_off_congr (s := S16x2048x128) (Val := Elt F) (e := .f32) (poffN i 6) _ (prect_inb i 6) _
  · exact piece_off_congr (s := S16x2048x128) (Val := Elt F) (e := .f32) (poffN i 5) _ (prect_inb i 5) _
  · exact piece_off_congr (s := S16x2048x128) (Val := Elt F) (e := .f32) (poffN i 4) _ (prect_inb i 4) _
  · exact piece_off_congr (s := S16x2048x128) (Val := Elt F) (e := .f32) (poffN i 3) _ (prect_inb i 3) _
  · exact piece_off_congr (s := S16x2048x128) (Val := Elt F) (e := .f32) (poffN i 2) _ (prect_inb i 2) _
  · exact piece_off_congr (s := S16x2048x128) (Val := Elt F) (e := .f32) (poffN i 1) _ (prect_inb i 1) _
  · exact piece_off_congr (s := S16x2048x128) (Val := Elt F) (e := .f32) (poffN i 0) _ (prect_inb i 0) _

set_option maxHeartbeats 1000000 in

theorem LO_C_congr {c : Dev nD} {i : grid0.Coords} {arg1 : Memref sig .tc .vmem S256x16x256 .f32} {harg1 : arg1.IsWhole} {arg2 : Memref sig .tc .vmem S16x1 .f32} {harg2 : arg2.IsWhole} {arg3 : Memref sig .tc .vmem S16x1 .f32} {harg3 : arg3.IsWhole} {arg4 : Memref sig .tc .vmem S128x16x256 .f32} {harg4 : arg4.IsWhole} {arg5 : Memref sig .tc .vmem S1x128 .f32} {harg5 : arg5.IsWhole} {arg6 : Memref sig .tc .vmem S2048x128 .f32} {harg6 : arg6.IsWhole} {arg7 : Memref sig .tc .vmem S128x16x256 .bf16} {harg7 : arg7.IsWhole} {arg8 : Memref sig .tc .vmem S16x256 .f32} {harg8 : arg8.IsWhole} {arg9 : Memref sig .tc .vmem S16x256 .f32} {harg9 : arg9.IsWhole} {arg10 : Memref sig .tc .vmem S16x2048x128 .f32} {harg10 : arg10.IsWhole} {hc0 : ¬cond0_0 i} {hc1 : cond0_1 i}
    {x0 : Vec F S256x16x256 .f32} {x1 : Vec F S16x1 .f32} {x2 : Vec F S16x1 .f32} {x3 : Vec F S128x16x256 .f32} {x4 : Vec F S1x128 .f32} {xs0 : Vec F S128x16x256 .bf16} {xs1 : Vec F S16x256 .f32} {xs2 : Vec F S16x256 .f32} {xs3 : Vec F S16x2048x128 .f32} {xs3' : Vec F S16x2048x128 .f32} :
    arg10.view.writes (Elt F) (harg10.unread xs3) (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.2.1
        = arg10.view.writes (Elt F) (harg10.unread xs3') (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3').2.2.1 →
      (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.2.2.1 = (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3').2.2.2.1 := by
  unfold kernelRun0_C
  dsimp only
  sl_unfold_words
  dsimp only
  intro h
  rw [h]

end Cert.KernelIdeal.H

end
-- ==== Proof.KI.Struct.lean ====
import proofs.«135015_g2000502485364553_pallasbulk_1302_1_alg».proof.Proof.KI.State
import proofs.«135015_g2000502485364553_pallasbulk_1302_1_alg».proof.Proof.KI.Pieces

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem coords_val (t : Fin cfg0.N) : (grid0.coords t 0).val = t.val :=
  (by decide +kernel : ∀ t : Fin grid0.N, (grid0.coords t 0).val = t.val) t

set_option maxHeartbeats 1000000 in
theorem runA_indep (c : Dev nD) (i : grid0.Coords) (arg1 : Memref sig .tc .vmem S256x16x256 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S128x16x256 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S128x16x256 .bf16) (harg7 : arg7.IsWhole) (arg8 : Memref sig .tc .vmem S16x256 .f32) (harg8 : arg8.IsWhole) (arg9 : Memref sig .tc .vmem S16x256 .f32) (harg9 : arg9.IsWhole) (arg10 : Memref sig .tc .vmem S16x2048x128 .f32) (harg10 : arg10.IsWhole) (hc0 : cond0_0 i) (hc1 : ¬cond0_1 i)
    (x0 : Vec F S256x16x256 .f32) (x1 : Vec F S16x1 .f32) (x2 : Vec F S16x1 .f32) (x3 : Vec F S128x16x256 .f32) (x4 : Vec F S1x128 .f32) (xs3 : Vec F S16x2048x128 .f32) (xs3' : Vec F S16x2048x128 .f32) :
    (kernelRun0_A c i arg1 harg1 arg2 harg2 arg3 harg3 arg4 harg4 arg5 harg5 arg6 harg6 arg7 harg7 arg8 harg8 arg9 harg9 arg10 harg10 hc0 hc1 x0 x1 x2 x3 x4 xs3).1 = (kernelRun0_A c i arg1 harg1 arg2 harg2 arg3 harg3 arg4 harg4 arg5 harg5 arg6 harg6 arg7 harg7 arg8 harg8 arg9 harg9 arg10 harg10 hc0 hc1 x0 x1 x2 x3 x4 xs3').1 ∧ (kernelRun0_A c i arg1 harg1 arg2 harg2 arg3 harg3 arg4 harg4 arg5 harg5 arg6 harg6 arg7 harg7 arg8 harg8 arg9 harg9 arg10 harg10 hc0 hc1 x0 x1 x2 x3 x4 xs3).2.1 = (kernelRun0_A c i arg1 harg1 arg2 harg2 arg3 harg3 arg4 harg4 arg5 harg5 arg6 harg6 arg7 harg7 arg8 harg8 arg9 harg9 arg10 harg10 hc0 hc1 x0 x1 x2 x3 x4 xs3').2.1
      ∧ (kernelRun0_A c i arg1 harg1 arg2 harg2 arg3 harg3 arg4 harg4 arg5 harg5 arg6 harg6 arg7 harg7 arg8 harg8 arg9 harg9 arg10 harg10 hc0 hc1 x0 x1 x2 x3 x4 xs3).2.2.1 = (kernelRun0_A c i arg1 harg1 arg2 harg2 arg3 harg3 arg4 harg4 arg5 harg5 arg6 harg6 arg7 harg7 arg8 harg8 arg9 harg9 arg10 harg10 hc0 hc1 x0 x1 x2 x3 x4 xs3').2.2.1 := by
  unfold kernelRun0_A
  dsimp only
  sl_unfold_words
  exact ⟨rfl, rfl, rfl⟩

set_option maxHeartbeats 1000000 in
theorem runB_indep (c : Dev nD) (i : grid0.Coords) (arg1 : Memref sig .tc .vmem S256x16x256 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S128x16x256 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S128x16x256 .bf16) (harg7 : arg7.IsWhole) (arg8 : Memref sig .tc .vmem S16x256 .f32) (harg8 : arg8.IsWhole) (arg9 : Memref sig .tc .vmem S16x256 .f32) (harg9 : arg9.IsWhole) (arg10 : Memref sig .tc .vmem S16x2048x128 .f32) (harg10 : arg10.IsWhole) (hc0 : ¬cond0_0 i) (hc1 : ¬cond0_1 i)
    (x0 : Vec F S256x16x256 .f32) (x1 : Vec F S16x1 .f32) (x2 : Vec F S16x1 .f32) (x3 : Vec F S128x16x256 .f32) (x4 : Vec F S1x128 .f32) (xs0 : Vec F S128x16x256 .bf16) (xs1 : Vec F S16x256 .f32) (xs2 : Vec F S16x256 .f32) (xs3 : Vec F S16x2048x128 .f32) (xs3' : Vec F S16x2048x128 .f32) :
    (kernelRun0_B c i arg1 harg1 arg2 harg2 arg3 harg3 arg4 harg4 arg5 harg5 arg6 harg6 arg7 harg7 arg8 harg8 arg9 harg9 arg10 harg10 hc0 hc1 x0 x1 x2 x3 x4 xs0 xs1 xs2 xs3).1 = (kernelRun0_B c i arg1 harg1 arg2 harg2 arg3 harg3 arg4 harg4 arg5 harg5 arg6 harg6 arg7 harg7 arg8 harg8 arg9 harg9 arg10 harg10 hc0 hc1 x0 x1 x2 x3 x4 xs0 xs1 xs2 xs3').1 ∧ (kernelRun0_B c i arg1 harg1 arg2 harg2 arg3 harg3 arg4 harg4 arg5 harg5 arg6 harg6 arg7 harg7 arg8 harg8 arg9 harg9 arg10 harg10 hc0 hc1 x0 x1 x2 x3 x4 xs0 xs1 xs2 xs3).2.1 = (kernelRun0_B c i arg1 harg1 arg2 harg2 arg3 harg3 arg4 harg4 arg5 harg5 arg6 harg6 arg7 harg7 arg8 harg8 arg9 harg9 arg10 harg10 hc0 hc1 x0 x1 x2 x3 x4 xs0 xs1 xs2 xs3').2.1 := by
  unfold kernelRun0_B
  dsimp only
  sl_unfold_words
  exact ⟨rfl, rfl⟩

set_option maxHeartbeats 1000000 in
theorem runC_indep (c : Dev nD) (i : grid0.Coords) (arg1 : Memref sig .tc .vmem S256x16x256 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S128x16x256 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S128x16x256 .bf16) (harg7 : arg7.IsWhole) (arg8 : Memref sig .tc .vmem S16x256 .f32) (harg8 : arg8.IsWhole) (arg9 : Memref sig .tc .vmem S16x256 .f32) (harg9 : arg9.IsWhole) (arg10 : Memref sig .tc .vmem S16x2048x128 .f32) (harg10 : arg10.IsWhole) (hc0 : ¬cond0_0 i) (hc1 : cond0_1 i)
    (x0 : Vec F S256x16x256 .f32) (x1 : Vec F S16x1 .f32) (x2 : Vec F S16x1 .f32) (x3 : Vec F S128x16x256 .f32) (x4 : Vec F S1x128 .f32) (xs0 : Vec F S128x16x256 .bf16) (xs1 : Vec F S16x256 .f32) (xs2 : Vec F S16x256 .f32) (xs3 : Vec F S16x2048x128 .f32) (xs3' : Vec F S16x2048x128 .f32) :
    (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).1 = (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3').1 ∧ (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.1 = (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3').2.1 := by
  unfold kernelRun0_C
  dsimp only
  sl_unfold_words
  exact ⟨rfl, rfl⟩

theorem RA_indep (c : Dev nD) (t : Fin cfg0.N) (h0 : t.val % 8 = 0) (h1 : ¬t.val % 8 = 7) (g g' : Vec F S16x2048x128 .f32) :
    (RA m c t h0 h1 g).1 = (RA m c t h0 h1 g').1 ∧ (RA m c t h0 h1 g).2.1 = (RA m c t h0 h1 g').2.1
      ∧ (RA m c t h0 h1 g).2.2.1 = (RA m c t h0 h1 g').2.2.1 :=
  runA_indep c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) g g'

theorem RB_indep (c : Dev nD) (t : Fin cfg0.N) (h0 : ¬t.val % 8 = 0) (h1 : ¬t.val % 8 = 7) (xs0 : Vec F S128x16x256 .bf16) (xs1 xs2 : Vec F S16x256 .f32) (g g' : Vec F S16x2048x128 .f32) :
    (RB m c t h0 h1 xs0 xs1 xs2 g).1 = (RB m c t h0 h1 xs0 xs1 xs2 g').1 ∧ (RB m c t h0 h1 xs0 xs1 xs2 g).2.1 = (RB m c t h0 h1 xs0 xs1 xs2 g').2.1 :=
  runB_indep c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) xs0 xs1 xs2 g g'

theorem RC_indep (c : Dev nD) (t : Fin cfg0.N) (h0 : ¬t.val % 8 = 0) (h1 : t.val % 8 = 7) (xs0 : Vec F S128x16x256 .bf16) (xs1 xs2 : Vec F S16x256 .f32) (g g' : Vec F S16x2048x128 .f32) :
    (RC m c t h0 h1 xs0 xs1 xs2 g).1 = (RC m c t h0 h1 xs0 xs1 xs2 g').1 ∧ (RC m c t h0 h1 xs0 xs1 xs2 g).2.1 = (RC m c t h0 h1 xs0 xs1 xs2 g').2.1 :=
  runC_indep c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) xs0 xs1 xs2 g g'

theorem overWrite_plist_miss (M : Memref sig .tc .vmem S16x2048x128 .f32) (hM : M.IsWhole) (g : Vec F S16x2048x128 .f32)
    (i : grid0.Coords) (x : Vec F S256x16x256 .f32) (wb : Vec F S128x16x256 .bf16) (idx : S16x2048x128.Idx)
    (h : (idx 1).val < 256 * (i 0).val ∨ 256 * (i 0).val + 256 ≤ (idx 1).val) :
    overWrite M hM g (plist i x wb) idx = g idx := by
  show M.view.read (Elt F) (M.view.writes (Elt F) (hM.unread g) (plist i x wb)) idx = g idx
  rw [View.read_writes_apply_of_forall_not_mem _ _ idx _ (plist_not_mem i x wb idx h), hM.read_unread]

theorem overWrite_plist_hit (M : Memref sig .tc .vmem S16x2048x128 .f32) (hM : M.IsWhole) (g g' : Vec F S16x2048x128 .f32)
    (i : grid0.Coords) (x : Vec F S256x16x256 .f32) (wb : Vec F S128x16x256 .bf16) (idx : S16x2048x128.Idx)
    (h : 256 * (i 0).val ≤ (idx 1).val ∧ (idx 1).val < 256 * (i 0).val + 256) :
    overWrite M hM g (plist i x wb) idx = overWrite M hM g' (plist i x wb) idx :=
  View.read_writes_apply_eq _ _ _ _ idx _ (plist_mem i x wb idx h)

theorem updA_eq (c : Dev nD) (t : Fin cfg0.N) (h0 : t.val % 8 = 0) (h1 : ¬t.val % 8 = 7) (g : Vec F S16x2048x128 .f32) :
    updA m c t h0 h1 g = overWrite scM0_3 (Memref.isWhole_whole _) g (plist (grid0.coords t) (iblk m c 0 t) (k0_pay21 (iblk m c 3 t))) := by
  unfold updA RA
  rw [LS3_A_eq]
theorem updB_eq (c : Dev nD) (t : Fin cfg0.N) (h0 : ¬t.val % 8 = 0) (h1 : ¬t.val % 8 = 7) (xs0 : Vec F S128x16x256 .bf16) (xs1 xs2 : Vec F S16x256 .f32) (g : Vec F S16x2048x128 .f32) :
    updB m c t h0 h1 xs0 xs1 xs2 g = overWrite scM0_3 (Memref.isWhole_whole _) g (plist (grid0.coords t) (iblk m c 0 t) xs0) := by
  unfold updB RB
  rw [LS3_B_eq]
theorem updC_eq (c : Dev nD) (t : Fin cfg0.N) (h0 : ¬t.val % 8 = 0) (h1 : t.val % 8 = 7) (xs0 : Vec F S128x16x256 .bf16) (xs1 xs2 : Vec F S16x256 .f32) (g : Vec F S16x2048x128 .f32) :
    updC m c t h0 h1 xs0 xs1 xs2 g = overWrite scM0_3 (Memref.isWhole_whole _) g (plist (grid0.coords t) (iblk m c 0 t) xs0) := by
  unfold updC RC
  rw [LS3_C_eq]

theorem lt7 : 7 < cfg0.N := by rw [show cfg0.N = 8 from N_0]; decide
theorem lt6 : 6 < cfg0.N := by rw [show cfg0.N = 8 from N_0]; decide

theorem upd_seven (c : Dev nD) (g : Vec F S16x2048x128 .f32) :
    upd m c 7 lt7 g = updC m c ⟨7, lt7⟩ (by show ¬ ((7 : ℕ) % 8 = 0); decide) (by show (7 : ℕ) % 8 = 7; decide) (st3 m c 6 lt6).1 (st3 m c 6 lt6).2.1 (st3 m c 6 lt6).2.2 g := rfl

theorem outOf_eq (c : Dev nD) (g : Vec F S16x2048x128 .f32) :
    outOf m c g = readBack (ms0_5 ⟨7, lt7⟩) (RC m c ⟨7, lt7⟩ (by show ¬ ((7 : ℕ) % 8 = 0); decide) (by show (7 : ℕ) % 8 = 7; decide) (st3 m c 6 lt6).1 (st3 m c 6 lt6).2.1 (st3 m c 6 lt6).2.2 g).2.2.2.1 := rfl

theorem RC_out_congr (c : Dev nD) (t : Fin cfg0.N) (h0 : ¬t.val % 8 = 0) (h1 : t.val % 8 = 7) (xs0 : Vec F S128x16x256 .bf16) (xs1 xs2 : Vec F S16x256 .f32) (g g' : Vec F S16x2048x128 .f32)
    (hw : scM0_3.view.writes (Elt F) ((Memref.isWhole_whole _).unread g) (RC m c t h0 h1 xs0 xs1 xs2 g).2.2.1
      = scM0_3.view.writes (Elt F) ((Memref.isWhole_whole _).unread g') (RC m c t h0 h1 xs0 xs1 xs2 g').2.2.1) :
    (RC m c t h0 h1 xs0 xs1 xs2 g).2.2.2.1 = (RC m c t h0 h1 xs0 xs1 xs2 g').2.2.2.1 :=
  LO_C_congr (arg10 := scM0_3) (harg10 := Memref.isWhole_whole _) (xs3 := g) (xs3' := g') hw

theorem outOf_congr (c : Dev nD) (g g' : Vec F S16x2048x128 .f32)
    (h : ∀ idx, upd m c 7 (by rw [show cfg0.N = 8 from N_0]; decide) g idx = upd m c 7 (by rw [show cfg0.N = 8 from N_0]; decide) g' idx) :
    outOf m c g = outOf m c g' := by
  rw [outOf_eq, outOf_eq]
  refine congrArg (readBack (ms0_5 ⟨7, lt7⟩)) (RC_out_congr m c ⟨7, lt7⟩ _ _ _ _ _ g g' ?_)
  refine (Memref.isWhole_whole _).read_bijective.1 (funext fun idx => ?_)
  have hi := h idx
  rw [upd_seven, upd_seven] at hi
  exact hi

end Cert.KernelIdeal.H

end
-- ==== Proof.KI.Carry.lean ====
import proofs.«135015_g2000502485364553_pallasbulk_1302_1_alg».proof.Proof.KI.Struct

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem N8 : cfg0.N = 8 := N_0

theorem st3_A (c : Dev nD) (t : Fin cfg0.N) (h0 : t.val % 8 = 0) (h1 : ¬t.val % 8 = 7) :
    st3 m c t.val t.isLt = (readBack scM0_0 (RA m c t h0 h1 (pj (F := F))).1, readBack scM0_1 (RA m c t h0 h1 (pj (F := F))).2.1, readBack scM0_2 (RA m c t h0 h1 (pj (F := F))).2.2.1) := by
  obtain ⟨n, hn⟩ := t
  cases n with
  | zero => rfl
  | succ n => exfalso; have := lt_of_lt_of_eq hn N8; dsimp only at h0; omega

theorem st3_B (c : Dev nD) (t : Fin cfg0.N) (h0 : ¬t.val % 8 = 0) (h1 : ¬t.val % 8 = 7) :
    st3 m c t.val t.isLt = ((st3 m c (t.val - 1) (Nat.lt_of_le_of_lt (Nat.sub_le _ _) t.isLt)).1,
      readBack scM0_1 (RB m c t h0 h1 (st3 m c (t.val - 1) (Nat.lt_of_le_of_lt (Nat.sub_le _ _) t.isLt)).1 (st3 m c (t.val - 1) (Nat.lt_of_le_of_lt (Nat.sub_le _ _) t.isLt)).2.1 (st3 m c (t.val - 1) (Nat.lt_of_le_of_lt (Nat.sub_le _ _) t.isLt)).2.2 (pj (F := F))).1,
      readBack scM0_2 (RB m c t h0 h1 (st3 m c (t.val - 1) (Nat.lt_of_le_of_lt (Nat.sub_le _ _) t.isLt)).1 (st3 m c (t.val - 1) (Nat.lt_of_le_of_lt (Nat.sub_le _ _) t.isLt)).2.1 (st3 m c (t.val - 1) (Nat.lt_of_le_of_lt (Nat.sub_le _ _) t.isLt)).2.2 (pj (F := F))).2.1) := by
  obtain ⟨n, hn⟩ := t
  cases n with
  | zero => exact absurd (Nat.zero_mod _) h0
  | succ n => exact (dif_neg h1).trans rfl

theorem st3_C (c : Dev nD) (t : Fin cfg0.N) (h0 : ¬t.val % 8 = 0) (h1 : t.val % 8 = 7) :
    st3 m c t.val t.isLt = ((st3 m c (t.val - 1) (Nat.lt_of_le_of_lt (Nat.sub_le _ _) t.isLt)).1,
      readBack scM0_1 (RC m c t h0 h1 (st3 m c (t.val - 1) (Nat.lt_of_le_of_lt (Nat.sub_le _ _) t.isLt)).1 (st3 m c (t.val - 1) (Nat.lt_of_le_of_lt (Nat.sub_le _ _) t.isLt)).2.1 (st3 m c (t.val - 1) (Nat.lt_of_le_of_lt (Nat.sub_le _ _) t.isLt)).2.2 (pj (F := F))).1,
      readBack scM0_2 (RC m c t h0 h1 (st3 m c (t.val - 1) (Nat.lt_of_le_of_lt (Nat.sub_le _ _) t.isLt)).1 (st3 m c (t.val - 1) (Nat.lt_of_le_of_lt (Nat.sub_le _ _) t.isLt)).2.1 (st3 m c (t.val - 1) (Nat.lt_of_le_of_lt (Nat.sub_le _ _) t.isLt)).2.2 (pj (F := F))).2.1) := by
  obtain ⟨n, hn⟩ := t
  cases n with
  | zero => exact absurd (Nat.zero_mod _) h0
  | succ n => exact (dif_pos h1).trans rfl

theorem upd_A (c : Dev nD) (t : Fin cfg0.N) (h0 : t.val % 8 = 0) (h1 : ¬t.val % 8 = 7) :
    upd m c t.val t.isLt = updA m c t h0 h1 := by
  obtain ⟨n, hn⟩ := t
  cases n with
  | zero => rfl
  | succ n => exfalso; have := lt_of_lt_of_eq hn N8; dsimp only at h0; omega

theorem upd_B (c : Dev nD) (t : Fin cfg0.N) (h0 : ¬t.val % 8 = 0) (h1 : ¬t.val % 8 = 7) :
    upd m c t.val t.isLt = updB m c t h0 h1 (st3 m c (t.val - 1) (Nat.lt_of_le_of_lt (Nat.sub_le _ _) t.isLt)).1 (st3 m c (t.val - 1) (Nat.lt_of_le_of_lt (Nat.sub_le _ _) t.isLt)).2.1 (st3 m c (t.val - 1) (Nat.lt_of_le_of_lt (Nat.sub_le _ _) t.isLt)).2.2 := by
  obtain ⟨n, hn⟩ := t
  cases n with
  | zero => exact absurd (Nat.zero_mod _) h0
  | succ n => exact (dif_neg h1).trans rfl

theorem upd_C (c : Dev nD) (t : Fin cfg0.N) (h0 : ¬t.val % 8 = 0) (h1 : t.val % 8 = 7) :
    upd m c t.val t.isLt = updC m c t h0 h1 (st3 m c (t.val - 1) (Nat.lt_of_le_of_lt (Nat.sub_le _ _) t.isLt)).1 (st3 m c (t.val - 1) (Nat.lt_of_le_of_lt (Nat.sub_le _ _) t.isLt)).2.1 (st3 m c (t.val - 1) (Nat.lt_of_le_of_lt (Nat.sub_le _ _) t.isLt)).2.2 := by
  obtain ⟨n, hn⟩ := t
  cases n with
  | zero => exact absurd (Nat.zero_mod _) h0
  | succ n => exact (dif_pos h1).trans rfl

theorem upd_miss (c : Dev nD) (n : ℕ) (hn : n < cfg0.N) (g : Vec F S16x2048x128 .f32) (idx : S16x2048x128.Idx)
    (h : (idx 1).val < 256 * n ∨ 256 * (n + 1) ≤ (idx 1).val) : upd m c n hn g idx = g idx := by
  have hN := lt_of_lt_of_eq hn N8
  have hc : (grid0.coords ⟨n, hn⟩ 0).val = n := coords_val ⟨n, hn⟩
  by_cases h0 : n % 8 = 0
  · have h1 : ¬ n % 8 = 7 := by omega
    rw [upd_A m c ⟨n, hn⟩ h0 h1, updA_eq]; exact overWrite_plist_miss _ _ g _ _ _ idx (by omega)
  · by_cases h1 : n % 8 = 7
    · rw [upd_C m c ⟨n, hn⟩ h0 h1, updC_eq]; exact overWrite_plist_miss _ _ g _ _ _ idx (by omega)
    · rw [upd_B m c ⟨n, hn⟩ h0 h1, updB_eq]; exact overWrite_plist_miss _ _ g _ _ _ idx (by omega)

theorem upd_hit (c : Dev nD) (n : ℕ) (hn : n < cfg0.N) (g g' : Vec F S16x2048x128 .f32) (idx : S16x2048x128.Idx)
    (h : 256 * n ≤ (idx 1).val ∧ (idx 1).val < 256 * (n + 1)) : upd m c n hn g idx = upd m c n hn g' idx := by
  have hN := lt_of_lt_of_eq hn N8
  have hc : (grid0.coords ⟨n, hn⟩ 0).val = n := coords_val ⟨n, hn⟩
  by_cases h0 : n % 8 = 0
  · have h1 : ¬ n % 8 = 7 := by omega
    rw [upd_A m c ⟨n, hn⟩ h0 h1, updA_eq, updA_eq]; exact overWrite_plist_hit _ _ g g' _ _ _ idx (by omega)
  · by_cases h1 : n % 8 = 7
    · rw [upd_C m c ⟨n, hn⟩ h0 h1, updC_eq, updC_eq]; exact overWrite_plist_hit _ _ g g' _ _ _ idx (by omega)
    · rw [upd_B m c ⟨n, hn⟩ h0 h1, updB_eq, updB_eq]; exact overWrite_plist_hit _ _ g g' _ _ _ idx (by omega)

theorem pAt_succ (c : Dev nD) (n : ℕ) (hn : n + 1 < cfg0.N) :
    pAt m c (n + 1) hn = upd m c (n + 1) hn (pAt m c n (Nat.lt_of_succ_lt hn)) := rfl

theorem pAt_stable (c : Dev nD) (n : ℕ) (idx : S16x2048x128.Idx) (hrow : (idx 1).val < 256 * (n + 1)) :
    ∀ (k : ℕ) (hk : n + k < cfg0.N), pAt m c (n + k) hk idx = pAt m c n (Nat.lt_of_le_of_lt (Nat.le_add_right _ _) hk) idx
  | 0, _ => rfl
  | k + 1, hk => by
    show pAt m c (n + k + 1) hk idx = _
    rw [pAt_succ, upd_miss m c (n + k + 1) hk _ idx (Or.inl (by omega))]
    exact pAt_stable c n idx hrow k (Nat.lt_of_succ_lt hk)

theorem pAt_pfull (c : Dev nD) (n : ℕ) (hn : n < cfg0.N) (idx : S16x2048x128.Idx) (hrow : (idx 1).val < 256 * (n + 1)) :
    pAt m c n hn idx = pfull m c idx := by
  have hN := lt_of_lt_of_eq hn N8
  obtain ⟨k, hk⟩ : ∃ k, 7 = n + k := ⟨7 - n, by omega⟩
  unfold pfull
  have := pAt_stable m c n idx hrow k (by rw [← hk, N8]; decide)
  simp only [← hk] at this
  exact this.symm

theorem agree_zero (c : Dev nD) (hn : 0 < cfg0.N) (f : Vec F S16x2048x128 .f32) : Agree m c 0 (upd m c 0 hn f) := by
  intro idx hrow
  rw [upd_hit m c 0 hn f (pj (F := F)) idx ⟨by omega, hrow⟩]
  exact pAt_pfull m c 0 hn idx hrow

theorem agree_succ (c : Dev nD) (n : ℕ) (hn : n + 1 < cfg0.N) (f : Vec F S16x2048x128 .f32) (hf : Agree m c n f) :
    Agree m c (n + 1) (upd m c (n + 1) hn f) := by
  intro idx hrow
  by_cases hlt : (idx 1).val < 256 * (n + 1)
  · rw [upd_miss m c (n + 1) hn f idx (Or.inl hlt)]; exact hf idx hlt
  · rw [upd_hit m c (n + 1) hn f (pAt m c n (Nat.lt_of_succ_lt hn)) idx ⟨by omega, hrow⟩, ← pAt_succ]
    exact pAt_pfull m c (n + 1) hn idx hrow

theorem outOf_agree (c : Dev nD) (f : Vec F S16x2048x128 .f32) (hf : Agree m c 6 f) : outOf m c f = outV m c := by
  unfold outV
  refine outOf_congr m c f _ fun idx => ?_
  by_cases hlt : (idx 1).val < 256 * 7
  · rw [upd_miss m c 7 _ f idx (Or.inl hlt), upd_miss m c 7 _ _ idx (Or.inl hlt), hf idx hlt]
    exact (pAt_pfull m c 6 _ idx hlt).symm
  · exact upd_hit m c 7 _ f _ idx ⟨by omega, by have := (idx 1).isLt; exact this⟩

theorem owns_of_cover {S : Shape} {e : EltTy} (c : Dev nD) (M : Memref sig .tc .vmem S e) (L : List (View.Piece (Elt F) S e))
    (hcov : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (readBack M L) := by
  unfold owns
  iintro ⟨%f, H⟩
  iexists (M.view.writes (Elt F) f L); isplitr
  · ipureintro; exact View.read_writes_of_cover M.view f M.view M.view.junk L hcov
  iexact H

theorem owns_overWrite {S : Shape} {e : EltTy} (c : Dev nD) (M : Memref sig .tc .vmem S e) (hM : M.IsWhole) (g : S.Idx → Elt F e)
    (L : List (View.Piece (Elt F) S e)) :
    (M.view.loc (c : Thread nD τ) ↦[M.view.set]{fullShare} M.view.writes (Elt F) (hM.unread g) L : sProp 𝕄)
      ⊢ owns (c : Thread nD τ) M fullShare (overWrite M hM g L) :=
  owns_intro _ _ _ _

section
variable (c : Dev nD) (t : Fin cfg0.N) (h0 : t.val % 8 = 0) (h1 : ¬t.val % 8 = 7) (g : Vec F S16x2048x128 .f32)
include c t h0 h1 g

theorem coverA0 (y : S128x16x256.Idx) :
    ∃ pc ∈ (RA m c t h0 h1 g).1, y ∈ pc.1.set :=
  View.cover_of_tiledL (RA m c t h0 h1 g).1 S128x16x256.size (by sl_kernel_rfl) y
theorem coverA1 (y : S16x256.Idx) :
    ∃ pc ∈ (RA m c t h0 h1 g).2.1, y ∈ pc.1.set :=
  View.cover_of_tiledL (RA m c t h0 h1 g).2.1 S16x256.size (by sl_kernel_rfl) y
theorem coverA2 (y : S16x256.Idx) :
    ∃ pc ∈ (RA m c t h0 h1 g).2.2.1, y ∈ pc.1.set :=
  View.cover_of_tiledL (RA m c t h0 h1 g).2.2.1 S16x256.size (by sl_kernel_rfl) y

end

section
variable (c : Dev nD) (t : Fin cfg0.N) (h0 : ¬t.val % 8 = 0) (h1 : ¬t.val % 8 = 7) (xs0 : Vec F S128x16x256 .bf16) (xs1 xs2 : Vec F S16x256 .f32) (g : Vec F S16x2048x128 .f32) (y : S16x256.Idx)
include c t h0 h1 xs0 xs1 xs2 g y

theorem coverB1 :
    ∃ pc ∈ (RB m c t h0 h1 xs0 xs1 xs2 g).1, y ∈ pc.1.set :=
  View.cover_of_tiledL (RB m c t h0 h1 xs0 xs1 xs2 g).1 S16x256.size (by sl_kernel_rfl) y
theorem coverB2 :
    ∃ pc ∈ (RB m c t h0 h1 xs0 xs1 xs2 g).2.1, y ∈ pc.1.set :=
  View.cover_of_tiledL (RB m c t h0 h1 xs0 xs1 xs2 g).2.1 S16x256.size (by sl_kernel_rfl) y

end

section
variable (c : Dev nD) (t : Fin cfg0.N) (h0 : ¬t.val % 8 = 0) (h1 : t.val % 8 = 7) (xs0 : Vec F S128x16x256 .bf16) (xs1 xs2 : Vec F S16x256 .f32) (g : Vec F S16x2048x128 .f32)
include c t h0 h1 xs0 xs1 xs2 g

theorem coverC1 (y : S16x256.Idx) :
    ∃ pc ∈ (RC m c t h0 h1 xs0 xs1 xs2 g).1, y ∈ pc.1.set :=
  View.cover_of_tiledL (RC m c t h0 h1 xs0 xs1 xs2 g).1 S16x256.size (by sl_kernel_rfl) y
theorem coverC2 (y : S16x256.Idx) :
    ∃ pc ∈ (RC m c t h0 h1 xs0 xs1 xs2 g).2.1, y ∈ pc.1.set :=
  View.cover_of_tiledL (RC m c t h0 h1 xs0 xs1 xs2 g).2.1 S16x256.size (by sl_kernel_rfl) y
theorem coverCO (y : S2048x128.Idx) :
    ∃ pc ∈ (RC m c t h0 h1 xs0 xs1 xs2 g).2.2.2.1, y ∈ pc.1.set :=
  View.cover_of_tiledL (RC m c t h0 h1 xs0 xs1 xs2 g).2.2.2.1 S2048x128.size (by sl_kernel_rfl) y

end

section
variable (c : Dev nD) (t : Fin cfg0.N) (h0 : t.val % 8 = 0) (h1 : ¬t.val % 8 = 7) (f : Vec F S16x2048x128 .f32)
include c t h0 h1 f

theorem takeA0 :
    (iprop(∃ f', scM0_0.view.loc (c : Thread nD τ) ↦[scM0_0.view.set]{fullShare} scM0_0.view.writes (Elt F) f' (RA m c t h0 h1 f).1) : sProp 𝕄)
      ⊢ owns (c : Thread nD τ) scM0_0 fullShare (readBack scM0_0 (RA m c t h0 h1 (pj (F := F))).1) := by
  rw [(RA_indep m c t h0 h1 (pj (F := F)) f).1]; exact owns_of_cover c scM0_0 _ (coverA0 m c t h0 h1 f)
theorem takeA1 :
    (iprop(∃ f', scM0_1.view.loc (c : Thread nD τ) ↦[scM0_1.view.set]{fullShare} scM0_1.view.writes (Elt F) f' (RA m c t h0 h1 f).2.1) : sProp 𝕄)
      ⊢ owns (c : Thread nD τ) scM0_1 fullShare (readBack scM0_1 (RA m c t h0 h1 (pj (F := F))).2.1) := by
  rw [(RA_indep m c t h0 h1 (pj (F := F)) f).2.1]; exact owns_of_cover c scM0_1 _ (coverA1 m c t h0 h1 f)
theorem takeA2 :
    (iprop(∃ f', scM0_2.view.loc (c : Thread nD τ) ↦[scM0_2.view.set]{fullShare} scM0_2.view.writes (Elt F) f' (RA m c t h0 h1 f).2.2.1) : sProp 𝕄)
      ⊢ owns (c : Thread nD τ) scM0_2 fullShare (readBack scM0_2 (RA m c t h0 h1 (pj (F := F))).2.2.1) := by
  rw [(RA_indep m c t h0 h1 (pj (F := F)) f).2.2]; exact owns_of_cover c scM0_2 _ (coverA2 m c t h0 h1 f)

end

section
variable (c : Dev nD) (t : Fin cfg0.N) (h0 : ¬t.val % 8 = 0) (h1 : ¬t.val % 8 = 7) (xs0 : Vec F S128x16x256 .bf16) (xs1 xs2 : Vec F S16x256 .f32) (f : Vec F S16x2048x128 .f32)
include c t h0 h1 xs0 xs1 xs2 f

theorem takeB1 :
    (iprop(∃ f', scM0_1.view.loc (c : Thread nD τ) ↦[scM0_1.view.set]{fullShare} scM0_1.view.writes (Elt F) f' (RB m c t h0 h1 xs0 xs1 xs2 f).1) : sProp 𝕄)
      ⊢ owns (c : Thread nD τ) scM0_1 fullShare (readBack scM0_1 (RB m c t h0 h1 xs0 xs1 xs2 (pj (F := F))).1) := by
  rw [(RB_indep m c t h0 h1 xs0 xs1 xs2 (pj (F := F)) f).1]; exact owns_of_cover c scM0_1 _ (coverB1 m c t h0 h1 xs0 xs1 xs2 f)
theorem takeB2 :
    (iprop(∃ f', scM0_2.view.loc (c : Thread nD τ) ↦[scM0_2.view.set]{fullShare} scM0_2.view.writes (Elt F) f' (RB m c t h0 h1 xs0 xs1 xs2 f).2.1) : sProp 𝕄)
      ⊢ owns (c : Thread nD τ) scM0_2 fullShare (readBack scM0_2 (RB m c t h0 h1 xs0 xs1 xs2 (pj (F := F))).2.1) := by
  rw [(RB_indep m c t h0 h1 xs0 xs1 xs2 (pj (F := F)) f).2]; exact owns_of_cover c scM0_2 _ (coverB2 m c t h0 h1 xs0 xs1 xs2 f)

end

section
variable (c : Dev nD) (t : Fin cfg0.N) (h0 : ¬t.val % 8 = 0) (h1 : t.val % 8 = 7) (xs0 : Vec F S128x16x256 .bf16) (xs1 xs2 : Vec F S16x256 .f32) (f : Vec F S16x2048x128 .f32)
include c t h0 h1 xs0 xs1 xs2 f

theorem takeC1 :
    (iprop(∃ f', scM0_1.view.loc (c : Thread nD τ) ↦[scM0_1.view.set]{fullShare} scM0_1.view.writes (Elt F) f' (RC m c t h0 h1 xs0 xs1 xs2 f).1) : sProp 𝕄)
      ⊢ owns (c : Thread nD τ) scM0_1 fullShare (readBack scM0_1 (RC m c t h0 h1 xs0 xs1 xs2 (pj (F := F))).1) := by
  rw [(RC_indep m c t h0 h1 xs0 xs1 xs2 (pj (F := F)) f).1]; exact owns_of_cover c scM0_1 _ (coverC1 m c t h0 h1 xs0 xs1 xs2 f)
theorem takeC2 :
    (iprop(∃ f', scM0_2.view.loc (c : Thread nD τ) ↦[scM0_2.view.set]{fullShare} scM0_2.view.writes (Elt F) f' (RC m c t h0 h1 xs0 xs1 xs2 f).2.1) : sProp 𝕄)
      ⊢ owns (c : Thread nD τ) scM0_2 fullShare (readBack scM0_2 (RC m c t h0 h1 xs0 xs1 xs2 (pj (F := F))).2.1) := by
  rw [(RC_indep m c t h0 h1 xs0 xs1 xs2 (pj (F := F)) f).2]; exact owns_of_cover c scM0_2 _ (coverC2 m c t h0 h1 xs0 xs1 xs2 f)

end

theorem takeCO (c : Dev nD) (t : Fin cfg0.N) (h0 : ¬t.val % 8 = 0) (h1 : t.val % 8 = 7) (f : Vec F S16x2048x128 .f32) (hf : Agree m c (t.val - 1) f) :
    (iprop(∃ f', (ms0_5 t).view.loc (c : Thread nD τ) ↦[(ms0_5 t).view.set]{fullShare} (ms0_5 t).view.writes (Elt F) f' (RC m c t h0 h1 (st3 m c (t.val - 1) (Nat.lt_of_le_of_lt (Nat.sub_le _ _) t.isLt)).1 (st3 m c (t.val - 1) (Nat.lt_of_le_of_lt (Nat.sub_le _ _) t.isLt)).2.1 (st3 m c (t.val - 1) (Nat.lt_of_le_of_lt (Nat.sub_le _ _) t.isLt)).2.2 f).2.2.2.1) : sProp 𝕄)
      ⊢ owns (c : Thread nD τ) (ms0_5 t) fullShare (outV m c) := by
  have hN := lt_of_lt_of_eq t.isLt N8
  obtain rfl : t = ⟨7, by rw [N8]; decide⟩ := Fin.ext (by show t.val = 7; omega)
  rw [← outOf_agree m c f hf]
  exact owns_of_cover c _ _ (coverCO m c _ h0 h1 _ _ _ f)

theorem agree_step (c : Dev nD) (t : Fin cfg0.N) (f : Vec F S16x2048x128 .f32) (hf : t.val ≠ 0 → Agree m c (t.val - 1) f) :
    Agree m c t.val (upd m c t.val t.isLt f) := by
  obtain ⟨n, hn⟩ := t
  cases n with
  | zero => exact agree_zero m c hn f
  | succ n => exact agree_succ m c n hn f (hf (Nat.succ_ne_zero n))

theorem before0_5_of {c : Dev nD} (dat : Dat τ (Elt F) Unit ℕ (UR sig nD τ) ℕ cfg0 c) (t : Fin cfg0.N) (d) : dat.before 5 t d = d := by
  obtain ⟨n, hn⟩ := t
  induction n with
  | zero => exact dat.before_out_reset 5 rfl ⟨0, hn⟩ (.inl rfl) d
  | succ n ih =>
    have hN := lt_of_lt_of_eq hn N8
    have hn' : n < cfg0.N := Nat.lt_of_succ_lt hn
    rw [dat.before_of_pos 5 ⟨n + 1, hn⟩ (Nat.succ_ne_zero n) ((cfg0.win 5).fetch_out rfl _)]
    have hfl : ¬ (cfg0.win 5).flush ⟨n, hn'⟩ = true := fun h => by have := (flush0_5 ⟨n, hn'⟩).mp h; dsimp only at this; omega
    have hi : cfg0.idle 5 (cfg0.grid.coords ⟨n, hn'⟩) = true := (idleAt0_5 ⟨n, hn'⟩).mpr (by dsimp only; omega)
    show (if (cfg0.win 5).flush ⟨n, hn'⟩ = true then d else dat.left 5 ⟨n, hn'⟩ d) = d
    rw [if_neg hfl]; unfold Dat.left; rw [hi]
    exact ih hn'

end Cert.KernelIdeal.H

end
-- ==== Proof.KI.Body.lean ====
import proofs.«135015_g2000502485364553_pallasbulk_1302_1_alg».proof.Proof.KI.Carry

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def PhiS (c : Dev nD) : (n : ℕ) → n ≤ cfg0.N → sProp 𝕄
  | 0, _ => Pipeline.ΦA spec0 c
  | n + 1, hn => iprop(iprop(owns (c : Thread nD τ) scM0_0 fullShare (st3 m c n hn).1 ∗ owns (c : Thread nD τ) scM0_1 fullShare (st3 m c n hn).2.1 ∗ owns (c : Thread nD τ) scM0_2 fullShare (st3 m c n hn).2.2 ∗ (∃ f, owns (c : Thread nD τ) scM0_3 fullShare f ∗ ⌜Agree m c n f⌝)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (st3 m c n hn).1 ∗ owns (c : Thread nD τ) scM0_1 fullShare (st3 m c n hn).2.1 ∗ owns (c : Thread nD τ) scM0_2 fullShare (st3 m c n hn).2.2 ∗ (∃ f, owns (c : Thread nD τ) scM0_3 fullShare f ∗ ⌜Agree m c n f⌝)) ∗ (∃ r, prngReg c r)) := rfl

theorem PhiS_pos (c : Dev nD) (n : ℕ) (h : n ≤ cfg0.N) (hz : n ≠ 0) :
    PhiS m c n h = iprop(iprop(owns (c : Thread nD τ) scM0_0 fullShare (st3 m c (n - 1) (by omega)).1 ∗ owns (c : Thread nD τ) scM0_1 fullShare (st3 m c (n - 1) (by omega)).2.1 ∗ owns (c : Thread nD τ) scM0_2 fullShare (st3 m c (n - 1) (by omega)).2.2 ∗ (∃ f, owns (c : Thread nD τ) scM0_3 fullShare f ∗ ⌜Agree m c (n - 1) f⌝)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outV m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outV m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem before0_5 (c : Dev nD) (t : Fin cfg0.N) (d) : (dats m 0 c).before 5 t d = d :=
  before0_5_of (dats m 0 c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- One tile's postcondition with the parts every case shares written out; the output part is left to the cases. -/
theorem bodyPost_eq (c : Dev nD) (t : Fin cfg0.N) :
    bodyPost m c t = iprop(PhiS m c (t.val + 1) t.isLt ∗ (dats m 0 c).owesAt () t.castSucc
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ (dats m 0 c).leavesExact 5 t) := by
  unfold bodyPost
  rw [show (dats m 0 c).owesAt () t.succ = (dats m 0 c).owesAt () t.castSucc from rfl]
  rw [show (dats m 0 c).Φ t.succ = PhiS m c (t.val + 1) t.isLt from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]

theorem bodyPost_idle (c : Dev nD) (t : Fin cfg0.N) (h1 : ¬t.val % 8 = 7) :
    bodyPost m c t = iprop(PhiS m c (t.val + 1) t.isLt ∗ (dats m 0 c).owesAt () t.castSucc
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ (∃ d, owns (c : Thread nD τ) (ms0_5 t) fullShare d)) := by
  rw [bodyPost_eq]
  rw [Dat.leavesExact_idle (dats m 0 c) 5 t ((idleAt0_5 t).mpr h1) (Bool.eq_false_iff.mpr fun h => h1 ((flush0_5 t).mp h))]
  simp only [before0_5]
  rfl

theorem bodyPost_last (c : Dev nD) (t : Fin cfg0.N) (h1 : t.val % 8 = 7) :
    bodyPost m c t = iprop(PhiS m c (t.val + 1) t.isLt ∗ (dats m 0 c).owesAt () t.castSucc
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ owns (c : Thread nD τ) (ms0_5 t) fullShare (outV m c)) := by
  rw [bodyPost_eq]
  rw [show (dats m 0 c).leavesExact 5 t = owns (c : Thread nD τ) (ms0_5 t) fullShare ((dats m 0 c).after 5 t) from by
    unfold Dat.leavesExact; rw [(liveAt0_5 t).mpr h1], after0_5]

theorem bodyPre_eq (c : Dev nD) (t : Fin cfg0.N) :
    bodyPre m c t = iprop(PhiS m c t.val (Nat.le_of_lt t.isLt) ∗ (dats m 0 c).owesAt () t.castSucc
      ∗ (∃ d : (cfg0.win 0).block.Idx → Elt F (cfg0.win 0).elt, owns (c : Thread nD τ) (ms0_0 t) fullShare (iblk m c 0 t))
      ∗ (∃ d : (cfg0.win 1).block.Idx → Elt F (cfg0.win 1).elt, owns (c : Thread nD τ) (ms0_1 t) fullShare (iblk m c 1 t))
      ∗ (∃ d : (cfg0.win 2).block.Idx → Elt F (cfg0.win 2).elt, owns (c : Thread nD τ) (ms0_2 t) fullShare (iblk m c 2 t))
      ∗ (∃ d : (cfg0.win 3).block.Idx → Elt F (cfg0.win 3).elt, owns (c : Thread nD τ) (ms0_3 t) fullShare (iblk m c 3 t))
      ∗ (∃ d : (cfg0.win 4).block.Idx → Elt F (cfg0.win 4).elt, owns (c : Thread nD τ) (ms0_4 t) fullShare (iblk m c 4 t))
      ∗ (∃ d, owns (c : Thread nD τ) (ms0_5 t) fullShare d)) := by
  unfold bodyPre
  simp only [before0_0, before0_1, before0_2, before0_3, before0_4, before0_5]
  rw [PhiS_castSucc m c t]
  rfl

set_option maxHeartbeats 1600000 in

theorem sound_A (c : Dev nD) (t : Fin cfg0.N) (h0 : t.val % 8 = 0) (h1 : ¬t.val % 8 = 7) :
    bodyPre m c t ⊢ wp frame (wpE (defs₀ (F := F)) Variants.none c none) Set.univ (bodyAt0 t) (fun _ => bodyPost m c t) := by
  have hz : t.val = 0 := by have := lt_of_lt_of_eq t.isLt N8; omega
  rw [bodyPre_eq, bodyPost_idle m c t h1, PhiS_succ, st3_A m c t h0 h1, PhiS_zero m c _ _ hz, PhiA0_eq]
  unfold bodyAt0
  iintro ⟨⟨⟨HS0, HS1, HS2, ⟨%f, HS3⟩⟩, Hg⟩, Ho, ⟨%d0, H0⟩, ⟨%d1, H1⟩, ⟨%d2, H2⟩, ⟨%d3, H3⟩, ⟨%d4, H4⟩, H5⟩
  iapply ((RA m c t h0 h1 f).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  isplitl [HS0 HS1 HS2 HS3 Hg]
  · isplitr [Hg]; swap; · iexact Hg
    isplitl [HS0]; · iapply (takeA0 m c t h0 h1 f); iexact HS0
    isplitl [HS1]; · iapply (takeA1 m c t h0 h1 f); iexact HS1
    isplitl [HS2]; · iapply (takeA2 m c t h0 h1 f); iexact HS2
    iexists (overWrite scM0_3 (Memref.isWhole_whole _) f (RA m c t h0 h1 f).2.2.2.1)
    isplitl [HS3]; · iapply (owns_overWrite c scM0_3 (Memref.isWhole_whole _) f _); iexact HS3
    ipureintro
    show Agree m c t.val (updA m c t h0 h1 f)
    rw [← upd_A m c t h0 h1]; exact agree_step m c t f (fun h => absurd hz h)
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1600000 in

theorem sound_B (c : Dev nD) (t : Fin cfg0.N) (h0 : ¬t.val % 8 = 0) (h1 : ¬t.val % 8 = 7) :
    bodyPre m c t ⊢ wp frame (wpE (defs₀ (F := F)) Variants.none c none) Set.univ (bodyAt0 t) (fun _ => bodyPost m c t) := by
  have hz : t.val ≠ 0 := fun h => h0 (by rw [h])
  rw [bodyPre_eq, bodyPost_idle m c t h1, PhiS_succ, st3_B m c t h0 h1, PhiS_pos m c _ _ hz]
  unfold bodyAt0
  iintro ⟨⟨⟨HS0, HS1, HS2, ⟨%f, HS3, %hf⟩⟩, Hg⟩, Ho, ⟨%d0, H0⟩, ⟨%d1, H1⟩, ⟨%d2, H2⟩, ⟨%d3, H3⟩, ⟨%d4, H4⟩, H5⟩
  iapply ((RB m c t h0 h1 _ _ _ f).2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  isplitl [HS0 HS1 HS2 HS3 Hg]
  · isplitr [Hg]; swap; · iexact Hg
    isplitl [HS0]; · iexact HS0
    isplitl [HS1]; · iapply (takeB1 m c t h0 h1 _ _ _ f); iexact HS1
    isplitl [HS2]; · iapply (takeB2 m c t h0 h1 _ _ _ f); iexact HS2
    iexists (overWrite scM0_3 (Memref.isWhole_whole _) f (RB m c t h0 h1 (st3 m c (t.val - 1) (Nat.lt_of_le_of_lt (Nat.sub_le _ _) t.isLt)).1 (st3 m c (t.val - 1) (Nat.lt_of_le_of_lt (Nat.sub_le _ _) t.isLt)).2.1 (st3 m c (t.val - 1) (Nat.lt_of_le_of_lt (Nat.sub_le _ _) t.isLt)).2.2 f).2.2.1)
    isplitl [HS3]; · iapply (owns_overWrite c scM0_3 (Memref.isWhole_whole _) f _); iexact HS3
    ipureintro
    show Agree m c t.val (updB m c t h0 h1 _ _ _ f)
    rw [← upd_B m c t h0 h1]; exact agree_step m c t f (fun _ => hf)
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1600000 in

theorem sound_C (c : Dev nD) (t : Fin cfg0.N) (h0 : ¬t.val % 8 = 0) (h1 : t.val % 8 = 7) :
    bodyPre m c t ⊢ wp frame (wpE (defs₀ (F := F)) Variants.none c none) Set.univ (bodyAt0 t) (fun _ => bodyPost m c t) := by
  have hz : t.val ≠ 0 := fun h => h0 (by rw [h])
  rw [bodyPre_eq, bodyPost_last m c t h1, PhiS_succ, st3_C m c t h0 h1, PhiS_pos m c _ _ hz]
  unfold bodyAt0
  iintro ⟨⟨⟨HS0, HS1, HS2, ⟨%f, HS3, %hf⟩⟩, Hg⟩, Ho, ⟨%d0, H0⟩, ⟨%d1, H1⟩, ⟨%d2, H2⟩, ⟨%d3, H3⟩, ⟨%d4, H4⟩, H5⟩
  iapply ((RC m c t h0 h1 _ _ _ f).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  isplitl [HS0 HS1 HS2 HS3 Hg]
  · isplitr [Hg]; swap; · iexact Hg
    isplitl [HS0]; · iexact HS0
    isplitl [HS1]; · iapply (takeC1 m c t h0 h1 _ _ _ f); iexact HS1
    isplitl [HS2]; · iapply (takeC2 m c t h0 h1 _ _ _ f); iexact HS2
    iexists (overWrite scM0_3 (Memref.isWhole_whole _) f (RC m c t h0 h1 (st3 m c (t.val - 1) (Nat.lt_of_le_of_lt (Nat.sub_le _ _) t.isLt)).1 (st3 m c (t.val - 1) (Nat.lt_of_le_of_lt (Nat.sub_le _ _) t.isLt)).2.1 (st3 m c (t.val - 1) (Nat.lt_of_le_of_lt (Nat.sub_le _ _) t.isLt)).2.2 f).2.2.1)
    isplitl [HS3]; · iapply (owns_overWrite c scM0_3 (Memref.isWhole_whole _) f _); iexact HS3
    ipureintro
    show Agree m c t.val (updC m c t h0 h1 _ _ _ f)
    rw [← upd_C m c t h0 h1]; exact agree_step m c t f (fun _ => hf)
  isplitl [Ho]; · iexact Ho
  isplitl [H0]; · iexact H0
  isplitl [H1]; · iexact H1
  isplitl [H2]; · iexact H2
  isplitl [H3]; · iexact H3
  isplitl [H4]; · iexact H4
  iapply (takeCO m c t h0 h1 f hf); iexact H5

theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_A m c t h0 (by omega)
  · by_cases h1 : t.val % 8 = 7
    · exact sound_C m c t h0 h1
    · exact sound_B m c t h0 h1

theorem body_obligation (c : Dev nD) : BodyObligation (dats (F := F) m 0 c) (defs₀ (F := F)) Variants.none () Set.univ := fun t => by
  rw [bigSep_W0, bigSep_W0]
  exact sound_body m c t

end Cert.KernelIdeal.H

end
-- ==== Proof.KI.Frame.lean ====
import proofs.«135015_g2000502485364553_pallasbulk_1302_1_alg».proof.Proof.KI.Body
import Idealize.ShloMosaic.Lib.Pipeline.Value

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega), PhiA0_eq]
  iintro ⟨⟨HS0, HS1, HS2, ⟨%f, HS3, -⟩⟩, Hg⟩
  isplitr [Hg]; swap; · iexact Hg
  isplitl [HS0]; · iexists _; iexact HS0
  isplitl [HS1]; · iexists _; iexact HS1
  isplitl [HS2]; · iexists _; iexact HS2
  iexists _; iexact HS3

set_option backward.isDefEq.respectTransparency.types false in

theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

def outArr (c : Dev nD) : Buf (Elt F) ((c.tc : Thread nD τ).loc main_v5) := (dats m 0 c).arrAt 5 cfg0.N

theorem run_value : θ_run defs (onTc (τ := τ) (main (F := F))) ⟨m, fun _ => 0, ρ⟩ (fun r => ∀ c : Dev nD,
      r.2.mem ((c.tc : Thread nD τ).loc main_v5) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 5,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

theorem index0_5 : ∀ t : Fin cfg0.N, win0_5.index t (0 : Fin 2) = 0 ∧ win0_5.index t (1 : Fin 2) = 0 :=
  (by decide +kernel : ∀ t : Fin grid0.N, _)

theorem cut0_5_eq (t : Fin cfg0.N) (G : Vec F S2048x128 .f32) :
    (cfg0.win 5).cut (grid0.coords t) G = ((cfg0.win 5).blk t).view.read (Elt F) G := by
  obtain ⟨e0, e1⟩ := index0_5 t
  funext j
  show G j = G (((cfg0.win 5).blk t).view.emb j)
  congr 1
  funext a; apply Fin.ext
  match a with
  | ⟨0, _⟩ => show (j 0).val = win0_5.index t (0 : Fin 2) * 2048 + 1 * (j 0).val; omega
  | ⟨1, _⟩ => show (j 1).val = win0_5.index t (1 : Fin 2) * 128 + 1 * (j 1).val; omega

theorem flushed0_5_eq (c : Dev nD) (t : Fin cfg0.N) :
    (dats m 0 c).flushed 5 t = ((cfg0.win 5).blk t).view.read (Elt F) (outV m c) := by
  show (cfg0.win 5).cut (grid0.coords t) ((dats m 0 c).after 5 t) = _
  rw [after0_5]
  exact cut0_5_eq t (outV m c)

theorem mem_blk0_5 (t : Fin cfg0.N) (i : S2048x128.Idx) :
    i ∈ ((cfg0.win 5).blk t).view.set ↔ ∀ a : Fin 2, win0_5.index t a * S2048x128.size a ≤ (i a).val ∧ (i a).val < win0_5.index t a * S2048x128.size a + S2048x128.size a := by
  show i ∈ ((View.whole main_v5).slice (win0_5.rect t)).set ↔ _
  rw [View.set_slice_whole, Rect.mem_set_unit]
  exact Iff.rfl

theorem outArr_eq (c : Dev nD) : outArr m c = outV m c := by
  have h7 : 7 < cfg0.N := by rw [show cfg0.N = 8 from N_0]; decide
  refine (dats m 0 c).arrAt_eq_of_cover 5 (outV m c) (fun t _ => flushed0_5_eq m c t) fun i => ⟨⟨7, h7⟩, (flush0_5 ⟨7, h7⟩).mpr rfl, ?_⟩
  rw [mem_blk0_5]
  obtain ⟨e0, e1⟩ := index0_5 ⟨7, h7⟩
  intro a
  match a with
  | ⟨0, _⟩ => show win0_5.index ⟨7, h7⟩ (0 : Fin 2) * 2048 ≤ (i 0).val ∧ (i 0).val < win0_5.index ⟨7, h7⟩ (0 : Fin 2) * 2048 + 2048; have hi : (i 0).val < 2048 := (i 0).isLt; omega
  | ⟨1, _⟩ => show win0_5.index ⟨7, h7⟩ (1 : Fin 2) * 128 ≤ (i 1).val ∧ (i 1).val < win0_5.index ⟨7, h7⟩ (1 : Fin 2) * 128 + 128; have hi : (i 1).val < 128 := (i 1).isLt; omega

end Cert.KernelIdeal.H

end
-- ==== Proof.RI.Body1.lean ====
import proofs.«135015_g2000502485364553_pallasbulk_1302_1_alg».proof.Proof.Gen.ReferenceIdeal.Launch
import proofs.«135015_g2000502485364553_pallasbulk_1302_1_alg».proof.Proof.Gen.ReferenceIdeal.Skeleton
import proofs.«135015_g2000502485364553_pallasbulk_1302_1_alg».proof.Proof.Gen.ReferenceIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.ReferenceIdeal.H

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rP0 : Rect S16x256x128 := Rect.unit (s := S16x256x128) ![0, 0, 0] S1x256x128.size inb_S16x256x128_S1x256x128_0_0_0
abbrev rP1 : Rect S16x256x128 := Rect.unit (s := S16x256x128) ![1, 0, 0] S1x256x128.size inb_S16x256x128_S1x256x128_1_0_0
abbrev rP2 : Rect S16x256x128 := Rect.unit (s := S16x256x128) ![2, 0, 0] S1x256x128.size inb_S16x256x128_S1x256x128_2_0_0
abbrev rP3 : Rect S16x256x128 := Rect.unit (s := S16x256x128) ![3, 0, 0] S1x256x128.size inb_S16x256x128_S1x256x128_3_0_0
abbrev rP4 : Rect S16x256x128 := Rect.unit (s := S16x256x128) ![4, 0, 0] S1x256x128.size inb_S16x256x128_S1x256x128_4_0_0
abbrev rP5 : Rect S16x256x128 := Rect.unit (s := S16x256x128) ![5, 0, 0] S1x256x128.size inb_S16x256x128_S1x256x128_5_0_0
abbrev rP6 : Rect S16x256x128 := Rect.unit (s := S16x256x128) ![6, 0, 0] S1x256x128.size inb_S16x256x128_S1x256x128_6_0_0
abbrev rP7 : Rect S16x256x128 := Rect.unit (s := S16x256x128) ![7, 0, 0] S1x256x128.size inb_S16x256x128_S1x256x128_7_0_0
abbrev rP8 : Rect S16x256x128 := Rect.unit (s := S16x256x128) ![8, 0, 0] S1x256x128.size inb_S16x256x128_S1x256x128_8_0_0
abbrev rP9 : Rect S16x256x128 := Rect.unit (s := S16x256x128) ![9, 0, 0] S1x256x128.size inb_S16x256x128_S1x256x128_9_0_0
abbrev rP10 : Rect S16x256x128 := Rect.unit (s := S16x256x128) ![10, 0, 0] S1x256x128.size inb_S16x256x128_S1x256x128_10_0_0
abbrev rP11 : Rect S16x256x128 := Rect.unit (s := S16x256x128) ![11, 0, 0] S1x256x128.size inb_S16x256x128_S1x256x128_11_0_0
abbrev rP12 : Rect S16x256x128 := Rect.unit (s := S16x256x128) ![12, 0, 0] S1x256x128.size inb_S16x256x128_S1x256x128_12_0_0
abbrev rP13 : Rect S16x256x128 := Rect.unit (s := S16x256x128) ![13, 0, 0] S1x256x128.size inb_S16x256x128_S1x256x128_13_0_0
abbrev rP14 : Rect S16x256x128 := Rect.unit (s := S16x256x128) ![14, 0, 0] S1x256x128.size inb_S16x256x128_S1x256x128_14_0_0
abbrev rP15 : Rect S16x256x128 := Rect.unit (s := S16x256x128) ![15, 0, 0] S1x256x128.size inb_S16x256x128_S1x256x128_15_0_0
abbrev rS0 : Rect S16x1 := Rect.unit (s := S16x1) ![0, 0] S1x1.size inb_S16x1_S1x1_0_0
abbrev rS1 : Rect S16x1 := Rect.unit (s := S16x1) ![1, 0] S1x1.size inb_S16x1_S1x1_1_0
abbrev rS2 : Rect S16x1 := Rect.unit (s := S16x1) ![2, 0] S1x1.size inb_S16x1_S1x1_2_0
abbrev rS3 : Rect S16x1 := Rect.unit (s := S16x1) ![3, 0] S1x1.size inb_S16x1_S1x1_3_0
abbrev rS4 : Rect S16x1 := Rect.unit (s := S16x1) ![4, 0] S1x1.size inb_S16x1_S1x1_4_0
abbrev rS5 : Rect S16x1 := Rect.unit (s := S16x1) ![5, 0] S1x1.size inb_S16x1_S1x1_5_0
abbrev rS6 : Rect S16x1 := Rect.unit (s := S16x1) ![6, 0] S1x1.size inb_S16x1_S1x1_6_0
abbrev rS7 : Rect S16x1 := Rect.unit (s := S16x1) ![7, 0] S1x1.size inb_S16x1_S1x1_7_0
abbrev rS8 : Rect S16x1 := Rect.unit (s := S16x1) ![8, 0] S1x1.size inb_S16x1_S1x1_8_0
abbrev rS9 : Rect S16x1 := Rect.unit (s := S16x1) ![9, 0] S1x1.size inb_S16x1_S1x1_9_0
abbrev rS10 : Rect S16x1 := Rect.unit (s := S16x1) ![10, 0] S1x1.size inb_S16x1_S1x1_10_0
abbrev rS11 : Rect S16x1 := Rect.unit (s := S16x1) ![11, 0] S1x1.size inb_S16x1_S1x1_11_0
abbrev rS12 : Rect S16x1 := Rect.unit (s := S16x1) ![12, 0] S1x1.size inb_S16x1_S1x1_12_0
abbrev rS13 : Rect S16x1 := Rect.unit (s := S16x1) ![13, 0] S1x1.size inb_S16x1_S1x1_13_0
abbrev rS14 : Rect S16x1 := Rect.unit (s := S16x1) ![14, 0] S1x1.size inb_S16x1_S1x1_14_0
abbrev rS15 : Rect S16x1 := Rect.unit (s := S16x1) ![15, 0] S1x1.size inb_S16x1_S1x1_15_0
abbrev rC : Rect S1x128 := Rect.unit (s := S1x128) ![0, 0] S1x128.size inb_S1x128_S1x128_0_0
abbrev rO : Rect S256x128 := Rect.unit (s := S256x128) ![0, 0] S256x128.size inb_S256x128_S256x128_0_0

def acc1_a (x0 : Vec F S16x256x128 .f32) (x1 : Vec F S16x1 .f32) : FVec F S256x128 .f32 :=
  k1_pay2 (View.ld x0 rP0) (View.ld x1 rS0) (View.ld x0 rP1) (View.ld x1 rS1) (View.ld x0 rP2) (View.ld x1 rS2) (View.ld x0 rP3) (View.ld x1 rS3)

def acc1_b (x0 : Vec F S16x256x128 .f32) (x1 : Vec F S16x1 .f32) : FVec F S256x128 .f32 :=
  k1_pay5 (acc1_a x0 x1) (k1_pay3 (View.ld x0 rP4)) (k1_pay4 (View.ld x1 rS4)) (View.ld x0 rP5) (View.ld x1 rS5) (View.ld x0 rP6) (View.ld x1 rS6) (View.ld x0 rP7) (View.ld x1 rS7) (View.ld x0 rP8) (View.ld x1 rS8)

def acc1_c (x0 : Vec F S16x256x128 .f32) (x1 : Vec F S16x1 .f32) : FVec F S256x128 .f32 :=
  k1_pay8 (acc1_b x0 x1) (k1_pay6 (View.ld x0 rP9)) (k1_pay7 (View.ld x1 rS9)) (View.ld x0 rP10) (View.ld x1 rS10) (View.ld x0 rP11) (View.ld x1 rS11) (View.ld x0 rP12) (View.ld x1 rS12) (View.ld x0 rP13) (View.ld x1 rS13)

def pay1_3 (x0 : Vec F S16x256x128 .f32) (x1 : Vec F S16x1 .f32) (x2 : Vec F S1x128 .f32) : FVec F S256x128 .f32 :=
  k1_pay1 (acc1_c x0 x1) (k1_pay9 (View.ld x0 rP14)) (k1_pay10 (View.ld x1 rS14)) (View.ld x0 rP15) (View.ld x1 rS15) (View.ld x2 rC)

def out1_3 (x0 : Vec F S16x256x128 .f32) (x1 : Vec F S16x1 .f32) (x2 : Vec F S1x128 .f32) : Vec F S256x128 .f32 :=
  View.canon [⟨rO, pay1_3 x0 x1 x2⟩]

theorem out1_3_eq (x0 : Vec F S16x256x128 .f32) (x1 : Vec F S16x1 .f32) (x2 : Vec F S1x128 .f32) :
    out1_3 x0 x1 x2 = pay1_3 x0 x1 x2 := by
  unfold out1_3
  exact View.canon_unit_zero (by funext a; fin_cases a <;> rfl) _ _

theorem cover1_3 (p0 : Vec F S256x128 .f32) (y : S256x128.Idx) :
    ∃ pc ∈ ([⟨rO, p0⟩] : List (View.Piece (Elt F) S256x128 .f32)), y ∈ pc.1.set :=
  View.cover_of_tiled [⟨rO, p0⟩] S256x128.size (by rfl) y

set_option maxHeartbeats 2000000 in

theorem sound_kernel1 (c : Dev nD) (E : Set ℕ) (i : grid1.Coords)
    (arg1 : Memref sig .tc .vmem S16x256x128 .f32) (harg1 : arg1.IsWhole)
    (arg2 : Memref sig .tc .vmem S16x1 .f32) (harg2 : arg2.IsWhole)
    (arg3 : Memref sig .tc .vmem S1x128 .f32) (harg3 : arg3.IsWhole)
    (arg4 : Memref sig .tc .vmem S256x128 .f32) (harg4 : arg4.IsWhole)
    (x0 : Vec F S16x256x128 .f32) (x1 : Vec F S16x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__combine_kernel i arg1 harg1 arg2 harg2 arg3 harg3 arg4 harg4) K := by
  simp only [cc1__combine_kernel_eq_skeleton]; unfold cc1__combine_kernel_skel
  simp only [k1_part1_eq_skeleton]; unfold k1_part1_skel
  simp only [k1_part2_eq_skeleton]; unfold k1_part2_skel
  simp only [k1_part3_eq_skeleton]; unfold k1_part3_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Region1
end Cert.ReferenceIdeal.H
end
-- ==== Proof.RI.Common0.lean ====
import proofs.«135015_g2000502485364553_pallasbulk_1302_1_alg».proof.Proof.Gen.ReferenceIdeal.Regions
import proofs.«135015_g2000502485364553_pallasbulk_1302_1_alg».proof.Proof.Gen.ReferenceIdeal.Points
import proofs.«135015_g2000502485364553_pallasbulk_1302_1_alg».proof.Proof.Gen.ReferenceIdeal.Skeleton
import Idealize.ShloMosaic.Lib.Pipeline.FrameBody
import Idealize.ShloMosaic.Lib.Ring
import Idealize.ShloMosaic.Lib.Tactic

set_option maxRecDepth 16384

noncomputable section

namespace Cert.ReferenceIdeal.H

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

theorem idleAt0_5 : ∀ t : Fin cfg0.N, cfg0.idle 5 (grid0.coords t) = true ↔ ¬ t.val % 8 = 7 := by decide +kernel
theorem liveAt0_5 : ∀ t : Fin cfg0.N, cfg0.idle 5 (grid0.coords t) = false ↔ t.val % 8 = 7 := by decide +kernel
theorem idleAt0_6 : ∀ t : Fin cfg0.N, cfg0.idle 6 (grid0.coords t) = true ↔ ¬ t.val % 8 = 7 := by decide +kernel
theorem liveAt0_6 : ∀ t : Fin cfg0.N, cfg0.idle 6 (grid0.coords t) = false ↔ t.val % 8 = 7 := by decide +kernel

abbrev ms0_0 (t : Fin cfg0.N) : Memref sig .tc .vmem S256x16x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x16x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x1 .f32 := win0_6.stage (cfg0.slots t 6)
abbrev hs0_6 (t : Fin cfg0.N) : (ms0_6 t).IsWhole := hstage0_6 ((cfg0.slots t 6).cast nbuf0_6)

abbrev scM0_0 : Memref sig .tc .vmem S16x256 .f32 := Memref.whole cc0_scratch0
abbrev scM0_1 : Memref sig .tc .vmem S16x256 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)) ∗ (∃ r, prngReg c r)) := by
  unfold Pipeline.ΦA; rw [scopedRest0_eq]; simp only [scM0_0, scM0_1, owns_whole]; try rfl

end Cert.ReferenceIdeal.H

end
-- ==== Proof.RI.Run0A.lean ====
import proofs.«135015_g2000502485364553_pallasbulk_1302_1_alg».proof.Proof.RI.Common0

set_option maxRecDepth 16384

noncomputable section

namespace Cert.ReferenceIdeal.H

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg1 : Memref sig .tc .vmem S256x16x256 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S128x16x256 .f32) (harg4 : arg4.IsWhole) (arg5 : Memref sig .tc .vmem S16x256x128 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x256 .f32) (harg8 : arg8.IsWhole) (arg9 : Memref sig .tc .vmem S16x256 .f32) (harg9 : arg9.IsWhole) (hc0 : cond0_0 i) (hc1 : ¬cond0_1 i)
    (x0 : Vec F S256x16x256 .f32) (x1 : Vec F S16x1 .f32) (x2 : Vec F S16x1 .f32) (x3 : Vec F S128x16x256 .f32) :
    Σ' (LP : List (View.Piece (Elt F) S16x256x128 .f32)), Σ' (LS1 : List (View.Piece (Elt F) S16x256 .f32)), { LS2 : List (View.Piece (Elt F) S16x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LP) ∗ (∃ d, owns (c : Thread nD τ) arg6 fullShare d) ∗ (∃ d, owns (c : Thread nD τ) arg7 fullShare d) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__bn_fc_partial_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__bn_fc_partial_kernel_eq_skeleton]; unfold cc0__bn_fc_partial_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%dp, %fp, -, HP⟩, ⟨%d5, %f5, -, H5⟩, ⟨%d6, %f6, -, H6⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HP]; · iexists _; iexact HP
    isplitl [H5]
    · iexists _, _; isplitr; swap; · iexact H5
      ipureintro; rfl
    isplitl [H6]
    · iexists _, _; isplitr; swap; · iexact H6
      ipureintro; rfl
    isplitl [HS1]; · iexists _; iexact HS1
    iexists _; iexact HS2

end Cert.ReferenceIdeal.H

end
-- ==== Proof.RI.Run0B.lean ====
import proofs.«135015_g2000502485364553_pallasbulk_1302_1_alg».proof.Proof.RI.Run0A

set_option maxRecDepth 16384

noncomputable section

namespace Cert.ReferenceIdeal.H

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg1 : Memref sig .tc .vmem S256x16x256 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S128x16x256 .f32) (harg4 : arg4.IsWhole) (arg5 : Memref sig .tc .vmem S16x256x128 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x256 .f32) (harg8 : arg8.IsWhole) (arg9 : Memref sig .tc .vmem S16x256 .f32) (harg9 : arg9.IsWhole) (hc0 : ¬cond0_0 i) (hc1 : ¬cond0_1 i)
    (x0 : Vec F S256x16x256 .f32) (x1 : Vec F S16x1 .f32) (x2 : Vec F S16x1 .f32) (x3 : Vec F S128x16x256 .f32) (xs1 : Vec F S16x256 .f32) (xs2 : Vec F S16x256 .f32) :
    Σ' (LP : List (View.Piece (Elt F) S16x256x128 .f32)), Σ' (LS1 : List (View.Piece (Elt F) S16x256 .f32)), { LS2 : List (View.Piece (Elt F) S16x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LP) ∗ (∃ d, owns (c : Thread nD τ) arg6 fullShare d) ∗ (∃ d, owns (c : Thread nD τ) arg7 fullShare d) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__bn_fc_partial_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__bn_fc_partial_kernel_eq_skeleton]; unfold cc0__bn_fc_partial_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%dp, %fp, -, HP⟩, ⟨%d5, %f5, -, H5⟩, ⟨%d6, %f6, -, H6⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg8.eq_unread hfs1; obtain rfl := harg9.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HP]; · iexists _; iexact HP
    isplitl [H5]
    · iexists _, _; isplitr; swap; · iexact H5
      ipureintro; rfl
    isplitl [H6]
    · iexists _, _; isplitr; swap; · iexact H6
      ipureintro; rfl
    isplitl [HS1]; · iexists _; iexact HS1
    iexists _; iexact HS2

end Cert.ReferenceIdeal.H

end
-- ==== Proof.RI.Run0C.lean ====
import proofs.«135015_g2000502485364553_pallasbulk_1302_1_alg».proof.Proof.RI.Run0B

set_option maxRecDepth 16384

noncomputable section

namespace Cert.ReferenceIdeal.H

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg1 : Memref sig .tc .vmem S256x16x256 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S128x16x256 .f32) (harg4 : arg4.IsWhole) (arg5 : Memref sig .tc .vmem S16x256x128 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x256 .f32) (harg8 : arg8.IsWhole) (arg9 : Memref sig .tc .vmem S16x256 .f32) (harg9 : arg9.IsWhole) (hc0 : ¬cond0_0 i) (hc1 : cond0_1 i)
    (x0 : Vec F S256x16x256 .f32) (x1 : Vec F S16x1 .f32) (x2 : Vec F S16x1 .f32) (x3 : Vec F S128x16x256 .f32) (xs1 : Vec F S16x256 .f32) (xs2 : Vec F S16x256 .f32) :
    Σ' (LP : List (View.Piece (Elt F) S16x256x128 .f32)), Σ' (LSo : List (View.Piece (Elt F) S16x1 .f32)), Σ' (LTo : List (View.Piece (Elt F) S16x1 .f32)), Σ' (LS1 : List (View.Piece (Elt F) S16x256 .f32)), { LS2 : List (View.Piece (Elt F) S16x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LP) ∗ (∃ f, arg6.view.loc (c : Thread nD τ) ↦[arg6.view.set]{fullShare} arg6.view.writes (Elt F) f LSo) ∗ (∃ f, arg7.view.loc (c : Thread nD τ) ↦[arg7.view.set]{fullShare} arg7.view.writes (Elt F) f LTo) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__bn_fc_partial_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0__bn_fc_partial_kernel_eq_skeleton]; unfold cc0__bn_fc_partial_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%dp, %fp, -, HP⟩, ⟨%d5, %f5, -, H5⟩, ⟨%d6, %f6, -, H6⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg8.eq_unread hfs1; obtain rfl := harg9.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HP]; · iexists _; iexact HP
    isplitl [H5]; · iexists _; iexact H5
    isplitl [H6]; · iexists _; iexact H6
    isplitl [HS1]; · iexists _; iexact HS1
    iexists _; iexact HS2

end Cert.ReferenceIdeal.H

end
-- ==== Proof.RI.State0.lean ====
import proofs.«135015_g2000502485364553_pallasbulk_1302_1_alg».proof.Proof.RI.Run0C

set_option maxRecDepth 16384

noncomputable section

namespace Cert.ReferenceIdeal.H

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev VP0 : View sig .tc .vmem S16x256x128 .f32 := (Memref.whole cc0_stg4_0 : Memref sig .tc .vmem S16x256x128 .f32).view
abbrev VSo0 : View sig .tc .vmem S16x1 .f32 := (Memref.whole cc0_stg5_0 : Memref sig .tc .vmem S16x1 .f32).view
abbrev VTo0 : View sig .tc .vmem S16x1 .f32 := (Memref.whole cc0_stg6_0 : Memref sig .tc .vmem S16x1 .f32).view
abbrev VS0_0 : View sig .tc .vmem S16x256 .f32 := scM0_0.view
abbrev VS0_1 : View sig .tc .vmem S16x256 .f32 := scM0_1.view

variable (c : Dev nD) (i : grid0.Coords) (arg1 : Memref sig .tc .vmem S256x16x256 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S128x16x256 .f32) (harg4 : arg4.IsWhole) (arg5 : Memref sig .tc .vmem S16x256x128 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x256 .f32) (harg8 : arg8.IsWhole) (arg9 : Memref sig .tc .vmem S16x256 .f32) (harg9 : arg9.IsWhole)

section
variable (hc0 : cond0_0 i) (hc1 : ¬cond0_1 i) (x0 : Vec F S256x16x256 .f32) (x1 : Vec F S16x1 .f32) (x2 : Vec F S16x1 .f32) (x3 : Vec F S128x16x256 .f32)
include c i arg1 harg1 arg2 harg2 arg3 harg3 arg4 harg4 arg5 harg5 arg6 harg6 arg7 harg7 arg8 harg8 arg9 harg9 hc0 hc1 x0 x1 x2 x3

theorem cover0_A_P (y : S16x256x128.Idx) :
    ∃ pc ∈ (kernelRun0_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3).1 S1x256x128.size (by sl_kernel_rfl) y

def pout0_A : Vec F S16x256x128 .f32 :=
  VP0.read (Elt F) (VP0.writes (Elt F) VP0.junk (kernelRun0_A c i arg1 harg1 arg2 harg2 arg3 harg3 arg4 harg4 arg5 harg5 arg6 harg6 arg7 harg7 arg8 harg8 arg9 harg9 hc0 hc1 x0 x1 x2 x3).1)

theorem scover0_A_1 (y : S16x256.Idx) :
    ∃ pc ∈ (kernelRun0_A c i arg1 harg1 arg2 harg2 arg3 harg3 arg4 harg4 arg5 harg5 arg6 harg6 arg7 harg7 arg8 harg8 arg9 harg9 hc0 hc1 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3).2.1 S16x256.size (by sl_kernel_rfl) y

def s1out0_A : Vec F S16x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2 x3).2.1)

theorem scover0_A_2 (y : S16x256.Idx) :
    ∃ pc ∈ (kernelRun0_A c i arg1 harg1 arg2 harg2 arg3 harg3 arg4 harg4 arg5 harg5 arg6 harg6 arg7 harg7 arg8 harg8 arg9 harg9 hc0 hc1 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3).2.2.1 S16x256.size (by sl_kernel_rfl) y

def s2out0_A : Vec F S16x256 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 x0 x1 x2 x3).2.2.1)

/-- What the first tile leaves: products block, scale, shift, running sum, running sum of squares (scale and shift not yet written). -/
def outs0_A : Vec F S16x256x128 .f32 × Vec F S16x1 .f32 × Vec F S16x1 .f32 × Vec F S16x256 .f32 × Vec F S16x256 .f32 :=
  (pout0_A c i arg1 harg1 arg2 harg2 arg3 harg3 arg4 harg4 arg5 harg5 arg6 harg6 arg7 harg7 arg8 harg8 arg9 harg9 hc0 hc1 x0 x1 x2 x3, VSo0.read (Elt F) VSo0.junk, VTo0.read (Elt F) VTo0.junk, s1out0_A c i arg1 harg1 arg2 harg2 arg3 harg3 arg4 harg4 arg5 harg5 arg6 harg6 arg7 harg7 arg8 harg8 arg9 harg9 hc0 hc1 x0 x1 x2 x3, s2out0_A c i arg1 harg1 arg2 harg2 arg3 harg3 arg4 harg4 arg5 harg5 arg6 harg6 arg7 harg7 arg8 harg8 arg9 harg9 hc0 hc1 x0 x1 x2 x3)

end

section
variable (hc0 : ¬cond0_0 i) (hc1 : ¬cond0_1 i) (x0 : Vec F S256x16x256 .f32) (x1 : Vec F S16x1 .f32) (x2 : Vec F S16x1 .f32) (x3 : Vec F S128x16x256 .f32) (xs1 : Vec F S16x256 .f32) (xs2 : Vec F S16x256 .f32)
include c i arg1 harg1 arg2 harg2 arg3 harg3 arg4 harg4 arg5 harg5 arg6 harg6 arg7 harg7 arg8 harg8 arg9 harg9 hc0 hc1 x0 x1 x2 x3 xs1 xs2

theorem cover0_B_P (y : S16x256x128.Idx) :
    ∃ pc ∈ (kernelRun0_B c i arg1 harg1 arg2 harg2 arg3 harg3 arg4 harg4 arg5 harg5 arg6 harg6 arg7 harg7 arg8 harg8 arg9 harg9 hc0 hc1 x0 x1 x2 x3 xs1 xs2).1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 xs1 xs2).1 S1x256x128.size (by sl_kernel_rfl) y

def pout0_B : Vec F S16x256x128 .f32 :=
  VP0.read (Elt F) (VP0.writes (Elt F) VP0.junk (kernelRun0_B c i arg1 harg1 arg2 harg2 arg3 harg3 arg4 harg4 arg5 harg5 arg6 harg6 arg7 harg7 arg8 harg8 arg9 harg9 hc0 hc1 x0 x1 x2 x3 xs1 xs2).1)

theorem scover0_B_1 (y : S16x256.Idx) :
    ∃ pc ∈ (kernelRun0_B c i arg1 harg1 arg2 harg2 arg3 harg3 arg4 harg4 arg5 harg5 arg6 harg6 arg7 harg7 arg8 harg8 arg9 harg9 hc0 hc1 x0 x1 x2 x3 xs1 xs2).2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 xs1 xs2).2.1 S16x256.size (by sl_kernel_rfl) y

def s1out0_B : Vec F S16x256 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 hc1 x0 x1 x2 x3 xs1 xs2).2.1)

theorem scover0_B_2 (y : S16x256.Idx) :
    ∃ pc ∈ (kernelRun0_B c i arg1 harg1 arg2 harg2 arg3 harg3 arg4 harg4 arg5 harg5 arg6 harg6 arg7 harg7 arg8 harg8 arg9 harg9 hc0 hc1 x0 x1 x2 x3 xs1 xs2).2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 xs1 xs2).2.2.1 S16x256.size (by sl_kernel_rfl) y

def s2out0_B : Vec F S16x256 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 hc0 hc1 x0 x1 x2 x3 xs1 xs2).2.2.1)

/-- What a middle tile leaves. -/
def outs0_B : Vec F S16x256x128 .f32 × Vec F S16x1 .f32 × Vec F S16x1 .f32 × Vec F S16x256 .f32 × Vec F S16x256 .f32 :=
  (pout0_B c i arg1 harg1 arg2 harg2 arg3 harg3 arg4 harg4 arg5 harg5 arg6 harg6 arg7 harg7 arg8 harg8 arg9 harg9 hc0 hc1 x0 x1 x2 x3 xs1 xs2, VSo0.read (Elt F) VSo0.junk, VTo0.read (Elt F) VTo0.junk, s1out0_B c i arg1 harg1 arg2 harg2 arg3 harg3 arg4 harg4 arg5 harg5 arg6 harg6 arg7 harg7 arg8 harg8 arg9 harg9 hc0 hc1 x0 x1 x2 x3 xs1 xs2, s2out0_B c i arg1 harg1 arg2 harg2 arg3 harg3 arg4 harg4 arg5 harg5 arg6 harg6 arg7 harg7 arg8 harg8 arg9 harg9 hc0 hc1 x0 x1 x2 x3 xs1 xs2)

end

section
variable (hc0 : ¬cond0_0 i) (hc1 : cond0_1 i) (x0 : Vec F S256x16x256 .f32) (x1 : Vec F S16x1 .f32) (x2 : Vec F S16x1 .f32) (x3 : Vec F S128x16x256 .f32) (xs1 : Vec F S16x256 .f32) (xs2 : Vec F S16x256 .f32)
include c i arg1 harg1 arg2 harg2 arg3 harg3 arg4 harg4 arg5 harg5 arg6 harg6 arg7 harg7 arg8 harg8 arg9 harg9 hc0 hc1 x0 x1 x2 x3 xs1 xs2

theorem cover0_C_P (y : S16x256x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs1 xs2).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs1 xs2).1 S1x256x128.size (by sl_kernel_rfl) y

def pout0_C : Vec F S16x256x128 .f32 :=
  VP0.read (Elt F) (VP0.writes (Elt F) VP0.junk (kernelRun0_C c i arg1 harg1 arg2 harg2 arg3 harg3 arg4 harg4 arg5 harg5 arg6 harg6 arg7 harg7 arg8 harg8 arg9 harg9 hc0 hc1 x0 x1 x2 x3 xs1 xs2).1)

theorem cover0_C_s (y : S16x1.Idx) :
    ∃ pc ∈ (kernelRun0_C c i arg1 harg1 arg2 harg2 arg3 harg3 arg4 harg4 arg5 harg5 arg6 harg6 arg7 harg7 arg8 harg8 arg9 harg9 hc0 hc1 x0 x1 x2 x3 xs1 xs2).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs1 xs2).2.1 S16x1.size (by sl_kernel_rfl) y

def sout0_C : Vec F S16x1 .f32 :=
  VSo0.read (Elt F) (VSo0.writes (Elt F) VSo0.junk (kernelRun0_C c i arg1 harg1 arg2 harg2 arg3 harg3 arg4 harg4 arg5 harg5 arg6 harg6 arg7 harg7 arg8 harg8 arg9 harg9 hc0 hc1 x0 x1 x2 x3 xs1 xs2).2.1)

theorem cover0_C_t (y : S16x1.Idx) :
    ∃ pc ∈ (kernelRun0_C c i arg1 harg1 arg2 harg2 arg3 harg3 arg4 harg4 arg5 harg5 arg6 harg6 arg7 harg7 arg8 harg8 arg9 harg9 hc0 hc1 x0 x1 x2 x3 xs1 xs2).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs1 xs2).2.2.1 S16x1.size (by sl_kernel_rfl) y

def tout0_C : Vec F S16x1 .f32 :=
  VTo0.read (Elt F) (VTo0.writes (Elt F) VTo0.junk (kernelRun0_C c i arg1 harg1 arg2 harg2 arg3 harg3 arg4 harg4 arg5 harg5 arg6 harg6 arg7 harg7 arg8 harg8 arg9 harg9 hc0 hc1 x0 x1 x2 x3 xs1 xs2).2.2.1)

theorem scover0_C_1 (y : S16x256.Idx) :
    ∃ pc ∈ (kernelRun0_C c i arg1 harg1 arg2 harg2 arg3 harg3 arg4 harg4 arg5 harg5 arg6 harg6 arg7 harg7 arg8 harg8 arg9 harg9 hc0 hc1 x0 x1 x2 x3 xs1 xs2).2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs1 xs2).2.2.2.1 S16x256.size (by sl_kernel_rfl) y

def s1out0_C : Vec F S16x256 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x0 x1 x2 x3 xs1 xs2).2.2.2.1)

theorem scover0_C_2 (y : S16x256.Idx) :
    ∃ pc ∈ (kernelRun0_C c i arg1 harg1 arg2 harg2 arg3 harg3 arg4 harg4 arg5 harg5 arg6 harg6 arg7 harg7 arg8 harg8 arg9 harg9 hc0 hc1 x0 x1 x2 x3 xs1 xs2).2.2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs1 xs2).2.2.2.2.1 S16x256.size (by sl_kernel_rfl) y

def s2out0_C : Vec F S16x256 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 hc0 hc1 x0 x1 x2 x3 xs1 xs2).2.2.2.2.1)

/-- What the last tile leaves. -/
def outs0_C : Vec F S16x256x128 .f32 × Vec F S16x1 .f32 × Vec F S16x1 .f32 × Vec F S16x256 .f32 × Vec F S16x256 .f32 :=
  (pout0_C c i arg1 harg1 arg2 harg2 arg3 harg3 arg4 harg4 arg5 harg5 arg6 harg6 arg7 harg7 arg8 harg8 arg9 harg9 hc0 hc1 x0 x1 x2 x3 xs1 xs2, sout0_C c i arg1 harg1 arg2 harg2 arg3 harg3 arg4 harg4 arg5 harg5 arg6 harg6 arg7 harg7 arg8 harg8 arg9 harg9 hc0 hc1 x0 x1 x2 x3 xs1 xs2, tout0_C c i arg1 harg1 arg2 harg2 arg3 harg3 arg4 harg4 arg5 harg5 arg6 harg6 arg7 harg7 arg8 harg8 arg9 harg9 hc0 hc1 x0 x1 x2 x3 xs1 xs2, s1out0_C c i arg1 harg1 arg2 harg2 arg3 harg3 arg4 harg4 arg5 harg5 arg6 harg6 arg7 harg7 arg8 harg8 arg9 harg9 hc0 hc1 x0 x1 x2 x3 xs1 xs2, s2out0_C c i arg1 harg1 arg2 harg2 arg3 harg3 arg4 harg4 arg5 harg5 arg6 harg6 arg7 harg7 arg8 harg8 arg9 harg9 hc0 hc1 x0 x1 x2 x3 xs1 xs2)

end

section Track

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def outsAt0 (c : Dev nD) : (n : ℕ) → n < cfg0.N → Vec F S16x256x128 .f32 × Vec F S16x1 .f32 × Vec F S16x1 .f32 × Vec F S16x256 .f32 × Vec F S16x256 .f32
  | 0, hn => outs0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩)
  | n + 1, hn =>
    if h0 : (n + 1) % 8 = 0 then
      False.elim (by have hN : n + 1 < 8 := lt_of_lt_of_eq hn (show cfg0.N = 8 from N_0); omega)
    else
      if h1 : (n + 1) % 8 = 7 then
        outs0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2
      else
        outs0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2

theorem outsAt0_A (c : Dev nD) (t : Fin cfg0.N) (h0 : t.val % 8 = 0) (h1 : ¬t.val % 8 = 7) :
    outsAt0 V c t.val t.isLt = outs0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) := by
  obtain ⟨n, hn⟩ := t
  cases n with
  | zero => exact rfl
  | succ n => exact (by exfalso; (try dsimp only at h0); have hN : n + 1 < 8 := lt_of_lt_of_eq hn (show cfg0.N = 8 from N_0); omega)

theorem outsAt0_B (c : Dev nD) (t : Fin cfg0.N) (h0 : ¬t.val % 8 = 0) (h1 : ¬t.val % 8 = 7) :
    outsAt0 V c t.val t.isLt = outs0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = outs0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

theorem PhiA0_eq' (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) :=
  PhiA0_eq c

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.2.1) ∗ owns (c : Thread nD τ) scM0_1 fullShare ((outsAt0 V c n hn).2.2.2.2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ rest0 c) ∗ (∃ r, prngReg c r)) := by
  cases n with
  | zero => exact absurd rfl hz
  | succ n => rfl

end Track

end Cert.ReferenceIdeal.H

end
-- ==== Proof.RI.Body0.lean ====
import Idealize.ShloMosaic.Lib.Pipeline.TableIdle
import proofs.«135015_g2000502485364553_pallasbulk_1302_1_alg».proof.Proof.RI.State0

set_option maxRecDepth 16384

noncomputable section

namespace Cert.ReferenceIdeal.H

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

theorem before0_5 (c : Dev nD) (t : Fin cfg0.N) (d) : (dat0 V c).before 5 t d = d := by
  have hN : t.val < 8 := lt_of_lt_of_eq t.isLt (show cfg0.N = 8 from N_0)
  rw [(dat0 V c).before_idle_run 5 (fun t => (cfg0.win 5).fetch_out rfl t) d t.val t le_rfl
    (fun j _ hj => ⟨(idleAt0_5 j).mpr (by omega), Bool.eq_false_iff.mpr fun h => by have := (flush0_5 j).mp h; omega⟩)]
  exact Dat.before_out_reset _ 5 rfl _ (.inl (Nat.sub_self _)) d

theorem before0_6 (c : Dev nD) (t : Fin cfg0.N) (d) : (dat0 V c).before 6 t d = d := by
  have hN : t.val < 8 := lt_of_lt_of_eq t.isLt (show cfg0.N = 8 from N_0)
  rw [(dat0 V c).before_idle_run 6 (fun t => (cfg0.win 6).fetch_out rfl t) d t.val t le_rfl
    (fun j _ hj => ⟨(idleAt0_6 j).mpr (by omega), Bool.eq_false_iff.mpr fun h => by have := (flush0_6 j).mp h; omega⟩)]
  exact Dat.before_out_reset _ 6 rfl _ (.inl (Nat.sub_self _)) d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

/-- One tile's postcondition with the parts every case shares written out; the scale and shift parts are left to the cases. -/
theorem bodyPost0_eq (c : Dev nD) (t : Fin cfg0.N) :
    bodyPost0 V c t = iprop(PhiS0 V c (t.val + 1) t.isLt ∗ (dat0 V c).owesAt () t.castSucc
      ∗ owns (c : Thread nD τ) (ms0_0 t) fullShare (iblk0 V c 0 t)
      ∗ owns (c : Thread nD τ) (ms0_1 t) fullShare (iblk0 V c 1 t)
      ∗ owns (c : Thread nD τ) (ms0_2 t) fullShare (iblk0 V c 2 t)
      ∗ owns (c : Thread nD τ) (ms0_3 t) fullShare (iblk0 V c 3 t)
      ∗ owns (c : Thread nD τ) (ms0_4 t) fullShare (outsAt0 V c t.val t.isLt).1
      ∗ (dat0 V c).leavesExact 5 t
      ∗ (dat0 V c).leavesExact 6 t) := by
  unfold bodyPost0
  rw [show (dat0 V c).owesAt () t.succ = (dat0 V c).owesAt () t.castSucc from rfl]
  rw [show (dat0 V c).Φ t.succ = PhiS0 V c (t.val + 1) t.isLt from rfl]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]

set_option maxHeartbeats 1600000 in

theorem sound_body0_A (c : Dev nD) (t : Fin cfg0.N) (h0 : t.val % 8 = 0) (h1 : ¬t.val % 8 = 7) :
    bodyPre0 V c t ⊢ wp frame (wpE (defs₀ (F := F)) Variants.none c none) Set.univ (bodyAt0 t) (fun _ => bodyPost0 V c t) := by
  rw [bodyPost0_eq, PhiS0_succ]
  unfold bodyPre0 bodyAt0
  simp only [before0_0, before0_1, before0_2, before0_3, before0_5, before0_6]
  have hN : t.val < 8 := lt_of_lt_of_eq t.isLt (show cfg0.N = 8 from N_0)
  rw [Dat.leavesExact_idle (dat0 V c) 5 t ((idleAt0_5 t).mpr h1) (Bool.eq_false_iff.mpr fun h => h1 ((flush0_5 t).mp h))]
  rw [Dat.leavesExact_idle (dat0 V c) 6 t ((idleAt0_6 t).mpr h1) (Bool.eq_false_iff.mpr fun h => h1 ((flush0_6 t).mp h))]
  simp only [before0_5, before0_6]
  rw [outsAt0_A V c t h0 h1]
  unfold outs0_A pout0_A s1out0_A s2out0_A; (try dsimp only)
  have hz : t.val = 0 := by omega
  rw [PhiS0_castSucc V c t, PhiS0_zero V c _ _ hz, PhiA0_eq']
  iintro ⟨⟨⟨HS1, HS2, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS1]; · iexact HS1
  isplitl [HS2]; · iexact HS2
  iintro ⟨H0, H1, H2, H3, ⟨%e4, H4⟩, H5, H6, ⟨%es1, HS1⟩, ⟨%es2, HS2⟩⟩
  isplitl [HS1 HS2 Hrest Hg]
  · isplitl [HS1 HS2 Hrest]
    · isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_A_2 c _ _ _ _ _ _ _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_A_P c _ _ _ _ _ _ _ _ _ _ _ _ _ _ _ _ _ _ _ _ _ _ _ _ _)
  isplitl [H5]; · iexact H5
  iexact H6

set_option maxHeartbeats 1600000 in

theorem sound_body0_B (c : Dev nD) (t : Fin cfg0.N) (h0 : ¬t.val % 8 = 0) (h1 : ¬t.val % 8 = 7) :
    bodyPre0 V c t ⊢ wp frame (wpE (defs₀ (F := F)) Variants.none c none) Set.univ (bodyAt0 t) (fun _ => bodyPost0 V c t) := by
  rw [bodyPost0_eq, PhiS0_succ]
  unfold bodyPre0 bodyAt0
  simp only [before0_0, before0_1, before0_2, before0_3, before0_5, before0_6]
  have hN : t.val < 8 := lt_of_lt_of_eq t.isLt (show cfg0.N = 8 from N_0)
  rw [Dat.leavesExact_idle (dat0 V c) 5 t ((idleAt0_5 t).mpr h1) (Bool.eq_false_iff.mpr fun h => h1 ((flush0_5 t).mp h))]
  rw [Dat.leavesExact_idle (dat0 V c) 6 t ((idleAt0_6 t).mpr h1) (Bool.eq_false_iff.mpr fun h => h1 ((flush0_6 t).mp h))]
  simp only [before0_5, before0_6]
  rw [outsAt0_B V c t h0 h1]
  unfold outs0_B pout0_B s1out0_B s2out0_B; (try dsimp only)
  have hz : t.val ≠ 0 := by omega
  rw [PhiS0_castSucc V c t, PhiS0_pos V c _ _ hz]
  iintro ⟨⟨⟨HS1, HS2, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS1]; · iexact HS1
  isplitl [HS2]; · iexact HS2
  iintro ⟨H0, H1, H2, H3, ⟨%e4, H4⟩, H5, H6, ⟨%es1, HS1⟩, ⟨%es2, HS2⟩⟩
  isplitl [HS1 HS2 Hrest Hg]
  · isplitl [HS1 HS2 Hrest]
    · isplitl [HS1]
      · unfold owns; iexists _; isplitr
        swap; · iexact HS1
        ipureintro; exact View.read_writes_of_cover _ _ _ _ _ (scover0_B_1 c _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_B_2 c _ _ _ _ _ _ _ _ _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_B_P c _ _ _ _ _ _ _ _ _ _ _ _ _ _ _ _ _ _ _ _ _ _ _ _ _ _ _)
  isplitl [H5]; · iexact H5
  iexact H6

set_option maxHeartbeats 1600000 in

theorem sound_body0_C (c : Dev nD) (t : Fin cfg0.N) (h0 : ¬t.val % 8 = 0) (h1 : t.val % 8 = 7) :
    bodyPre0 V c t ⊢ wp frame (wpE (defs₀ (F := F)) Variants.none c none) Set.univ (bodyAt0 t) (fun _ => bodyPost0 V c t) := by
  rw [bodyPost0_eq, PhiS0_succ]
  unfold bodyPre0 bodyAt0
  simp only [before0_0, before0_1, before0_2, before0_3, before0_5, before0_6]
  have hN : t.val < 8 := lt_of_lt_of_eq t.isLt (show cfg0.N = 8 from N_0)
  rw [show (dat0 V c).leavesExact 5 t = owns (c : Thread nD τ) (ms0_5 t) fullShare ((dat0 V c).after 5 t) from by
    unfold Dat.leavesExact; rw [(liveAt0_5 t).mpr h1], after0_5]
  rw [show (dat0 V c).leavesExact 6 t = owns (c : Thread nD τ) (ms0_6 t) fullShare ((dat0 V c).after 6 t) from by
    unfold Dat.leavesExact; rw [(liveAt0_6 t).mpr h1], after0_6]
  rw [outsAt0_C V c t h0 h1]
  unfold outs0_C pout0_C sout0_C tout0_C s1out0_C s2out0_C; (try dsimp only)
  have hz : t.val ≠ 0 := by omega
  rw [PhiS0_castSucc V c t, PhiS0_pos V c _ _ hz]
  iintro ⟨⟨⟨HS1, HS2, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _).2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS1]; · iexact HS1
  isplitl [HS2]; · iexact HS2
  iintro ⟨H0, H1, H2, H3, ⟨%e4, H4⟩, ⟨%e5, H5⟩, ⟨%e6, H6⟩, ⟨%es1, HS1⟩, ⟨%es2, HS2⟩⟩
  isplitl [HS1 HS2 Hrest Hg]
  · isplitl [HS1 HS2 Hrest]
    · isplitl [HS1]
      · unfold owns; iexists _; isplitr
        swap; · iexact HS1
        ipureintro; exact View.read_writes_of_cover _ _ _ _ _ (scover0_C_1 c _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_C_2 c _ _ _ _ _ _ _ _ _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_C_P c _ _ _ _ _ _ _ _ _ _ _ _ _ _ _ _ _ _ _ _ _ _ _ _ _ _ _)
  isplitl [H5]
  · unfold owns; iexists _; isplitr
    swap; · iexact H5
    ipureintro; exact View.read_writes_of_cover _ _ _ _ _ (cover0_C_s c _ _ _ _ _ _ _ _ _ _ _ _ _ _ _ _ _ _ _ _ _ _ _ _ _ _ _)
  unfold owns; iexists _; isplitr
  swap; · iexact H6
  ipureintro; exact View.read_writes_of_cover _ _ _ _ _ (cover0_C_t c _ _ _ _ _ _ _ _ _ _ _ _ _ _ _ _ _ _ _ _ _ _ _ _ _ _ _)

theorem sound_body0 (c : Dev nD) (t : Fin cfg0.N) :
    bodyPre0 V c t ⊢ wp frame (wpE (defs₀ (F := F)) Variants.none c none) Set.univ (bodyAt0 t) (fun _ => bodyPost0 V c t) := by
  have hN : t.val < 8 := lt_of_lt_of_eq t.isLt (show cfg0.N = 8 from N_0)
  by_cases h0 : t.val % 8 = 0
  · exact sound_body0_A V c t h0 (by omega)
  · by_cases h1 : t.val % 8 = 7
    · exact sound_body0_C V c t h0 h1
    · exact sound_body0_B V c t h0 h1

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq']
  iintro ⟨⟨HS1, HS2, Hrest⟩, Hg⟩
  isplitl [HS1 HS2 Hrest]
  · isplitl [HS1]; · iexists _; iexact HS1
    isplitl [HS2]; · iexists _; iexact HS2
    iexact Hrest
  iexact Hg

theorem hout0 (c : Dev nD) : (dat0 V c).Φ (Fin.last cfg0.N) ⊢ Pipeline.ΦA spec0 c :=
  Phi_out0 V c _ (by rw [Fin.val_last]; have : cfg0.N = 8 := N_0; omega)

end Body

end Cert.ReferenceIdeal.H

end
-- ==== Proof.RI.Regions.lean ====
import proofs.«135015_g2000502485364553_pallasbulk_1302_1_alg».proof.Proof.RI.Body1
import proofs.«135015_g2000502485364553_pallasbulk_1302_1_alg».proof.Proof.RI.Body0
import proofs.«135015_g2000502485364553_pallasbulk_1302_1_alg».proof.Proof.Gen.ReferenceIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.H

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

def resArr (c : Dev nD) : Buf (Elt F) ((c : Thread nD τ).loc main_v11) := W4 m ρ c (Proc.devRef .tc main_v11)
theorem resArr_eq (c : Dev nD) : resArr m ρ c = (dat1 (V3 m ρ) c).arrAt 3 cfg1.N := W4_arr m ρ c 3

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (show Pipeline.ΦA spec0 c ⊢ (pdats m ρ 0 c).Φ 0 from hin0 (V1 m ρ) c)
    unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans (?_ : (Pipeline.ΦA spec0 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]

theorem main_run (c : Dev nD) : main (F := F) c = Pipeline.Seg.run (segs m ρ) := (main_chain c).trans (by chain_rfl)

end Cert.ReferenceIdeal.H

end
-- ==== Proof.RI.RunValue.lean ====
import proofs.«135015_g2000502485364553_pallasbulk_1302_1_alg».proof.Proof.RI.Regions

set_option maxRecDepth 16384

noncomputable section

namespace Cert.ReferenceIdeal.H

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in

theorem run_value : θ_run defs (onTc (τ := τ) (main (F := F))) ⟨m, fun _ => 0, ρ⟩ (fun r => ∀ c : Dev nD,
      r.2.mem ((c.tc : Thread nD τ).loc main_v11) = resArr m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v11 (by decide)),
        (h c _ (mem_uc main_arg0 (by decide))).trans (W4_main_arg0 m ρ c),
        (h c _ (mem_uc main_arg1 (by decide))).trans (W4_main_arg1 m ρ c),
        (h c _ (mem_uc main_arg2 (by decide))).trans (W4_main_arg2 m ρ c),
        (h c _ (mem_uc main_arg3 (by decide))).trans (W4_main_arg3 m ρ c),
        (h c _ (mem_uc main_arg4 (by decide))).trans (W4_main_arg4 m ρ c)⟩)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)) :=
  (θ_run defs _ _).mono (fun r hr c => (hr c).2) (run_value m ρ)

end Cert.ReferenceIdeal.H

end
-- ==== Proof.Ops.lean ====
import Idealize.ShloMosaic.PureOps.Ideal.Laws
import Idealize.ShloMosaic.Lib.ValueIdx
import Idealize.ShloMosaic.Lib.ValueLayout
import Idealize.ShloMosaic.Lib.Pipeline.Value

noncomputable section

namespace Cert

open Idealize.ShloMosaic Idealize.ShloMosaic.ValueIdx
open scoped BigOperators

section Layout
variable {α : Type}

theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Layout

theorem hostReduceAdd_last3_apply {n0 n1 n2 : ℕ} (h' : (⟨3, ![n0, n1, n2]⟩ : Shape).ReducesTo [2] ⟨2, ![n0, n1]⟩)
    (h : (⟨3, ![n0, n1, n2]⟩ : Shape).Reduces [2] ⟨2, ![n0, n1]⟩)
    (x : (⟨3, ![n0, n1, n2]⟩ : Shape).Idx → EReal) (init : EReal) (a : Fin n0) (b : Fin n1) :
    Ideal.hostReduceAdd h' x init (ix2 a b) = init + ∑ k : Fin n2, x (ix3 a b k) := by
  rw [Ideal.hostReduceAdd_single h' h]
  refine congrArg (init + ·) (Finset.sum_congr rfl fun k _ => congrArg x (funext fun ax => Fin.ext ?_))
  match ax with
  | ⟨0, _⟩ => rfl
  | ⟨1, _⟩ => rfl
  | ⟨2, _⟩ => rfl

theorem dotGeneral_nn_apply {M K N : ℕ} {φ₁ φ₂ : FTy}
    (wf : DotDims.WF ⟨2, ![M, K]⟩ ⟨2, ![K, N]⟩ ⟨2, ![M, N]⟩ [1] [0] [0] [1] [] [])
    (prec : Option ContractPrecision) (sched : HostSchedule) (lhs : FVec Ideal ⟨2, ![M, K]⟩ φ₁) (rhs : FVec Ideal ⟨2, ![K, N]⟩ φ₂)
    (p : Fin M) (c : Fin N) :
    FloatOps.dotGeneral (⟨[1], [0], [0], [1], [], [], wf⟩ : DotDims ⟨2, ![M, K]⟩ ⟨2, ![K, N]⟩ ⟨2, ![M, N]⟩) prec sched lhs rhs (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.dotGeneral_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

theorem matmul_nt_apply {M K N : ℕ} {φ₁ φ₂ : FTy}
    (wf : DotDims.WF ⟨2, ![M, K]⟩ ⟨2, ![N, K]⟩ ⟨2, ![M, N]⟩ [1] [1] [0] [0] [] [])
    (prec : Option ContractPrecision) (lhs : FVec Ideal ⟨2, ![M, K]⟩ φ₁) (rhs : FVec Ideal ⟨2, ![N, K]⟩ φ₂)
    (p : Fin M) (c : Fin N) :
    FloatOps.matmul (⟨[1], [1], [0], [0], [], [], wf⟩ : DotDims ⟨2, ![M, K]⟩ ⟨2, ![N, K]⟩ ⟨2, ![M, N]⟩) prec lhs rhs
        (constant ⟨2, ![M, N]⟩ .f32 0x00000000#32) (ix2 p c)
      = ∑ k : Fin K, lhs (ix2 p k) * rhs (ix2 c k) := by
  set D : DotDims ⟨2, ![M, K]⟩ ⟨2, ![N, K]⟩ ⟨2, ![M, N]⟩ := ⟨[1], [1], [0], [0], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (i 1).val := by
    intro i q
    unfold DotDims.rhsIdx
    rw [dif_neg (show ¬(0 : Fin 2) ∈ D.rhsBatch from List.not_mem_nil), dif_pos (show (0 : Fin 2) ∈ D.rhsNonContracting from List.mem_singleton.mpr rfl)]
    rfl
  have r1 : ∀ (i : (⟨2, ![M, N]⟩ : Shape).Idx) (q : D.contr.Idx), (D.rhsIdx i q 1).val = (q ⟨0, Nat.one_pos⟩).val :=
    fun i q => D.rhsIdx_val_of_single rfl i q
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 c k := funext fun ax => Fin.ext (by
    match ax with
    | ⟨0, _⟩ => exact r0 _ _
    | ⟨1, _⟩ => exact (r1 _ _).trans hk)
  rw [el, er]

theorem matmulT_ones_apply {M K N : ℕ} {φ₁ φ₂ : FTy}
    (wf : DotDims.WF ⟨2, ![M, K]⟩ ⟨2, ![N, K]⟩ ⟨2, ![M, N]⟩ [1] [1] [0] [0] [] [])
    (prec : Option ContractPrecision) (lhs : FVec Ideal ⟨2, ![M, K]⟩ φ₁) (hl : ∀ i, lhs i = 1) (rhs : FVec Ideal ⟨2, ![N, K]⟩ φ₂)
    (p : Fin M) (c : Fin N) :
    FloatOps.matmul (⟨[1], [1], [0], [0], [], [], wf⟩ : DotDims ⟨2, ![M, K]⟩ ⟨2, ![N, K]⟩ ⟨2, ![M, N]⟩) prec lhs rhs
        (constant ⟨2, ![M, N]⟩ .f32 0x00000000#32) (ix2 p c)
      = ∑ k : Fin K, rhs (ix2 c k) := by
  rw [matmul_nt_apply]
  exact Finset.sum_congr rfl fun k _ => by rw [hl, one_mul]

end Cert

end
-- ==== Proof.KI.ValueChan.lean ====
import proofs.«135015_g2000502485364553_pallasbulk_1302_1_alg».proof.Proof.KI.Chan
import proofs.«135015_g2000502485364553_pallasbulk_1302_1_alg».proof.Proof.Ops

set_option maxRecDepth 16384

noncomputable section

namespace Cert.KernelIdeal.HV

open Cert.KernelIdeal Cert.KernelIdeal.Gen Cert.KernelIdeal.H
open Idealize.ShloMosaic Idealize.ShloMosaic.ValueIdx Idealize.SL.Sem
open scoped BigOperators

theorem pay25_apply (x : Vec Ideal S256x16x256 .f32) (i : S256x16x256.Idx) : k0_pay25 x i = x i :=
  congrFun (shapeCast_self x shapeCasts_S256x16x256_S256x16x256) i

theorem chanBlock_apply (ch : Fin 16) (x : Vec Ideal S256x16x256 .f32) (w : Vec Ideal S128x1x256 .bf16) (r : Fin 256) (k : Fin 128) :
    chanBlock ch x w (ix3 (0 : Fin 1) r k) = ∑ hw : Fin 256, (x (ix3 r ch hw) : EReal) * (w (ix3 k (0 : Fin 1) hw) : EReal) := by
  unfold chanBlock
  refine (shapeCast_ab_1ab_apply _ _ (0 : Fin 1) r k).trans ?_
  refine (matmul_nt_apply dot_S256x256_S128x256_S256x128_1_1_0_0_n_n_wf none _ _ r k).trans ?_
  refine Finset.sum_congr rfl fun hw _ => ?_
  refine congrArg₂ (· * ·) ?_ ?_
  · refine (shapeCast_a1b_ab_apply _ _ r hw).trans ?_
    refine (slice3_axis1_apply ch.val _ _ r (0 : Fin 1) hw ch (Nat.add_zero _).symm).trans ?_
    exact pay25_apply x _
  · exact shapeCast_a1b_ab_apply _ _ k hw

end Cert.KernelIdeal.HV

end
-- ==== Proof.KI.ValueBlocks.lean ====
import proofs.«135015_g2000502485364553_pallasbulk_1302_1_alg».proof.Proof.KI.Common
import Idealize.ShloMosaic.Lib.ValueIdx

set_option maxRecDepth 16384

noncomputable section

namespace Cert.KernelIdeal.HV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.H
open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

abbrev X3 (c : Dev nD) : Vec F S2048x16x256 .f32 := V m c main_v0
abbrev W3 (c : Dev nD) : Vec F S128x16x256 .f32 := V m c main_v1
abbrev Gm (c : Dev nD) : Vec F S16x1 .f32 := V m c main_v2
abbrev Bt (c : Dev nD) : Vec F S16x1 .f32 := V m c main_v3
abbrev Bi (c : Dev nD) : Vec F S1x128 .f32 := V m c main_v4

theorem idx_x : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_g : ∀ t : Fin cfg0.N, win0_1.index t (0 : Fin 2) = 0 ∧ win0_1.index t (1 : Fin 2) = 0 :=
  (by decide +kernel : ∀ t : Fin grid0.N, _)
theorem idx_b : ∀ t : Fin cfg0.N, win0_2.index t (0 : Fin 2) = 0 ∧ win0_2.index t (1 : Fin 2) = 0 :=
  (by decide +kernel : ∀ t : Fin grid0.N, _)
theorem idx_w : ∀ t : Fin cfg0.N, win0_3.index t (0 : Fin 3) = 0 ∧ win0_3.index t (1 : Fin 3) = 0 ∧ win0_3.index t (2 : Fin 3) = 0 :=
  (by decide +kernel : ∀ t : Fin grid0.N, _)
theorem idx_bias : ∀ t : Fin cfg0.N, win0_4.index t (0 : Fin 2) = 0 ∧ win0_4.index t (1 : Fin 2) = 0 :=
  (by decide +kernel : ∀ t : Fin grid0.N, _)

theorem xblk_apply (c : Dev nD) (t : Fin cfg0.N) (r : Fin 256) (ch : Fin 16) (hw : Fin 256) (b : Fin 2048)
    (hb : b.val = 256 * t.val + r.val) : iblk m c 0 t (ix3 r ch hw) = X3 m c (ix3 b ch hw) := by
  show V m c main_v0 (((cfg0.win 0).blk t).view.emb (ix3 r ch hw)) = V m c main_v0 (ix3 b ch hw)
  obtain ⟨e0, e1, e2⟩ := idx_x t
  refine congrArg (V m c main_v0) (funext fun a => Fin.ext ?_)
  match a with
  | ⟨0, _⟩ => show win0_0.index t (0 : Fin 3) * 256 + 1 * r.val = b.val; omega
  | ⟨1, _⟩ => show win0_0.index t (1 : Fin 3) * 16 + 1 * ch.val = ch.val; omega
  | ⟨2, _⟩ => show win0_0.index t (2 : Fin 3) * 256 + 1 * hw.val = hw.val; omega

theorem wblk_eq (c : Dev nD) (t : Fin cfg0.N) : iblk m c 3 t = W3 m c := by
  funext y
  show V m c main_v1 (((cfg0.win 3).blk t).view.emb y) = V m c main_v1 y
  obtain ⟨e0, e1, e2⟩ := idx_w t
  refine congrArg (V m c main_v1) (funext fun a => Fin.ext ?_)
  match a with
  | ⟨0, _⟩ => show win0_3.index t (0 : Fin 3) * 128 + 1 * (y 0).val = (y 0).val; omega
  | ⟨1, _⟩ => show win0_3.index t (1 : Fin 3) * 16 + 1 * (y 1).val = (y 1).val; omega
  | ⟨2, _⟩ => show win0_3.index t (2 : Fin 3) * 256 + 1 * (y 2).val = (y 2).val; omega

theorem gblk_eq (c : Dev nD) (t : Fin cfg0.N) : iblk m c 1 t = Gm m c := by
  funext y
  show V m c main_v2 (((cfg0.win 1).blk t).view.emb y) = V m c main_v2 y
  obtain ⟨e0, e1⟩ := idx_g t
  refine congrArg (V m c main_v2) (funext fun a => Fin.ext ?_)
  match a with
  | ⟨0, _⟩ => show win0_1.index t (0 : Fin 2) * 16 + 1 * (y 0).val = (y 0).val; omega
  | ⟨1, _⟩ => show win0_1.index t (1 : Fin 2) * 1 + 1 * (y 1).val = (y 1).val; omega
theorem bblk_eq (c : Dev nD) (t : Fin cfg0.N) : iblk m c 2 t = Bt m c := by
  funext y
  show V m c main_v3 (((cfg0.win 2).blk t).view.emb y) = V m c main_v3 y
  obtain ⟨e0, e1⟩ := idx_b t
  refine congrArg (V m c main_v3) (funext fun a => Fin.ext ?_)
  match a with
  | ⟨0, _⟩ => show win0_2.index t (0 : Fin 2) * 16 + 1 * (y 0).val = (y 0).val; omega
  | ⟨1, _⟩ => show win0_2.index t (1 : Fin 2) * 1 + 1 * (y 1).val = (y 1).val; omega
theorem biasblk_eq (c : Dev nD) (t : Fin cfg0.N) : iblk m c 4 t = Bi m c := by
  funext y
  show V m c main_v4 (((cfg0.win 4).blk t).view.emb y) = V m c main_v4 y
  obtain ⟨e0, e1⟩ := idx_bias t
  refine congrArg (V m c main_v4) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

end Cert.KernelIdeal.HV

end
-- ==== Proof.KI.StatRec.lean ====
import proofs.«135015_g2000502485364553_pallasbulk_1302_1_alg».proof.Proof.KI.State
import Idealize.ShloMosaic.Lib.Pipeline.Value

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem zeros2 : (![0, 0] : Fin 2 → ℕ) = fun _ => 0 := funext fun a => by
  match a with
  | ⟨0, _⟩ => rfl
  | ⟨1, _⟩ => rfl
theorem zeros3 : (![0, 0, 0] : Fin 3 → ℕ) = fun _ => 0 := funext fun a => by
  match a with
  | ⟨0, _⟩ => rfl
  | ⟨1, _⟩ => rfl
  | ⟨2, _⟩ => rfl

section
variable (c : Dev nD) (i : grid0.Coords) (arg1 : Memref sig .tc .vmem S256x16x256 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S128x16x256 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S128x16x256 .bf16) (harg7 : arg7.IsWhole) (arg8 : Memref sig .tc .vmem S16x256 .f32) (harg8 : arg8.IsWhole) (arg9 : Memref sig .tc .vmem S16x256 .f32) (harg9 : arg9.IsWhole) (arg10 : Memref sig .tc .vmem S16x2048x128 .f32) (harg10 : arg10.IsWhole) (hc0 : cond0_0 i) (hc1 : ¬cond0_1 i) (x0 : Vec F S256x16x256 .f32) (x1 : Vec F S16x1 .f32) (x2 : Vec F S16x1 .f32) (x3 : Vec F S128x16x256 .f32) (x4 : Vec F S1x128 .f32) (xs3 : Vec F S16x2048x128 .f32)
include c i arg1 harg1 arg2 harg2 arg3 harg3 arg4 harg4 arg5 harg5 arg6 harg6 arg7 harg7 arg8 harg8 arg9 harg9 arg10 harg10 hc0 hc1 x0 x1 x2 x3 x4 xs3

theorem runA_weights :
    View.canon (kernelRun0_A (F := F) c i arg1 harg1 arg2 harg2 arg3 harg3 arg4 harg4 arg5 harg5 arg6 harg6 arg7 harg7 arg8 harg8 arg9 harg9 arg10 harg10 hc0 hc1 x0 x1 x2 x3 x4 xs3).1 = k0_pay21 x3 := by
  unfold kernelRun0_A
  dsimp only
  sl_unfold_words
  rw [View.canon_unit_zero zeros3]
  simp only [View.readAt_eq_ld, harg1.read_unread, harg4.read_unread, harg8.read_unread, harg9.read_unread, View.ld_unit_zero (S := S256x16x256) zeros3, View.ld_unit_zero (S := S128x16x256) zeros3, View.ld_unit_zero (S := S16x256) zeros2, View.readCov_unit_zero (S := S16x256) _ zeros2]

theorem runA_sum :
    View.canon (kernelRun0_A (F := F) c i arg1 harg1 arg2 harg2 arg3 harg3 arg4 harg4 arg5 harg5 arg6 harg6 arg7 harg7 arg8 harg8 arg9 harg9 arg10 harg10 hc0 hc1 x0 x1 x2 x3 x4 xs3).2.1 = k0_pay23 x0 (k0_pay19 (F := F)) := by
  unfold kernelRun0_A
  dsimp only
  sl_unfold_words
  rw [View.canon_cons_unit_zero zeros2]
  simp only [View.readAt_eq_ld, harg1.read_unread, harg4.read_unread, harg8.read_unread, harg9.read_unread, View.ld_unit_zero (S := S256x16x256) zeros3, View.ld_unit_zero (S := S128x16x256) zeros3, View.ld_unit_zero (S := S16x256) zeros2, View.readCov_unit_zero (S := S16x256) _ zeros2]

theorem runA_sq :
    View.canon (kernelRun0_A (F := F) c i arg1 harg1 arg2 harg2 arg3 harg3 arg4 harg4 arg5 harg5 arg6 harg6 arg7 harg7 arg8 harg8 arg9 harg9 arg10 harg10 hc0 hc1 x0 x1 x2 x3 x4 xs3).2.2.1 = k0_pay24 x0 (k0_pay20 (F := F)) := by
  unfold kernelRun0_A
  dsimp only
  sl_unfold_words
  rw [View.canon_cons_unit_zero zeros2]
  simp only [View.readAt_eq_ld, harg1.read_unread, harg4.read_unread, harg8.read_unread, harg9.read_unread, View.ld_unit_zero (S := S256x16x256) zeros3, View.ld_unit_zero (S := S128x16x256) zeros3, View.ld_unit_zero (S := S16x256) zeros2, View.readCov_unit_zero (S := S16x256) _ zeros2]

end

section
variable (c : Dev nD) (i : grid0.Coords) (arg1 : Memref sig .tc .vmem S256x16x256 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S128x16x256 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S128x16x256 .bf16) (harg7 : arg7.IsWhole) (arg8 : Memref sig .tc .vmem S16x256 .f32) (harg8 : arg8.IsWhole) (arg9 : Memref sig .tc .vmem S16x256 .f32) (harg9 : arg9.IsWhole) (arg10 : Memref sig .tc .vmem S16x2048x128 .f32) (harg10 : arg10.IsWhole) (hc0 : ¬cond0_0 i) (hc1 : ¬cond0_1 i) (x0 : Vec F S256x16x256 .f32) (x1 : Vec F S16x1 .f32) (x2 : Vec F S16x1 .f32) (x3 : Vec F S128x16x256 .f32) (x4 : Vec F S1x128 .f32) (xs0 : Vec F S128x16x256 .bf16) (xs1 : Vec F S16x256 .f32) (xs2 : Vec F S16x256 .f32) (xs3 : Vec F S16x2048x128 .f32)
include c i arg1 harg1 arg2 harg2 arg3 harg3 arg4 harg4 arg5 harg5 arg6 harg6 arg7 harg7 arg8 harg8 arg9 harg9 arg10 harg10 hc0 hc1 x0 x1 x2 x3 x4 xs0 xs1 xs2 xs3

theorem runB_sum :
    View.canon (kernelRun0_B (F := F) c i arg1 harg1 arg2 harg2 arg3 harg3 arg4 harg4 arg5 harg5 arg6 harg6 arg7 harg7 arg8 harg8 arg9 harg9 arg10 harg10 hc0 hc1 x0 x1 x2 x3 x4 xs0 xs1 xs2 xs3).1 = k0_pay23 x0 xs1 := by
  unfold kernelRun0_B
  dsimp only
  sl_unfold_words
  rw [View.canon_unit_zero zeros2]
  simp only [View.readAt_eq_ld, harg1.read_unread, harg4.read_unread, harg8.read_unread, harg9.read_unread, View.ld_unit_zero (S := S256x16x256) zeros3, View.ld_unit_zero (S := S128x16x256) zeros3, View.ld_unit_zero (S := S16x256) zeros2, View.readCov_unit_zero (S := S16x256) _ zeros2]

theorem runB_sq :
    View.canon (kernelRun0_B (F := F) c i arg1 harg1 arg2 harg2 arg3 harg3 arg4 harg4 arg5 harg5 arg6 harg6 arg7 harg7 arg8 harg8 arg9 harg9 arg10 harg10 hc0 hc1 x0 x1 x2 x3 x4 xs0 xs1 xs2 xs3).2.1 = k0_pay24 x0 xs2 := by
  unfold kernelRun0_B
  dsimp only
  sl_unfold_words
  rw [View.canon_unit_zero zeros2]
  simp only [View.readAt_eq_ld, harg1.read_unread, harg4.read_unread, harg8.read_unread, harg9.read_unread, View.ld_unit_zero (S := S256x16x256) zeros3, View.ld_unit_zero (S := S128x16x256) zeros3, View.ld_unit_zero (S := S16x256) zeros2, View.readCov_unit_zero (S := S16x256) _ zeros2]

end

section
variable (c : Dev nD) (i : grid0.Coords) (arg1 : Memref sig .tc .vmem S256x16x256 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S128x16x256 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S128x16x256 .bf16) (harg7 : arg7.IsWhole) (arg8 : Memref sig .tc .vmem S16x256 .f32) (harg8 : arg8.IsWhole) (arg9 : Memref sig .tc .vmem S16x256 .f32) (harg9 : arg9.IsWhole) (arg10 : Memref sig .tc .vmem S16x2048x128 .f32) (harg10 : arg10.IsWhole) (hc0 : ¬cond0_0 i) (hc1 : cond0_1 i) (x0 : Vec F S256x16x256 .f32) (x1 : Vec F S16x1 .f32) (x2 : Vec F S16x1 .f32) (x3 : Vec F S128x16x256 .f32) (x4 : Vec F S1x128 .f32) (xs0 : Vec F S128x16x256 .bf16) (xs1 : Vec F S16x256 .f32) (xs2 : Vec F S16x256 .f32) (xs3 : Vec F S16x2048x128 .f32)
include c i arg1 harg1 arg2 harg2 arg3 harg3 arg4 harg4 arg5 harg5 arg6 harg6 arg7 harg7 arg8 harg8 arg9 harg9 arg10 harg10 hc0 hc1 x0 x1 x2 x3 x4 xs0 xs1 xs2 xs3

theorem runC_sum :
    View.canon (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1 xs2 xs3).1 = k0_pay23 x0 xs1 := by
  unfold kernelRun0_C
  dsimp only
  sl_unfold_words
  rw [View.canon_unit_zero zeros2]
  simp only [View.readAt_eq_ld, harg1.read_unread, harg4.read_unread, harg8.read_unread, harg9.read_unread, View.ld_unit_zero (S := S256x16x256) zeros3, View.ld_unit_zero (S := S128x16x256) zeros3, View.ld_unit_zero (S := S16x256) zeros2, View.readCov_unit_zero (S := S16x256) _ zeros2]

theorem runC_sq :
    View.canon (kernelRun0_C (F := F) c i arg1 harg1 arg2 harg2 arg3 harg3 arg4 harg4 arg5 harg5 arg6 harg6 arg7 harg7 arg8 harg8 arg9 harg9 arg10 harg10 hc0 hc1 x0 x1 x2 x3 x4 xs0 xs1 xs2 xs3).2.1 = k0_pay24 x0 xs2 := by
  unfold kernelRun0_C
  dsimp only
  sl_unfold_words
  rw [View.canon_unit_zero zeros2]
  simp only [View.readAt_eq_ld, harg1.read_unread, harg4.read_unread, harg8.read_unread, harg9.read_unread, View.ld_unit_zero (S := S256x16x256) zeros3, View.ld_unit_zero (S := S128x16x256) zeros3, View.ld_unit_zero (S := S16x256) zeros2, View.readCov_unit_zero (S := S16x256) _ zeros2]

end

section
variable (c : Dev nD) (t : Fin cfg0.N) (h0 : t.val % 8 = 0) (h1 : ¬t.val % 8 = 7) (g : Vec F S16x2048x128 .f32)
include c t h0 h1 g

theorem RA_weights :
    View.canon (RA m c t h0 h1 g).1 = k0_pay21 (iblk m c 3 t) :=
  runA_weights c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) g
theorem RA_sum :
    View.canon (RA m c t h0 h1 g).2.1 = k0_pay23 (iblk m c 0 t) (k0_pay19 (F := F)) :=
  runA_sum c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) g
theorem RA_sq :
    View.canon (RA m c t h0 h1 g).2.2.1 = k0_pay24 (iblk m c 0 t) (k0_pay20 (F := F)) :=
  runA_sq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) g

end

section
variable (c : Dev nD) (t : Fin cfg0.N) (h0 : ¬t.val % 8 = 0) (h1 : ¬t.val % 8 = 7) (xs0 : Vec F S128x16x256 .bf16) (xs1 : Vec F S16x256 .f32) (xs2 : Vec F S16x256 .f32) (g : Vec F S16x2048x128 .f32)
include c t h0 h1 xs0 xs1 xs2 g

theorem RB_sum :
    View.canon (RB m c t h0 h1 xs0 xs1 xs2 g).1 = k0_pay23 (iblk m c 0 t) xs1 :=
  runB_sum c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) xs0 xs1 xs2 g
theorem RB_sq :
    View.canon (RB m c t h0 h1 xs0 xs1 xs2 g).2.1 = k0_pay24 (iblk m c 0 t) xs2 :=
  runB_sq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) xs0 xs1 xs2 g

end

section
variable (c : Dev nD) (t : Fin cfg0.N) (h0 : ¬t.val % 8 = 0) (h1 : t.val % 8 = 7) (xs0 : Vec F S128x16x256 .bf16) (xs1 : Vec F S16x256 .f32) (xs2 : Vec F S16x256 .f32) (g : Vec F S16x2048x128 .f32)
include c t h0 h1 xs0 xs1 xs2 g

theorem RC_sum :
    View.canon (RC m c t h0 h1 xs0 xs1 xs2 g).1 = k0_pay23 (iblk m c 0 t) xs1 :=
  runC_sum c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) xs0 xs1 xs2 g
theorem RC_sq :
    View.canon (RC m c t h0 h1 xs0 xs1 xs2 g).2.1 = k0_pay24 (iblk m c 0 t) xs2 :=
  runC_sq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) xs0 xs1 xs2 g

end

theorem st3_zero_def (c : Dev nD) (hn : 0 < cfg0.N) (h0 : (⟨0, hn⟩ : Fin cfg0.N).val % 8 = 0) (h1 : ¬(⟨0, hn⟩ : Fin cfg0.N).val % 8 = 7) :
    st3 m c 0 hn = (readBack scM0_0 (RA m c ⟨0, hn⟩ h0 h1 (pj (F := F))).1, readBack scM0_1 (RA m c ⟨0, hn⟩ h0 h1 (pj (F := F))).2.1,
      readBack scM0_2 (RA m c ⟨0, hn⟩ h0 h1 (pj (F := F))).2.2.1) := rfl

theorem st3_succ_def (c : Dev nD) (n : ℕ) (hn : n + 1 < cfg0.N) (h0 : ¬(⟨n + 1, hn⟩ : Fin cfg0.N).val % 8 = 0) :
    st3 m c (n + 1) hn =
      if h1 : (n + 1) % 8 = 7 then
        ((st3 m c n (Nat.lt_of_succ_lt hn)).1,
          readBack scM0_1 (RC m c ⟨n + 1, hn⟩ h0 h1 (st3 m c n (Nat.lt_of_succ_lt hn)).1 (st3 m c n (Nat.lt_of_succ_lt hn)).2.1 (st3 m c n (Nat.lt_of_succ_lt hn)).2.2 (pj (F := F))).1,
          readBack scM0_2 (RC m c ⟨n + 1, hn⟩ h0 h1 (st3 m c n (Nat.lt_of_succ_lt hn)).1 (st3 m c n (Nat.lt_of_succ_lt hn)).2.1 (st3 m c n (Nat.lt_of_succ_lt hn)).2.2 (pj (F := F))).2.1)
      else
        ((st3 m c n (Nat.lt_of_succ_lt hn)).1,
          readBack scM0_1 (RB m c ⟨n + 1, hn⟩ h0 h1 (st3 m c n (Nat.lt_of_succ_lt hn)).1 (st3 m c n (Nat.lt_of_succ_lt hn)).2.1 (st3 m c n (Nat.lt_of_succ_lt hn)).2.2 (pj (F := F))).1,
          readBack scM0_2 (RB m c ⟨n + 1, hn⟩ h0 h1 (st3 m c n (Nat.lt_of_succ_lt hn)).1 (st3 m c n (Nat.lt_of_succ_lt hn)).2.1 (st3 m c n (Nat.lt_of_succ_lt hn)).2.2 (pj (F := F))).2.1) := rfl

section
variable (c : Dev nD) (t : Fin cfg0.N) (h0 : t.val % 8 = 0) (h1 : ¬t.val % 8 = 7) (g : Vec F S16x2048x128 .f32)
include c t h0 h1 g

theorem RA_weights_rb :
    readBack scM0_0 (RA m c t h0 h1 g).1 = k0_pay21 (iblk m c 3 t) :=
  (View.read_writes_junk_eq_canon scM0_0.view (RA m c t h0 h1 g).1).trans (RA_weights m c t h0 h1 g)
theorem RA_sum_rb :
    readBack scM0_1 (RA m c t h0 h1 g).2.1 = k0_pay23 (iblk m c 0 t) (k0_pay19 (F := F)) :=
  (View.read_writes_junk_eq_canon scM0_1.view (RA m c t h0 h1 g).2.1).trans (RA_sum m c t h0 h1 g)
theorem RA_sq_rb :
    readBack scM0_2 (RA m c t h0 h1 g).2.2.1 = k0_pay24 (iblk m c 0 t) (k0_pay20 (F := F)) :=
  (View.read_writes_junk_eq_canon scM0_2.view (RA m c t h0 h1 g).2.2.1).trans (RA_sq m c t h0 h1 g)

end

section
variable (c : Dev nD) (t : Fin cfg0.N) (h0 : ¬t.val % 8 = 0) (h1 : ¬t.val % 8 = 7) (xs0 : Vec F S128x16x256 .bf16) (xs1 : Vec F S16x256 .f32) (xs2 : Vec F S16x256 .f32) (g : Vec F S16x2048x128 .f32)
include c t h0 h1 xs0 xs1 xs2 g

theorem RB_sum_rb :
    readBack scM0_1 (RB m c t h0 h1 xs0 xs1 xs2 g).1 = k0_pay23 (iblk m c 0 t) xs1 :=
  (View.read_writes_junk_eq_canon scM0_1.view (RB m c t h0 h1 xs0 xs1 xs2 g).1).trans (RB_sum m c t h0 h1 xs0 xs1 xs2 g)
theorem RB_sq_rb :
    readBack scM0_2 (RB m c t h0 h1 xs0 xs1 xs2 g).2.1 = k0_pay24 (iblk m c 0 t) xs2 :=
  (View.read_writes_junk_eq_canon scM0_2.view (RB m c t h0 h1 xs0 xs1 xs2 g).2.1).trans (RB_sq m c t h0 h1 xs0 xs1 xs2 g)

end

section
variable (c : Dev nD) (t : Fin cfg0.N) (h0 : ¬t.val % 8 = 0) (h1 : t.val % 8 = 7) (xs0 : Vec F S128x16x256 .bf16) (xs1 : Vec F S16x256 .f32) (xs2 : Vec F S16x256 .f32) (g : Vec F S16x2048x128 .f32)
include c t h0 h1 xs0 xs1 xs2 g

theorem RC_sum_rb :
    readBack scM0_1 (RC m c t h0 h1 xs0 xs1 xs2 g).1 = k0_pay23 (iblk m c 0 t) xs1 :=
  (View.read_writes_junk_eq_canon scM0_1.view (RC m c t h0 h1 xs0 xs1 xs2 g).1).trans (RC_sum m c t h0 h1 xs0 xs1 xs2 g)
theorem RC_sq_rb :
    readBack scM0_2 (RC m c t h0 h1 xs0 xs1 xs2 g).2.1 = k0_pay24 (iblk m c 0 t) xs2 :=
  (View.read_writes_junk_eq_canon scM0_2.view (RC m c t h0 h1 xs0 xs1 xs2 g).2.1).trans (RC_sq m c t h0 h1 xs0 xs1 xs2 g)

end

theorem mod_zero (hn : 0 < cfg0.N) : (⟨0, hn⟩ : Fin cfg0.N).val % 8 = 0 := Nat.zero_mod _
theorem mod_zero' (hn : 0 < cfg0.N) : ¬(⟨0, hn⟩ : Fin cfg0.N).val % 8 = 7 := by show ¬ ((0 : ℕ) % 8 = 7); decide
theorem mod_succ (n : ℕ) (hn : n + 1 < cfg0.N) : ¬(⟨n + 1, hn⟩ : Fin cfg0.N).val % 8 = 0 := by
  have hN : n + 1 < 8 := lt_of_lt_of_eq hn (show cfg0.N = 8 from N_0)
  show ¬ (n + 1) % 8 = 0; omega

theorem st3_zero (c : Dev nD) (hn : 0 < cfg0.N) :
    st3 m c 0 hn = (k0_pay21 (iblk m c 3 ⟨0, hn⟩), k0_pay23 (iblk m c 0 ⟨0, hn⟩) (k0_pay19 (F := F)),
      k0_pay24 (iblk m c 0 ⟨0, hn⟩) (k0_pay20 (F := F))) := by
  rw [st3_zero_def m c hn (mod_zero hn) (mod_zero' hn),
    RA_weights_rb m c ⟨0, hn⟩ (mod_zero hn) (mod_zero' hn) (pj (F := F)),
    RA_sum_rb m c ⟨0, hn⟩ (mod_zero hn) (mod_zero' hn) (pj (F := F)),
    RA_sq_rb m c ⟨0, hn⟩ (mod_zero hn) (mod_zero' hn) (pj (F := F))]

theorem st3_succ (c : Dev nD) (n : ℕ) (hn : n + 1 < cfg0.N) :
    st3 m c (n + 1) hn = ((st3 m c n (Nat.lt_of_succ_lt hn)).1,
      k0_pay23 (iblk m c 0 ⟨n + 1, hn⟩) (st3 m c n (Nat.lt_of_succ_lt hn)).2.1,
      k0_pay24 (iblk m c 0 ⟨n + 1, hn⟩) (st3 m c n (Nat.lt_of_succ_lt hn)).2.2) := by
  rw [st3_succ_def m c n hn (mod_succ n hn)]
  by_cases h1 : (n + 1) % 8 = 7
  · rw [dif_pos h1, RC_sum_rb m c ⟨n + 1, hn⟩ (mod_succ n hn) h1 (st3 m c n (Nat.lt_of_succ_lt hn)).1 (st3 m c n (Nat.lt_of_succ_lt hn)).2.1 (st3 m c n (Nat.lt_of_succ_lt hn)).2.2 (pj (F := F)),
      RC_sq_rb m c ⟨n + 1, hn⟩ (mod_succ n hn) h1 (st3 m c n (Nat.lt_of_succ_lt hn)).1 (st3 m c n (Nat.lt_of_succ_lt hn)).2.1 (st3 m c n (Nat.lt_of_succ_lt hn)).2.2 (pj (F := F))]
  · rw [dif_neg h1, RB_sum_rb m c ⟨n + 1, hn⟩ (mod_succ n hn) h1 (st3 m c n (Nat.lt_of_succ_lt hn)).1 (st3 m c n (Nat.lt_of_succ_lt hn)).2.1 (st3 m c n (Nat.lt_of_succ_lt hn)).2.2 (pj (F := F)),
      RB_sq_rb m c ⟨n + 1, hn⟩ (mod_succ n hn) h1 (st3 m c n (Nat.lt_of_succ_lt hn)).1 (st3 m c n (Nat.lt_of_succ_lt hn)).2.1 (st3 m c n (Nat.lt_of_succ_lt hn)).2.2 (pj (F := F))]

theorem st3_weights (c : Dev nD) : ∀ (n : ℕ) (hn : n < cfg0.N),
    (st3 m c n hn).1 = k0_pay21 (iblk m c 3 ⟨0, Nat.lt_of_le_of_lt (Nat.zero_le n) hn⟩)
  | 0, hn => congrArg Prod.fst (st3_zero m c hn)
  | n + 1, hn => (congrArg Prod.fst (st3_succ m c n hn)).trans (st3_weights c n (Nat.lt_of_succ_lt hn))

theorem st3_sum_zero (c : Dev nD) (hn : 0 < cfg0.N) :
    (st3 m c 0 hn).2.1 = k0_pay23 (iblk m c 0 ⟨0, hn⟩) (k0_pay19 (F := F)) :=
  congrArg (fun p => p.2.1) (st3_zero m c hn)
theorem st3_sq_zero (c : Dev nD) (hn : 0 < cfg0.N) :
    (st3 m c 0 hn).2.2 = k0_pay24 (iblk m c 0 ⟨0, hn⟩) (k0_pay20 (F := F)) :=
  congrArg (fun p => p.2.2) (st3_zero m c hn)
theorem st3_sum_succ (c : Dev nD) (n : ℕ) (hn : n + 1 < cfg0.N) :
    (st3 m c (n + 1) hn).2.1 = k0_pay23 (iblk m c 0 ⟨n + 1, hn⟩) (st3 m c n (Nat.lt_of_succ_lt hn)).2.1 :=
  congrArg (fun p => p.2.1) (st3_succ m c n hn)
theorem st3_sq_succ (c : Dev nD) (n : ℕ) (hn : n + 1 < cfg0.N) :
    (st3 m c (n + 1) hn).2.2 = k0_pay24 (iblk m c 0 ⟨n + 1, hn⟩) (st3 m c n (Nat.lt_of_succ_lt hn)).2.2 :=
  congrArg (fun p => p.2.2) (st3_succ m c n hn)

end Cert.KernelIdeal.H

end
-- ==== Proof.KI.ValueP.lean ====
import proofs.«135015_g2000502485364553_pallasbulk_1302_1_alg».proof.Proof.KI.Carry
import proofs.«135015_g2000502485364553_pallasbulk_1302_1_alg».proof.Proof.KI.Pieces
import proofs.«135015_g2000502485364553_pallasbulk_1302_1_alg».proof.Proof.KI.ValueChan
import proofs.«135015_g2000502485364553_pallasbulk_1302_1_alg».proof.Proof.KI.ValueBlocks
import proofs.«135015_g2000502485364553_pallasbulk_1302_1_alg».proof.Proof.KI.StatRec

set_option maxRecDepth 16384

noncomputable section

namespace Cert.KernelIdeal.HV

open Cert.KernelIdeal Cert.KernelIdeal.Gen Cert.KernelIdeal.H
open Idealize.ShloMosaic Idealize.ShloMosaic.TcCoe Idealize.ShloMosaic.ValueIdx
open Idealize.SL.Sem
open scoped BigOperators

section Generic

variable {F : FTy → Type} [FloatOps F]

theorem overWrite_plist_apply (M : Memref sig .tc .vmem S16x2048x128 .f32) (hM : M.IsWhole) (g : Vec F S16x2048x128 .f32)
    (i : grid0.Coords) (x : Vec F S256x16x256 .f32) (wb : Vec F S128x16x256 .bf16) (ch : Fin 16) (y : S1x256x128.Idx) :
    overWrite M hM g (plist i x wb) ((prect i ch).emb y) = chanBlock ch x (wslice wb ch) y := by
  refine View.read_writes_of_unique M.view (hM.unread g) (ppiece i x wb ch) y (plist i x wb)
    ((mem_plist_iff i x wb _).mpr ⟨ch, rfl⟩) ?_
  intro q hq hmem
  obtain ⟨ch', rfl⟩ := (mem_plist_iff i x wb q).mp hq
  have h : (((prect i ch).emb y) 0).val = ch'.val := ((mem_prect i ch' _).mp hmem).1
  have e0 : (((prect i ch).emb y) 0).val = ch.val + 1 * (y 0).val := rfl
  have hy : (y 0).val < 1 := (y 0).isLt
  have : ch' = ch := Fin.ext (by omega)
  rw [this]

theorem prect_emb (i : grid0.Coords) (ch : Fin 16) (r : Fin 256) (k : Fin 128) (b : Fin 2048)
    (hb : b.val = 256 * (i 0).val + r.val) :
    (prect i ch).emb (ix3 (0 : Fin 1) r k) = ix3 ch b k := by
  funext a
  refine Fin.ext ?_
  match a with
  | ⟨0, _⟩ => show ch.val + 1 * 0 = ch.val; omega
  | ⟨1, _⟩ => show 256 * (i 0).val + 1 * r.val = b.val; omega
  | ⟨2, _⟩ => show 0 + 1 * k.val = k.val; omega

theorem wslice_apply (wb : Vec F S128x16x256 .bf16) (ch : Fin 16) (k : Fin 128) (hw : Fin 256) :
    wslice wb ch (ix3 k (0 : Fin 1) hw) = wb (ix3 k ch hw) := by
  unfold wslice
  show wb ((Rect.unit (s := S128x16x256) ![0, ch.val, 0] ![128, 1, 256] (wrect_inb ch)).idx (ix3 k (0 : Fin 1) hw)) = _
  refine congrArg wb (funext fun a => Fin.ext ?_)
  match a with
  | ⟨0, _⟩ => show 0 + 1 * k.val = k.val; omega
  | ⟨1, _⟩ => show ch.val + 1 * 0 = ch.val; omega
  | ⟨2, _⟩ => show 0 + 1 * hw.val = hw.val; omega

end Generic

variable (m : (ℓ : Loc nD τ sig) → Buf (Elt Ideal) ℓ)

theorem pay21_apply (x : Vec Ideal S128x16x256 .f32) (i : S128x16x256.Idx) : (k0_pay21 x i : EReal) = (x i : EReal) :=
  (congrFun (shapeCast_self (truncf .bf16 (shapeCast S128x16x256 x shapeCasts_S128x16x256_S128x16x256) bitsLt_bf16_f32 : FVec Ideal S128x16x256 .bf16) shapeCasts_S128x16x256_S128x16x256) i).trans
    (congrFun (shapeCast_self x shapeCasts_S128x16x256_S128x16x256) i)

theorem pAt_eq_upd (c : Dev nD) : ∀ (n : ℕ) (hn : n < cfg0.N), ∃ g, pAt m c n hn = upd m c n hn g
  | 0, hn => ⟨pj (F := Ideal), rfl⟩
  | n + 1, hn => ⟨pAt m c n (Nat.lt_of_succ_lt hn), rfl⟩

theorem hit_value (c : Dev nD) (t : Fin cfg0.N) (wb : Vec Ideal S128x16x256 .bf16)
    (hwb : ∀ i : S128x16x256.Idx, (wb i : EReal) = (W3 m c i : EReal))
    (g : Vec Ideal S16x2048x128 .f32) (ch : Fin 16) (b : Fin 2048) (k : Fin 128) (r : Fin 256)
    (hb : b.val = 256 * t.val + r.val) :
    overWrite scM0_3 (Memref.isWhole_whole _) g (plist (grid0.coords t) (iblk m c 0 t) wb) (ix3 ch b k)
      = ∑ hw : Fin 256, (X3 m c (ix3 b ch hw) : EReal) * (W3 m c (ix3 k ch hw) : EReal) := by
  have hi : (grid0.coords t 0).val = t.val := coords_val t
  rw [← prect_emb (grid0.coords t) ch r k b (by rw [hi]; exact hb), overWrite_plist_apply]
  refine (chanBlock_apply ch _ _ r k).trans (Finset.sum_congr rfl fun hw _ => ?_)
  rw [xblk_apply m c t r ch hw b hb, wslice_apply, hwb]

theorem upd_apply (c : Dev nD)
    (hst : ∀ (n : ℕ) (hn : n < cfg0.N) (i : S128x16x256.Idx), ((st3 m c n hn).1 i : EReal) = (W3 m c i : EReal))
    (t : Fin cfg0.N) (g : Vec Ideal S16x2048x128 .f32) (ch : Fin 16) (b : Fin 2048) (k : Fin 128) (r : Fin 256)
    (hb : b.val = 256 * t.val + r.val) :
    upd m c t.val t.isLt g (ix3 ch b k)
      = ∑ hw : Fin 256, (X3 m c (ix3 b ch hw) : EReal) * (W3 m c (ix3 k ch hw) : EReal) := by
  have hN := lt_of_lt_of_eq t.isLt N8
  by_cases h0 : t.val % 8 = 0
  · have h1 : ¬ t.val % 8 = 7 := by omega
    rw [upd_A m c t h0 h1]
    unfold updA
    rw [show (RA m c t h0 h1 g).2.2.2.1 = plist (grid0.coords t) (iblk m c 0 t) (k0_pay21 (iblk m c 3 t)) from
      LS3_A_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) g]
    exact hit_value m c t _ (fun i => by rw [pay21_apply, wblk_eq]) g ch b k r hb
  · by_cases h1 : t.val % 8 = 7
    · rw [upd_C m c t h0 h1]
      unfold updC
      rw [show (RC m c t h0 h1 (st3 m c (t.val - 1) (Nat.lt_of_le_of_lt (Nat.sub_le _ _) t.isLt)).1 (st3 m c (t.val - 1) (Nat.lt_of_le_of_lt (Nat.sub_le _ _) t.isLt)).2.1 (st3 m c (t.val - 1) (Nat.lt_of_le_of_lt (Nat.sub_le _ _) t.isLt)).2.2 g).2.2.1 = plist (grid0.coords t) (iblk m c 0 t) (st3 m c (t.val - 1) (Nat.lt_of_le_of_lt (Nat.sub_le _ _) t.isLt)).1 from
        LS3_C_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (st3 m c (t.val - 1) (Nat.lt_of_le_of_lt (Nat.sub_le _ _) t.isLt)).1 (st3 m c (t.val - 1) (Nat.lt_of_le_of_lt (Nat.sub_le _ _) t.isLt)).2.1 (st3 m c (t.val - 1) (Nat.lt_of_le_of_lt (Nat.sub_le _ _) t.isLt)).2.2 g]
      exact hit_value m c t _ (hst _ _) g ch b k r hb
    · rw [upd_B m c t h0 h1]
      unfold updB
      rw [show (RB m c t h0 h1 (st3 m c (t.val - 1) (Nat.lt_of_le_of_lt (Nat.sub_le _ _) t.isLt)).1 (st3 m c (t.val - 1) (Nat.lt_of_le_of_lt (Nat.sub_le _ _) t.isLt)).2.1 (st3 m c (t.val - 1) (Nat.lt_of_le_of_lt (Nat.sub_le _ _) t.isLt)).2.2 g).2.2.1 = plist (grid0.coords t) (iblk m c 0 t) (st3 m c (t.val - 1) (Nat.lt_of_le_of_lt (Nat.sub_le _ _) t.isLt)).1 from
        LS3_B_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (st3 m c (t.val - 1) (Nat.lt_of_le_of_lt (Nat.sub_le _ _) t.isLt)).1 (st3 m c (t.val - 1) (Nat.lt_of_le_of_lt (Nat.sub_le _ _) t.isLt)).2.1 (st3 m c (t.val - 1) (Nat.lt_of_le_of_lt (Nat.sub_le _ _) t.isLt)).2.2 g]
      exact hit_value m c t _ (hst _ _) g ch b k r hb

theorem pfull_apply_of (c : Dev nD)
    (hst : ∀ (n : ℕ) (hn : n < cfg0.N) (i : S128x16x256.Idx), ((st3 m c n hn).1 i : EReal) = (W3 m c i : EReal))
    (ch : Fin 16) (b : Fin 2048) (k : Fin 128) :
    pfull m c (ix3 ch b k) = ∑ hw : Fin 256, (X3 m c (ix3 b ch hw) : EReal) * (W3 m c (ix3 k ch hw) : EReal) := by
  have hb8 : b.val / 256 < 8 := by have := b.isLt; omega
  have hr : b.val % 256 < 256 := Nat.mod_lt _ (by decide)
  have hb : b.val = 256 * (b.val / 256) + b.val % 256 := (Nat.div_add_mod b.val 256).symm
  have hrow : ((ix3 ch b k : S16x2048x128.Idx) 1).val < 256 * (b.val / 256 + 1) := by
    show b.val < 256 * (b.val / 256 + 1); omega
  rw [← pAt_pfull m c (b.val / 256) (by rw [N8]; exact hb8) _ hrow]
  obtain ⟨g, hg⟩ := pAt_eq_upd m c (b.val / 256) (by rw [N8]; exact hb8)
  rw [hg]
  exact upd_apply m c hst ⟨b.val / 256, by rw [N8]; exact hb8⟩ g ch b k ⟨b.val % 256, hr⟩ hb

theorem st3_weights_apply (c : Dev nD) (n : ℕ) (hn : n < cfg0.N) (i : S128x16x256.Idx) :
    ((st3 m c n hn).1 i : EReal) = (W3 m c i : EReal) := by
  rw [st3_weights m c n hn, pay21_apply, wblk_eq]

theorem pfull_apply (c : Dev nD) (ch : Fin 16) (b : Fin 2048) (k : Fin 128) :
    pfull m c (ix3 ch b k) = ∑ hw : Fin 256, (X3 m c (ix3 b ch hw) : EReal) * (W3 m c (ix3 k ch hw) : EReal) :=
  pfull_apply_of m c (st3_weights_apply m c) ch b k

end Cert.KernelIdeal.HV

end
-- ==== Proof.KI.PieceOut.lean ====
import proofs.«135015_g2000502485364553_pallasbulk_1302_1_alg».proof.Proof.KI.Pieces
import proofs.«135015_g2000502485364553_pallasbulk_1302_1_alg».proof.Proof.KI.State

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def outTerm (sum sq : Vec F S16x256 .f32) (g bt : Vec F S16x1 .f32) (bias : Vec F S1x128 .f32) (wb : Vec F S128x16x256 .bf16)
    (P : Vec F S16x2048x128 .f32) : FVec F S2048x128 .f32 :=
  k0_pay3 (k0_pay5 sum sq g)
    (k0_pay13 (k0_pay6 sum sq g bt) k0_pay7
      (k0_pay12 (k0_pay6 sum sq g bt) k0_pay7
        (k0_pay10 (k0_pay6 sum sq g bt) k0_pay7 (k0_pay8 sum sq g bt bias (View.ld wb (Rect.unit (s := S128x16x256) ![0, 0, 0] S128x1x256.size inb_S128x16x256_S128x1x256_0_0_0))) (k0_pay9 (View.ld wb (Rect.unit (s := S128x16x256) ![0, 1, 0] S128x1x256.size inb_S128x16x256_S128x1x256_0_1_0)))
          (View.ld wb (Rect.unit (s := S128x16x256) ![0, 2, 0] S128x1x256.size inb_S128x16x256_S128x1x256_0_2_0)) (View.ld wb (Rect.unit (s := S128x16x256) ![0, 3, 0] S128x1x256.size inb_S128x16x256_S128x1x256_0_3_0)) (View.ld wb (Rect.unit (s := S128x16x256) ![0, 4, 0] S128x1x256.size inb_S128x16x256_S128x1x256_0_4_0)) (View.ld wb (Rect.unit (s := S128x16x256) ![0, 5, 0] S128x1x256.size inb_S128x16x256_S128x1x256_0_5_0)))
        (k0_pay11 (k0_pay6 sum sq g bt) k0_pay7 (View.ld wb (Rect.unit (s := S128x16x256) ![0, 6, 0] S128x1x256.size inb_S128x16x256_S128x1x256_0_6_0)))
        (View.ld wb (Rect.unit (s := S128x16x256) ![0, 7, 0] S128x1x256.size inb_S128x16x256_S128x1x256_0_7_0)) (View.ld wb (Rect.unit (s := S128x16x256) ![0, 8, 0] S128x1x256.size inb_S128x16x256_S128x1x256_0_8_0)) (View.ld wb (Rect.unit (s := S128x16x256) ![0, 9, 0] S128x1x256.size inb_S128x16x256_S128x1x256_0_9_0)) (View.ld wb (Rect.unit (s := S128x16x256) ![0, 10, 0] S128x1x256.size inb_S128x16x256_S128x1x256_0_10_0)) (View.ld wb (Rect.unit (s := S128x16x256) ![0, 11, 0] S128x1x256.size inb_S128x16x256_S128x1x256_0_11_0)))
      (View.ld wb (Rect.unit (s := S128x16x256) ![0, 12, 0] S128x1x256.size inb_S128x16x256_S128x1x256_0_12_0)) (View.ld wb (Rect.unit (s := S128x16x256) ![0, 13, 0] S128x1x256.size inb_S128x16x256_S128x1x256_0_13_0)) (View.ld wb (Rect.unit (s := S128x16x256) ![0, 14, 0] S128x1x256.size inb_S128x16x256_S128x1x256_0_14_0)) (View.ld wb (Rect.unit (s := S128x16x256) ![0, 15, 0] S128x1x256.size inb_S128x16x256_S128x1x256_0_15_0)))
    (k0_pay18 (k0_pay5 sum sq g)
      (k0_pay15 (k0_pay5 sum sq g) (k0_pay14 (k0_pay5 sum sq g) (View.ld P (Rect.unit (s := S16x2048x128) ![0, 0, 0] S1x2048x128.size inb_S16x2048x128_S1x2048x128_0_0_0)) (View.ld P (Rect.unit (s := S16x2048x128) ![1, 0, 0] S1x2048x128.size inb_S16x2048x128_S1x2048x128_1_0_0)))
        (View.ld P (Rect.unit (s := S16x2048x128) ![2, 0, 0] S1x2048x128.size inb_S16x2048x128_S1x2048x128_2_0_0)) (View.ld P (Rect.unit (s := S16x2048x128) ![3, 0, 0] S1x2048x128.size inb_S16x2048x128_S1x2048x128_3_0_0)) (View.ld P (Rect.unit (s := S16x2048x128) ![4, 0, 0] S1x2048x128.size inb_S16x2048x128_S1x2048x128_4_0_0)) (View.ld P (Rect.unit (s := S16x2048x128) ![5, 0, 0] S1x2048x128.size inb_S16x2048x128_S1x2048x128_5_0_0)) (View.ld P (Rect.unit (s := S16x2048x128) ![6, 0, 0] S1x2048x128.size inb_S16x2048x128_S1x2048x128_6_0_0)) (View.ld P (Rect.unit (s := S16x2048x128) ![7, 0, 0] S1x2048x128.size inb_S16x2048x128_S1x2048x128_7_0_0)))
      (k0_pay16 (View.ld P (Rect.unit (s := S16x2048x128) ![8, 0, 0] S1x2048x128.size inb_S16x2048x128_S1x2048x128_8_0_0))) (k0_pay17 (k0_pay5 sum sq g))
      (View.ld P (Rect.unit (s := S16x2048x128) ![9, 0, 0] S1x2048x128.size inb_S16x2048x128_S1x2048x128_9_0_0)) (View.ld P (Rect.unit (s := S16x2048x128) ![10, 0, 0] S1x2048x128.size inb_S16x2048x128_S1x2048x128_10_0_0)) (View.ld P (Rect.unit (s := S16x2048x128) ![11, 0, 0] S1x2048x128.size inb_S16x2048x128_S1x2048x128_11_0_0)) (View.ld P (Rect.unit (s := S16x2048x128) ![12, 0, 0] S1x2048x128.size inb_S16x2048x128_S1x2048x128_12_0_0)) (View.ld P (Rect.unit (s := S16x2048x128) ![13, 0, 0] S1x2048x128.size inb_S16x2048x128_S1x2048x128_13_0_0)) (View.ld P (Rect.unit (s := S16x2048x128) ![14, 0, 0] S1x2048x128.size inb_S16x2048x128_S1x2048x128_14_0_0)))
    (View.ld P (Rect.unit (s := S16x2048x128) ![15, 0, 0] S1x2048x128.size inb_S16x2048x128_S1x2048x128_15_0_0))

theorem hz2 : (![0, 0] : Fin 2 → ℕ) = fun _ => 0 := by
  funext a; match a with | ⟨0, _⟩ => rfl | ⟨1, _⟩ => rfl

set_option maxHeartbeats 1000000 in

theorem LS1_C_eq (c : Dev nD) (i : grid0.Coords) (arg1 : Memref sig .tc .vmem S256x16x256 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S128x16x256 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S128x16x256 .bf16) (harg7 : arg7.IsWhole) (arg8 : Memref sig .tc .vmem S16x256 .f32) (harg8 : arg8.IsWhole) (arg9 : Memref sig .tc .vmem S16x256 .f32) (harg9 : arg9.IsWhole) (arg10 : Memref sig .tc .vmem S16x2048x128 .f32) (harg10 : arg10.IsWhole) (hc0 : ¬cond0_0 i) (hc1 : cond0_1 i)
    (x0 : Vec F S256x16x256 .f32) (x1 : Vec F S16x1 .f32) (x2 : Vec F S16x1 .f32) (x3 : Vec F S128x16x256 .f32) (x4 : Vec F S1x128 .f32) (xs0 : Vec F S128x16x256 .bf16) (xs1 : Vec F S16x256 .f32) (xs2 : Vec F S16x256 .f32) (xs3 : Vec F S16x2048x128 .f32) :
    (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).1 = [⟨Rect.unit (s := S16x256) ![0, 0] S16x256.size inb_S16x256_S16x256_0_0, k0_pay23 x0 xs1⟩] := by
  unfold kernelRun0_C
  dsimp only
  sl_unfold_words
  dsimp only
  simp only [View.readAt_eq_ld, harg1.read_unread, harg8.read_unread, View.ld_unit_zero (S := S256x16x256) hz3, View.ld_unit_zero (S := S16x256) hz2]

set_option maxHeartbeats 1000000 in

theorem LS2_C_eq (c : Dev nD) (i : grid0.Coords) (arg1 : Memref sig .tc .vmem S256x16x256 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S128x16x256 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S128x16x256 .bf16) (harg7 : arg7.IsWhole) (arg8 : Memref sig .tc .vmem S16x256 .f32) (harg8 : arg8.IsWhole) (arg9 : Memref sig .tc .vmem S16x256 .f32) (harg9 : arg9.IsWhole) (arg10 : Memref sig .tc .vmem S16x2048x128 .f32) (harg10 : arg10.IsWhole) (hc0 : ¬cond0_0 i) (hc1 : cond0_1 i)
    (x0 : Vec F S256x16x256 .f32) (x1 : Vec F S16x1 .f32) (x2 : Vec F S16x1 .f32) (x3 : Vec F S128x16x256 .f32) (x4 : Vec F S1x128 .f32) (xs0 : Vec F S128x16x256 .bf16) (xs1 : Vec F S16x256 .f32) (xs2 : Vec F S16x256 .f32) (xs3 : Vec F S16x2048x128 .f32) :
    (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.1 = [⟨Rect.unit (s := S16x256) ![0, 0] S16x256.size inb_S16x256_S16x256_0_0, k0_pay24 x0 xs2⟩] := by
  unfold kernelRun0_C
  dsimp only
  sl_unfold_words
  dsimp only
  simp only [View.readAt_eq_ld, harg1.read_unread, harg9.read_unread, View.ld_unit_zero (S := S256x16x256) hz3, View.ld_unit_zero (S := S16x256) hz2]

set_option maxHeartbeats 4000000 in

theorem LO_C_eq (c : Dev nD) (i : grid0.Coords) (arg1 : Memref sig .tc .vmem S256x16x256 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S128x16x256 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S128x16x256 .bf16) (harg7 : arg7.IsWhole) (arg8 : Memref sig .tc .vmem S16x256 .f32) (harg8 : arg8.IsWhole) (arg9 : Memref sig .tc .vmem S16x256 .f32) (harg9 : arg9.IsWhole) (arg10 : Memref sig .tc .vmem S16x2048x128 .f32) (harg10 : arg10.IsWhole) (hc0 : ¬cond0_0 i) (hc1 : cond0_1 i)
    (x0 : Vec F S256x16x256 .f32) (x1 : Vec F S16x1 .f32) (x2 : Vec F S16x1 .f32) (x3 : Vec F S128x16x256 .f32) (x4 : Vec F S1x128 .f32) (xs0 : Vec F S128x16x256 .bf16) (xs1 : Vec F S16x256 .f32) (xs2 : Vec F S16x256 .f32) (xs3 : Vec F S16x2048x128 .f32) :
    (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.2.2.1 = [⟨Rect.unit (s := S2048x128) ![0, 0] S2048x128.size inb_S2048x128_S2048x128_0_0,
      outTerm (k0_pay23 x0 xs1) (k0_pay24 x0 xs2) x1 x2 x4 xs0 (overWrite arg10 harg10 xs3 (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.2.1)⟩] := by
  unfold outTerm kernelRun0_C
  dsimp only
  sl_unfold_words
  dsimp only
  simp only [View.readCov_unit_zero (S := S16x256) _ hz2, View.readAt_eq_ld, harg1.read_unread, harg2.read_unread, harg3.read_unread, harg5.read_unread, harg7.read_unread, harg8.read_unread, harg9.read_unread,
    View.ld_unit_zero (S := S256x16x256) hz3, View.ld_unit_zero (S := S16x256) hz2, View.ld_unit_zero (S := S16x1) hz2, View.ld_unit_zero (S := S1x128) hz2]

theorem slices_cell (ch : Fin 16) : S16x1.Slices ![ch.val, 0] S1x1 :=
  ⟨rfl, fun a => by
    match a with
    | ⟨0, _⟩ => show ch.val + 1 ≤ 16; omega
    | ⟨1, _⟩ => show (0 : ℕ) + 1 ≤ 1; omega⟩

theorem slab_inb (ch : Fin 16) : ∀ a, (![ch.val, 0, 0] : Fin 3 → ℕ) a + S1x2048x128.size a ≤ S16x2048x128.size a := fun a => by
  match a with
  | ⟨0, _⟩ => show ch.val + 1 ≤ 16; omega
  | ⟨1, _⟩ => show (0 : ℕ) + 2048 ≤ 2048; omega
  | ⟨2, _⟩ => show (0 : ℕ) + 128 ≤ 128; omega

def slab (P : Vec F S16x2048x128 .f32) (ch : Fin 16) : Vec F S1x2048x128 .f32 :=
  View.ld P (Rect.unit (s := S16x2048x128) ![ch.val, 0, 0] S1x2048x128.size (slab_inb ch))

def wsl (wb : Vec F S128x16x256 .bf16) (ch : Fin 16) : Vec F S128x1x256 .bf16 :=
  View.ld wb (Rect.unit (s := S128x16x256) ![0, ch.val, 0] S128x1x256.size (wrect_inb ch))

def accStep (s : FVec F S16x1 .f32) (acc : FVec F S2048x128 .f32) (ch : Fin 16) (sl : Vec F S1x2048x128 .f32) : FVec F S2048x128 .f32 :=
  addf acc (mulf (shapeCast S2048x128 sl shapeCasts_S1x2048x128_S2048x128)
    (broadcastTo S2048x128 (extractStridedSlice S1x1 ![ch.val, 0] s (slices_cell ch)) broadcasts_S1x1_S2048x128))

def accUpTo (s : FVec F S16x1 .f32) (sl : Fin 16 → Vec F S1x2048x128 .f32) : (n : ℕ) → n ≤ 16 → FVec F S2048x128 .f32
  | 0, _ => broadcast S2048x128 (Scalar.ofBits .f32 0x00000000#32 : F .f32)
  | n + 1, h => accStep s (accUpTo s sl n (Nat.le_of_succ_le h)) ⟨n, h⟩ (sl ⟨n, h⟩)

def cstStep (t : FVec F S16x1 .f32) (acc : FVec F S1x128 .f32) (ch : Fin 16) (w : Vec F S128x1x256 .bf16) : FVec F S1x128 .f32 :=
  addf acc (mulf (broadcastTo S1x128 (extractStridedSlice S1x1 ![ch.val, 0] t (slices_cell ch)) broadcasts_S1x1_S1x128)
    (matmul dot_S1x256_S128x256_S1x128_1_1_0_0_n_n none (k0_pay7 (F := F)) (shapeCast S128x256 w shapeCasts_S128x1x256_S128x256)
      (constant S1x128 .f32 0x00000000#32)))

def cstUpTo (bias : Vec F S1x128 .f32) (t : FVec F S16x1 .f32) (w : Fin 16 → Vec F S128x1x256 .bf16) : (n : ℕ) → n ≤ 16 → FVec F S1x128 .f32
  | 0, _ => shapeCast S1x128 bias shapeCasts_S1x128_S1x128
  | n + 1, h => cstStep t (cstUpTo bias t w n (Nat.le_of_succ_le h)) ⟨n, h⟩ (w ⟨n, h⟩)

def withRow (acc : FVec F S2048x128 .f32) (row : FVec F S1x128 .f32) : FVec F S2048x128 .f32 :=
  addf acc (broadcastTo S2048x128 row broadcasts_S1x128_S2048x128)

set_option maxHeartbeats 1000000 in

theorem outTerm_eq (sum sq : Vec F S16x256 .f32) (g bt : Vec F S16x1 .f32) (bias : Vec F S1x128 .f32) (wb : Vec F S128x16x256 .bf16)
    (P : Vec F S16x2048x128 .f32) :
    outTerm sum sq g bt bias wb P
      = withRow (accUpTo (k0_pay5 sum sq g) (slab P) 16 le_rfl) (cstUpTo bias (k0_pay6 sum sq g bt) (wsl wb) 16 le_rfl) := rfl

end Cert.KernelIdeal.H

end
-- ==== Proof.KI.OutClosed.lean ====
import proofs.«135015_g2000502485364553_pallasbulk_1302_1_alg».proof.Proof.KI.Carry
import proofs.«135015_g2000502485364553_pallasbulk_1302_1_alg».proof.Proof.KI.PieceOut

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem readBack_whole2 {a b : ℕ} {e : EltTy} (M : Memref sig .tc .vmem ⟨2, ![a, b]⟩ e)
    (inb : ∀ ax, (![0, 0] : Fin 2 → ℕ) ax + (⟨2, ![a, b]⟩ : Shape).size ax ≤ (⟨2, ![a, b]⟩ : Shape).size ax)
    (w : (⟨2, ![a, b]⟩ : Shape).Idx → Elt F e) :
    readBack M [⟨Rect.unit (s := ⟨2, ![a, b]⟩) ![0, 0] (⟨2, ![a, b]⟩ : Shape).size inb, w⟩] = w := by
  show M.view.read (Elt F) (M.view.writes (Elt F) M.view.junk _) = w
  rw [View.read_writes_junk_eq_canon, View.canon_unit_zero hz2]

variable (c : Dev nD) (t : Fin cfg0.N) (h0 : ¬t.val % 8 = 0) (h1 : t.val % 8 = 7) (xs0 : Vec F S128x16x256 .bf16) (xs1 xs2 : Vec F S16x256 .f32) (g : Vec F S16x2048x128 .f32)

section
include c t h0 h1 xs0 xs1 xs2 g

theorem LS1_RC :
    (RC m c t h0 h1 xs0 xs1 xs2 g).1 = [⟨Rect.unit (s := S16x256) ![0, 0] S16x256.size inb_S16x256_S16x256_0_0, k0_pay23 (iblk m c 0 t) xs1⟩] :=
  LS1_C_eq ..
theorem LS2_RC :
    (RC m c t h0 h1 xs0 xs1 xs2 g).2.1 = [⟨Rect.unit (s := S16x256) ![0, 0] S16x256.size inb_S16x256_S16x256_0_0, k0_pay24 (iblk m c 0 t) xs2⟩] :=
  LS2_C_eq ..
theorem LO_RC :
    (RC m c t h0 h1 xs0 xs1 xs2 g).2.2.2.1 = [⟨Rect.unit (s := S2048x128) ![0, 0] S2048x128.size inb_S2048x128_S2048x128_0_0,
      outTerm (k0_pay23 (iblk m c 0 t) xs1) (k0_pay24 (iblk m c 0 t) xs2) (iblk m c 1 t) (iblk m c 2 t) (iblk m c 4 t) xs0 (updC m c t h0 h1 xs0 xs1 xs2 g)⟩] :=
  LO_C_eq ..

theorem rb1 :
    readBack scM0_1 (RC m c t h0 h1 xs0 xs1 xs2 g).1 = k0_pay23 (iblk m c 0 t) xs1 :=
  (congrArg (readBack scM0_1) (LS1_RC m c t h0 h1 xs0 xs1 xs2 g)).trans (readBack_whole2 scM0_1 _ _)
theorem rb2 :
    readBack scM0_2 (RC m c t h0 h1 xs0 xs1 xs2 g).2.1 = k0_pay24 (iblk m c 0 t) xs2 :=
  (congrArg (readBack scM0_2) (LS2_RC m c t h0 h1 xs0 xs1 xs2 g)).trans (readBack_whole2 scM0_2 _ _)
theorem rbO :
    readBack (ms0_5 t) (RC m c t h0 h1 xs0 xs1 xs2 g).2.2.2.1
      = outTerm (k0_pay23 (iblk m c 0 t) xs1) (k0_pay24 (iblk m c 0 t) xs2) (iblk m c 1 t) (iblk m c 2 t) (iblk m c 4 t) xs0 (updC m c t h0 h1 xs0 xs1 xs2 g) :=
  (congrArg (readBack (ms0_5 t)) (LO_RC m c t h0 h1 xs0 xs1 xs2 g)).trans (readBack_whole2 (ms0_5 t) _ _)

end

theorem st3_C' (c : Dev nD) (t : Fin cfg0.N) (h0 : ¬t.val % 8 = 0) (h1 : t.val % 8 = 7) :
    st3 m c t.val t.isLt = ((st3 m c (t.val - 1) (Nat.lt_of_le_of_lt (Nat.sub_le _ _) t.isLt)).1, k0_pay23 (iblk m c 0 t) (st3 m c (t.val - 1) (Nat.lt_of_le_of_lt (Nat.sub_le _ _) t.isLt)).2.1, k0_pay24 (iblk m c 0 t) (st3 m c (t.val - 1) (Nat.lt_of_le_of_lt (Nat.sub_le _ _) t.isLt)).2.2) :=
  (st3_C m c t h0 h1).trans (congrArg₂ (fun a b => ((st3 m c (t.val - 1) (Nat.lt_of_le_of_lt (Nat.sub_le _ _) t.isLt)).1, a, b)) (rb1 m c t h0 h1 _ _ _ _) (rb2 m c t h0 h1 _ _ _ _))

abbrev t7 : Fin cfg0.N := ⟨7, lt7⟩
theorem t7_h0 : ¬ (t7.val % 8 = 0) := by show ¬ ((7 : ℕ) % 8 = 0); decide
theorem t7_h1 : t7.val % 8 = 7 := by show (7 : ℕ) % 8 = 7; decide

theorem st3_last (c : Dev nD) :
    st3 m c 7 lt7 = ((st3 m c 6 lt6).1, k0_pay23 (iblk m c 0 t7) (st3 m c 6 lt6).2.1, k0_pay24 (iblk m c 0 t7) (st3 m c 6 lt6).2.2) :=
  st3_C' m c t7 t7_h0 t7_h1

theorem pfull_eq (c : Dev nD) :
    pfull m c = updC m c t7 t7_h0 t7_h1 (st3 m c 6 lt6).1 (st3 m c 6 lt6).2.1 (st3 m c 6 lt6).2.2 (pAt m c 6 lt6) :=
  congrFun (upd_C m c t7 t7_h0 t7_h1) (pAt m c 6 lt6)

theorem outOf_def (c : Dev nD) (g : Vec F S16x2048x128 .f32) :
    outOf m c g = readBack (ms0_5 t7) (RC m c t7 t7_h0 t7_h1 (st3 m c 6 lt6).1 (st3 m c 6 lt6).2.1 (st3 m c 6 lt6).2.2 g).2.2.2.1 := rfl

theorem outV_eq0 (c : Dev nD) :
    outV m c = outTerm (k0_pay23 (iblk m c 0 t7) (st3 m c 6 lt6).2.1) (k0_pay24 (iblk m c 0 t7) (st3 m c 6 lt6).2.2) (iblk m c 1 t7) (iblk m c 2 t7) (iblk m c 4 t7) (st3 m c 6 lt6).1
      (updC m c t7 t7_h0 t7_h1 (st3 m c 6 lt6).1 (st3 m c 6 lt6).2.1 (st3 m c 6 lt6).2.2 (pAt m c 6 lt6)) :=
  (outOf_def m c (pAt m c 6 lt6)).trans (rbO m c t7 t7_h0 t7_h1 _ _ _ _)

theorem outV_eq (c : Dev nD) :
    outV m c = outTerm (st3 m c 7 lt7).2.1 (st3 m c 7 lt7).2.2 (iblk m c 1 t7) (iblk m c 2 t7) (iblk m c 4 t7) (st3 m c 7 lt7).1 (pfull m c) := by
  have e := st3_last m c
  generalize st3 m c 7 lt7 = S at e ⊢
  subst e
  rw [pfull_eq]
  dsimp only
  exact outV_eq0 m c

end Cert.KernelIdeal.H

end
-- ==== Proof.KI.ValueWeights.lean ====
import proofs.«135015_g2000502485364553_pallasbulk_1302_1_alg».proof.Proof.KI.StatRec
import proofs.«135015_g2000502485364553_pallasbulk_1302_1_alg».proof.Proof.KI.ValueBlocks

set_option maxRecDepth 16384

noncomputable section

namespace Cert.KernelIdeal.HV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.H
open Idealize.ShloMosaic.ValueIdx

variable (m : (ℓ : Loc nD τ sig) → Buf (Elt Ideal) ℓ)

theorem pay21_ideal (x : Vec Ideal S128x16x256 .f32) : (k0_pay21 x : S128x16x256.Idx → EReal) = x := by
  show shapeCast S128x16x256 (shapeCast S128x16x256 x shapeCasts_S128x16x256_S128x16x256) shapeCasts_S128x16x256_S128x16x256 = x
  rw [shapeCast_self, shapeCast_self]

theorem weights_eq (c : Dev nD) (n : ℕ) (hn : n < cfg0.N) :
    ((st3 (F := Ideal) m c n hn).1 : S128x16x256.Idx → EReal) = W3 m c :=
  (st3_weights m c n hn).trans
    ((congrArg (fun X : Vec Ideal S128x16x256 .f32 => (k0_pay21 X : S128x16x256.Idx → EReal))
        (wblk_eq m c ⟨0, Nat.lt_of_le_of_lt (Nat.zero_le n) hn⟩)).trans (pay21_ideal (W3 m c)))

theorem weights_apply (c : Dev nD) (n : ℕ) (hn : n < cfg0.N) (i : S128x16x256.Idx) :
    ((st3 (F := Ideal) m c n hn).1 i : EReal) = W3 m c i :=
  congrFun (weights_eq m c n hn) i

end Cert.KernelIdeal.HV

end
-- ==== Proof.Spec.lean ====
import Mathlib.Data.EReal.Basic
import Mathlib.Algebra.BigOperators.Fin

noncomputable section

namespace Cert.Spec

open scoped BigOperators

def accFold (P s : Fin 16 → EReal) : (n : ℕ) → n ≤ 16 → EReal
  | 0, _ => 0
  | n + 1, h => accFold P s n (Nat.le_of_succ_le h) + P ⟨n, h⟩ * s ⟨n, h⟩

def cstFold (bias : EReal) (t ws : Fin 16 → EReal) : (n : ℕ) → n ≤ 16 → EReal
  | 0, _ => bias
  | n + 1, h => cstFold bias t ws n (Nat.le_of_succ_le h) + t ⟨n, h⟩ * ws ⟨n, h⟩

def outK (P s t ws : Fin 16 → EReal) (bias : EReal) : EReal :=
  accFold P s 16 le_rfl + cstFold bias t ws 16 le_rfl

def outR (P s t ws : Fin 16 → EReal) (bias : EReal) : EReal :=
  accFold P s 16 le_rfl + (bias + ∑ c : Fin 16, t c * ws c)

theorem cstFold_eq (bias : EReal) (t ws : Fin 16 → EReal) : ∀ (n : ℕ) (h : n ≤ 16),
    cstFold bias t ws n h = bias + ∑ c : Fin n, t (Fin.castLE h c) * ws (Fin.castLE h c)
  | 0, _ => by simp [cstFold]
  | n + 1, h => by
    rw [cstFold, cstFold_eq bias t ws n (Nat.le_of_succ_le h), Fin.sum_univ_castSucc, add_assoc]
    rfl

theorem outK_eq_outR (P s t ws : Fin 16 → EReal) (bias : EReal) : outK P s t ws bias = outR P s t ws bias := by
  unfold outK outR
  rw [cstFold_eq]
  rfl

end Cert.Spec

end
-- ==== Proof.KI.ValueOut.lean ====
import proofs.«135015_g2000502485364553_pallasbulk_1302_1_alg».proof.Proof.KI.OutClosed
import proofs.«135015_g2000502485364553_pallasbulk_1302_1_alg».proof.Proof.Ops
import proofs.«135015_g2000502485364553_pallasbulk_1302_1_alg».proof.Proof.KI.ValueBlocks
import proofs.«135015_g2000502485364553_pallasbulk_1302_1_alg».proof.Proof.KI.ValueWeights
import proofs.«135015_g2000502485364553_pallasbulk_1302_1_alg».proof.Proof.Spec
import Idealize.ShloMosaic.Lib.IdealHost

set_option maxRecDepth 16384

noncomputable section

namespace Cert.KernelIdeal.HV

open Cert.KernelIdeal Cert.KernelIdeal.Gen Cert.KernelIdeal.H
open Idealize.ShloMosaic Idealize.ShloMosaic.TcCoe Idealize.ShloMosaic.ValueIdx Idealize.SL.Sem
open scoped BigOperators

theorem slab_apply {F : FTy → Type} (P : Vec F S16x2048x128 .f32) (ch : Fin 16) (u : Fin 1) (b : Fin 2048) (k : Fin 128) :
    slab P ch (ix3 u b k) = P (ix3 ch b k) := by
  unfold slab
  refine congrArg P (funext fun a => Fin.ext ?_)
  have hu : u.val = 0 := by omega
  match a with
  | ⟨0, _⟩ => show ch.val + 1 * u.val = ch.val; omega
  | ⟨1, _⟩ => show 0 + 1 * b.val = b.val; omega
  | ⟨2, _⟩ => show 0 + 1 * k.val = k.val; omega

theorem wsl_apply {F : FTy → Type} (wb : Vec F S128x16x256 .bf16) (ch : Fin 16) (k : Fin 128) (u : Fin 1) (hw : Fin 256) :
    wsl wb ch (ix3 k u hw) = wb (ix3 k ch hw) := by
  unfold wsl
  refine congrArg wb (funext fun a => Fin.ext ?_)
  have hu : u.val = 0 := by omega
  match a with
  | ⟨0, _⟩ => show 0 + 1 * k.val = k.val; omega
  | ⟨1, _⟩ => show ch.val + 1 * u.val = ch.val; omega
  | ⟨2, _⟩ => show 0 + 1 * hw.val = hw.val; omega

theorem cell_apply {α : Type} (s : S16x1.Idx → α) (ch : Fin 16) :
    extractStridedSlice S1x1 ![ch.val, 0] s (slices_cell ch) (ix2 (0 : Fin 1) (0 : Fin 1)) = s (ix2 ch (0 : Fin 1)) :=
  slice2_axis0_apply ch.val s (slices_cell ch) (0 : Fin 1) (0 : Fin 1) ch (Nat.add_zero _).symm

theorem accStep_apply (s : FVec Ideal S16x1 .f32) (acc : FVec Ideal S2048x128 .f32) (ch : Fin 16) (sl : Vec Ideal S1x2048x128 .f32)
    (b : Fin 2048) (k : Fin 128) :
    accStep s acc ch sl (ix2 b k) = acc (ix2 b k) + sl (ix3 (0 : Fin 1) b k) * s (ix2 ch (0 : Fin 1)) := by
  unfold accStep
  rw [addf_apply, mulf_apply, shapeCast_1ab_ab_apply, broadcastTo_11_ab_apply, cell_apply]

theorem accUpTo_apply (s : FVec Ideal S16x1 .f32) (sl : Fin 16 → Vec Ideal S1x2048x128 .f32) (b : Fin 2048) (k : Fin 128) :
    ∀ (n : ℕ) (h : n ≤ 16), accUpTo s sl n h (ix2 b k)
      = Cert.Spec.accFold (fun ch => sl ch (ix3 (0 : Fin 1) b k)) (fun ch => s (ix2 ch (0 : Fin 1))) n h
  | 0, _ => by
    show Ideal.ofBits .f32 0x00000000#32 = 0
    exact Ideal.ofBits_zero_f32
  | n + 1, h => by
    rw [accUpTo, accStep_apply, accUpTo_apply s sl b k n (Nat.le_of_succ_le h), Cert.Spec.accFold]

theorem ones_apply (i : S1x256.Idx) : k0_pay7 (F := Ideal) i = 1 := by
  show Ideal.ofBits .bf16 0x3F80#16 = 1
  exact Ideal.ofBits_one_bf16

theorem cstStep_apply (t : FVec Ideal S16x1 .f32) (acc : FVec Ideal S1x128 .f32) (ch : Fin 16) (w : Vec Ideal S128x1x256 .bf16) (k : Fin 128) :
    cstStep t acc ch w (ix2 (0 : Fin 1) k)
      = acc (ix2 (0 : Fin 1) k) + t (ix2 ch (0 : Fin 1)) * ∑ hw : Fin 256, (w (ix3 k (0 : Fin 1) hw) : EReal) := by
  unfold cstStep
  rw [addf_apply, mulf_apply, broadcastTo_11_ab_apply, cell_apply]
  refine congrArg (fun z => acc (ix2 (0 : Fin 1) k) + t (ix2 ch (0 : Fin 1)) * z) ?_
  refine (matmulT_ones_apply dot_S1x256_S128x256_S1x128_1_1_0_0_n_n_wf none _ ones_apply _ (0 : Fin 1) k).trans ?_
  exact Finset.sum_congr rfl fun hw _ => shapeCast_a1b_ab_apply _ _ k hw

theorem cstUpTo_apply (bias : Vec Ideal S1x128 .f32) (t : FVec Ideal S16x1 .f32) (w : Fin 16 → Vec Ideal S128x1x256 .bf16) (k : Fin 128) :
    ∀ (n : ℕ) (h : n ≤ 16), cstUpTo bias t w n h (ix2 (0 : Fin 1) k)
      = Cert.Spec.cstFold (bias (ix2 (0 : Fin 1) k)) (fun ch => t (ix2 ch (0 : Fin 1)))
          (fun ch => ∑ hw : Fin 256, (w ch (ix3 k (0 : Fin 1) hw) : EReal)) n h
  | 0, _ => by
    show shapeCast S1x128 bias shapeCasts_S1x128_S1x128 (ix2 (0 : Fin 1) k) = bias (ix2 (0 : Fin 1) k)
    rw [shapeCast_self]
  | n + 1, h => by
    rw [cstUpTo, cstStep_apply, cstUpTo_apply bias t w k n (Nat.le_of_succ_le h), Cert.Spec.cstFold]

theorem outTerm_apply (sum sq : Vec Ideal S16x256 .f32) (g bt : Vec Ideal S16x1 .f32) (bias : Vec Ideal S1x128 .f32)
    (wb : Vec Ideal S128x16x256 .bf16) (P : Vec Ideal S16x2048x128 .f32) (b : Fin 2048) (k : Fin 128) :
    outTerm sum sq g bt bias wb P (ix2 b k)
      = Cert.Spec.outK (fun ch => P (ix3 ch b k)) (fun ch => k0_pay5 sum sq g (ix2 ch (0 : Fin 1)))
          (fun ch => k0_pay6 sum sq g bt (ix2 ch (0 : Fin 1))) (fun ch => ∑ hw : Fin 256, (wb (ix3 k ch hw) : EReal))
          (bias (ix2 (0 : Fin 1) k)) := by
  rw [outTerm_eq]
  unfold withRow Cert.Spec.outK
  rw [addf_apply, broadcastTo_1b_ab_apply, accUpTo_apply, cstUpTo_apply]
  refine congrArg₂ (· + ·) ?_ ?_
  · exact congrArg (fun P' => Cert.Spec.accFold P' _ 16 le_rfl) (funext fun ch => slab_apply P ch 0 b k)
  · exact congrArg (fun ws => Cert.Spec.cstFold _ _ ws 16 le_rfl)
      (funext fun ch => Finset.sum_congr rfl fun hw _ => wsl_apply wb ch k 0 hw)

section Out
variable (m : (ℓ : Loc nD τ sig) → Buf (Elt Ideal) ℓ)

theorem outV_apply (c : Dev nD) (b : Fin 2048) (k : Fin 128) :
    outV m c (ix2 b k)
      = Cert.Spec.outK (fun ch => pfull m c (ix3 ch b k))
          (fun ch => k0_pay5 (st3 m c 7 lt7).2.1 (st3 m c 7 lt7).2.2 (Gm m c) (ix2 ch (0 : Fin 1)))
          (fun ch => k0_pay6 (st3 m c 7 lt7).2.1 (st3 m c 7 lt7).2.2 (Gm m c) (Bt m c) (ix2 ch (0 : Fin 1)))
          (fun ch => ∑ hw : Fin 256, (W3 m c (ix3 k ch hw) : EReal))
          (Bi m c (ix2 (0 : Fin 1) k)) := by
  rw [outV_eq, outTerm_apply, gblk_eq, bblk_eq, biasblk_eq]
  refine congrArg (fun ws => Cert.Spec.outK _ _ _ ws _) ?_
  exact funext fun ch => Finset.sum_congr rfl fun hw _ => weights_apply m c 7 lt7 (ix3 k ch hw)

end Out

end Cert.KernelIdeal.HV

end
-- ==== Proof.RI.Entry.lean ====
import proofs.«135015_g2000502485364553_pallasbulk_1302_1_alg».proof.Proof.RI.Regions
import Idealize.ShloMosaic.Lib.StableHlo.Run

set_option maxRecDepth 16384

noncomputable section

namespace Cert.ReferenceIdeal.H

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V1_main_v0 (c : Dev nD) : V1 m ρ c main_v0
    = shapeCast S2048x16x256 (m ((c : Thread nD τ).loc main_arg0)) shapeCasts_S2048x16x16x16_S2048x16x256 := by
  show StableHlo.after hostOps0 (W0 m ρ c) (Proc.devRef .tc main_v0) = _
  after_results
  rfl
theorem V1_main_v1 (c : Dev nD) : V1 m ρ c main_v1
    = shapeCast S128x16x256 (m ((c : Thread nD τ).loc main_arg3)) shapeCasts_S128x4096_S128x16x256 := by
  show StableHlo.after hostOps0 (W0 m ρ c) (Proc.devRef .tc main_v1) = _
  after_results
  rfl
theorem V1_main_v2 (c : Dev nD) : V1 m ρ c main_v2
    = shapeCast S16x1 (m ((c : Thread nD τ).loc main_arg1)) shapeCasts_S16_S16x1 := by
  show StableHlo.after hostOps0 (W0 m ρ c) (Proc.devRef .tc main_v2) = _
  after_results
  rfl
theorem V1_main_v3 (c : Dev nD) : V1 m ρ c main_v3
    = shapeCast S16x1 (m ((c : Thread nD τ).loc main_arg2)) shapeCasts_S16_S16x1 := by
  show StableHlo.after hostOps0 (W0 m ρ c) (Proc.devRef .tc main_v3) = _
  after_results
  rfl

theorem V3_main_v4_0 (c : Dev nD) : V3 m ρ c main_v4_0 = (dat0 (V1 m ρ) c).arrAt 4 cfg0.N :=
  (StableHlo.after_of_writes_sub hostOps1 _ hostOps1_writes (by decide)).trans (W2_arr m ρ c 4)

theorem V3_main_v4_1 (c : Dev nD) : V3 m ρ c main_v4_1 = (dat0 (V1 m ρ) c).arrAt 5 cfg0.N :=
  (StableHlo.after_of_writes_sub hostOps1 _ hostOps1_writes (by decide)).trans (W2_arr m ρ c 5)

theorem W2_main_v4_2 (c : Dev nD) : W2 m ρ c (Proc.devRef .tc main_v4_2) = (dat0 (V1 m ρ) c).arrAt 6 cfg0.N :=
  W2_arr m ρ c 6

theorem W2_main_v1 (c : Dev nD) : W2 m ρ c (Proc.devRef .tc main_v1) = V1 m ρ c main_v1 :=
  (W2_arr m ρ c 3).trans (((dat0 (V1 m ρ) c).arrAt_in 3 rfl _).trans
    (show (dat0 (V1 m ρ) c).A 3 = V1 m ρ c (Pipeline.arrRef spec0 3) by dsimp only [dat0]))

theorem W2_main_arg4 (c : Dev nD) : W2 m ρ c (Proc.devRef .tc main_arg4) = m ((c : Thread nD τ).loc main_arg4) :=
  (W2_of_ne m ρ c main_arg4 (by decide)).trans
    ((StableHlo.after_of_writes_sub hostOps0 _ hostOps0_writes (by decide)).trans rfl)

def constRow (t : Vec F S16x1 .f32) (w3 : Vec F S128x16x256 .f32) (bias : Vec F S128 .f32) : Vec F S1x128 .f32 :=
  addf (shapeCast S1x128 bias shapeCasts_S128_S1x128)
    (Host.dotGeneral dot_S1x16_S16x128_S1x128_1_0_0_1_n_n (some ContractPrecision.fp32)
      (shapeCast S1x16 t shapeCasts_S16x1_S1x16)
      (transpose S16x128 [1, 0]
        (Host.reduceAdd w3 (constant S_ FTy.f32 0x00000000#32) reducesTo_S128x16x256_S128x16_d2 h_S_)
        transposes_S128x16_S16x128_1_0))

theorem V3_main_v10 (c : Dev nD) : V3 m ρ c main_v10
    = constRow ((dat0 (V1 m ρ) c).arrAt 6 cfg0.N) (V1 m ρ c main_v1) (m ((c : Thread nD τ).loc main_arg4)) := by
  show StableHlo.after hostOps1 (W2 m ρ c) (Proc.devRef .tc main_v10) = _
  after_results
  rw [W2_main_arg4, W2_main_v4_2, W2_main_v1]
  rfl

end Cert.ReferenceIdeal.H

end
-- ==== Proof.RI.ValueHost.lean ====
import proofs.«135015_g2000502485364553_pallasbulk_1302_1_alg».proof.Proof.Gen.ReferenceIdeal
import proofs.«135015_g2000502485364553_pallasbulk_1302_1_alg».proof.Proof.Ops

set_option maxRecDepth 16384

noncomputable section

namespace Cert.ReferenceIdeal.HV

open Cert.ReferenceIdeal Cert.ReferenceIdeal.Gen
open Idealize.ShloMosaic Idealize.SL.Sem Idealize.ShloMosaic.ValueIdx
open scoped BigOperators

section Generic
variable {F : FTy → Type} [FloatOps F]

def hostRow (W3 : FVec F S128x16x256 .f32) (T : FVec F S16x1 .f32) (Bias : FVec F S128 .f32) : FVec F S1x128 .f32 :=
  addf (shapeCast S1x128 Bias shapeCasts_S128_S1x128)
    (Host.dotGeneral dot_S1x16_S16x128_S1x128_1_0_0_1_n_n (some .fp32)
      (shapeCast S1x16 T shapeCasts_S16x1_S1x16)
      (transpose S16x128 [1, 0]
        (Host.reduceAdd W3 (constant (F := F) S_ .f32 0x00000000#32) reducesTo_S128x16x256_S128x16_d2 h_S_)
        transposes_S128x16_S16x128_1_0))

end Generic

theorem hostRow_apply (W3 : FVec Ideal S128x16x256 .f32) (T : FVec Ideal S16x1 .f32) (Bias : FVec Ideal S128 .f32)
    (u : Fin 1) (k : Fin 128) :
    hostRow W3 T Bias (ix2 u k)
      = Bias (ix1 k) + ∑ ch : Fin 16, T (ix2 ch (0 : Fin 1)) * ∑ hw : Fin 256, W3 (ix3 k ch hw) := by
  unfold hostRow
  rw [addf_apply, shapeCast_a_1a_apply]
  refine congrArg (Bias (ix1 k) + ·) ?_
  refine (dotGeneral_nn_apply dot_S1x16_S16x128_S1x128_1_0_0_1_n_n_wf (some .fp32) .single _ _ u k).trans ?_
  refine Finset.sum_congr rfl fun ch _ => ?_
  rw [shapeCast_a1_1a_apply, transpose_ix2_apply]
  refine congrArg (T (ix2 ch (0 : Fin 1)) * ·) ?_
  show Ideal.hostReduceAdd reducesTo_S128x16x256_S128x16_d2 W3 (Ideal.ofBits .f32 0x00000000#32) (ix2 k ch) = _
  rw [hostReduceAdd_last3_apply reducesTo_S128x16x256_S128x16_d2 (by decide), Ideal.ofBits_zero_f32, zero_add]

end Cert.ReferenceIdeal.HV

end
-- ==== Proof.RI.ValueChan.lean ====
import proofs.«135015_g2000502485364553_pallasbulk_1302_1_alg».proof.Proof.Gen.ReferenceIdeal.Skeleton
import proofs.«135015_g2000502485364553_pallasbulk_1302_1_alg».proof.Proof.Ops
import Idealize.ShloMosaic.Lib.Pipeline.FrameBody

set_option maxRecDepth 16384

noncomputable section

namespace Cert.ReferenceIdeal.HV

open Cert.ReferenceIdeal Cert.ReferenceIdeal.Gen
open Idealize.ShloMosaic Idealize.SL.Sem Idealize.ShloMosaic.ValueIdx
open scoped BigOperators

section Generic
variable {F : FTy → Type} [FloatOps F]

def refChan (xs : Vec F S256x1x256 .f32) (ws : Vec F S128x1x256 .f32) : FVec F S1x256x128 .f32 :=
  shapeCast S1x256x128
    (matmul dot_S256x256_S128x256_S256x128_1_1_0_0_n_n (some .fp32)
      (shapeCast S256x256 xs shapeCasts_S256x1x256_S256x256)
      (shapeCast S128x256 ws shapeCasts_S128x1x256_S128x256)
      (constant S256x128 .f32 0x00000000#32))
    shapeCasts_S256x128_S1x256x128

theorem pay_chan0 (xs : Vec F S256x1x256 .f32) (ws : Vec F S128x1x256 .f32) : k0_pay12 xs ws = refChan xs ws := rfl
theorem pay_chan1 (xs : Vec F S256x1x256 .f32) (ws : Vec F S128x1x256 .f32) : k0_pay13 xs ws = refChan xs ws := rfl
theorem pay_chan2 (xs : Vec F S256x1x256 .f32) (ws : Vec F S128x1x256 .f32) : k0_pay14 xs ws = refChan xs ws := rfl
theorem pay_chan3 (xs : Vec F S256x1x256 .f32) (ws : Vec F S128x1x256 .f32) : k0_pay15 xs ws = refChan xs ws := rfl
theorem pay_chan4 (xs : Vec F S256x1x256 .f32) (ws : Vec F S128x1x256 .f32) : k0_pay17 (k0_pay16 xs) ws = refChan xs ws := rfl
theorem pay_chan5 (xs : Vec F S256x1x256 .f32) (ws : Vec F S128x1x256 .f32) : k0_pay18 xs ws = refChan xs ws := rfl
theorem pay_chan6 (xs : Vec F S256x1x256 .f32) (ws : Vec F S128x1x256 .f32) : k0_pay19 xs ws = refChan xs ws := rfl
theorem pay_chan7 (xs : Vec F S256x1x256 .f32) (ws : Vec F S128x1x256 .f32) : k0_pay22 (k0_pay20 xs) (k0_pay21 ws) = refChan xs ws := rfl
theorem pay_chan8 (xs : Vec F S256x1x256 .f32) (ws : Vec F S128x1x256 .f32) : k0_pay23 xs ws = refChan xs ws := rfl
theorem pay_chan9 (xs : Vec F S256x1x256 .f32) (ws : Vec F S128x1x256 .f32) : k0_pay24 xs ws = refChan xs ws := rfl
theorem pay_chan10 (xs : Vec F S256x1x256 .f32) (ws : Vec F S128x1x256 .f32) : k0_pay26 (k0_pay25 xs ws) = refChan xs ws := rfl
theorem pay_chan11 (xs : Vec F S256x1x256 .f32) (ws : Vec F S128x1x256 .f32) : k0_pay27 xs ws = refChan xs ws := rfl
theorem pay_chan12 (xs : Vec F S256x1x256 .f32) (ws : Vec F S128x1x256 .f32) : k0_pay28 xs ws = refChan xs ws := rfl
theorem pay_chan13 (xs : Vec F S256x1x256 .f32) (ws : Vec F S128x1x256 .f32) : k0_pay1 (k0_pay29 xs ws) = refChan xs ws := rfl
theorem pay_chan14 (xs : Vec F S256x1x256 .f32) (ws : Vec F S128x1x256 .f32) : k0_pay2 xs ws = refChan xs ws := rfl
theorem pay_chan15 (xs : Vec F S256x1x256 .f32) (ws : Vec F S128x1x256 .f32) : k0_pay3 xs ws = refChan xs ws := rfl

end Generic

theorem refChan_apply (xs : Vec Ideal S256x1x256 .f32) (ws : Vec Ideal S128x1x256 .f32) (u : Fin 1) (r : Fin 256) (k : Fin 128) :
    refChan xs ws (ix3 u r k) = ∑ hw : Fin 256, xs (ix3 r (0 : Fin 1) hw) * ws (ix3 k (0 : Fin 1) hw) := by
  unfold refChan
  refine (shapeCast_ab_1ab_apply _ shapeCasts_S256x128_S1x256x128 u r k).trans ?_
  refine (matmul_nt_apply dot_S256x256_S128x256_S256x128_1_1_0_0_n_n_wf (some .fp32)
    (shapeCast S256x256 xs shapeCasts_S256x1x256_S256x256) (shapeCast S128x256 ws shapeCasts_S128x1x256_S128x256) r k).trans ?_
  refine Finset.sum_congr rfl fun hw _ => ?_
  rw [shapeCast_a1b_ab_apply, shapeCast_a1b_ab_apply]

section Slices
variable {F : FTy → Type} [FloatOps F]

theorem xsl_inb (ch : Fin 16) : ∀ a, (![0, ch.val, 0] : Fin 3 → Nat) a + S256x1x256.size a ≤ S256x16x256.size a := fun a => by
  match a with
  | ⟨0, _⟩ => show (0 : ℕ) + 256 ≤ 256; omega
  | ⟨1, _⟩ => show ch.val + 1 ≤ 16; omega
  | ⟨2, _⟩ => show (0 : ℕ) + 256 ≤ 256; omega

theorem wsl_inb (ch : Fin 16) : ∀ a, (![0, ch.val, 0] : Fin 3 → Nat) a + S128x1x256.size a ≤ S128x16x256.size a := fun a => by
  match a with
  | ⟨0, _⟩ => show (0 : ℕ) + 128 ≤ 128; omega
  | ⟨1, _⟩ => show ch.val + 1 ≤ 16; omega
  | ⟨2, _⟩ => show (0 : ℕ) + 256 ≤ 256; omega

def xsl (xblk : Vec F S256x16x256 .f32) (ch : Fin 16) : Vec F S256x1x256 .f32 :=
  View.ld xblk (Rect.unit (s := S256x16x256) ![0, ch.val, 0] S256x1x256.size (xsl_inb ch))

def wsl (w : Vec F S128x16x256 .f32) (ch : Fin 16) : Vec F S128x1x256 .f32 :=
  View.ld w (Rect.unit (s := S128x16x256) ![0, ch.val, 0] S128x1x256.size (wsl_inb ch))

theorem xsl_apply (xblk : Vec F S256x16x256 .f32) (ch : Fin 16) (r : Fin 256) (u : Fin 1) (hw : Fin 256) :
    xsl xblk ch (ix3 r u hw) = xblk (ix3 r ch hw) := by
  unfold xsl
  refine congrArg xblk (funext fun a => Fin.ext ?_)
  have hu : u.val = 0 := by omega
  match a with
  | ⟨0, _⟩ => show 0 + 1 * r.val = r.val; omega
  | ⟨1, _⟩ => show ch.val + 1 * u.val = ch.val; omega
  | ⟨2, _⟩ => show 0 + 1 * hw.val = hw.val; omega

theorem wsl_apply (w : Vec F S128x16x256 .f32) (ch : Fin 16) (k : Fin 128) (u : Fin 1) (hw : Fin 256) :
    wsl w ch (ix3 k u hw) = w (ix3 k ch hw) := by
  unfold wsl
  refine congrArg w (funext fun a => Fin.ext ?_)
  have hu : u.val = 0 := by omega
  match a with
  | ⟨0, _⟩ => show 0 + 1 * k.val = k.val; omega
  | ⟨1, _⟩ => show ch.val + 1 * u.val = ch.val; omega
  | ⟨2, _⟩ => show 0 + 1 * hw.val = hw.val; omega

end Slices

theorem refChan_slices_apply (xblk : Vec Ideal S256x16x256 .f32) (w : Vec Ideal S128x16x256 .f32) (ch : Fin 16)
    (u : Fin 1) (r : Fin 256) (k : Fin 128) :
    refChan (xsl xblk ch) (wsl w ch) (ix3 u r k) = ∑ hw : Fin 256, xblk (ix3 r ch hw) * w (ix3 k ch hw) := by
  rw [refChan_apply]
  refine Finset.sum_congr rfl fun hw _ => ?_
  rw [xsl_apply, wsl_apply]

end Cert.ReferenceIdeal.HV

end
-- ==== Proof.RI.ValueComb.lean ====
import proofs.«135015_g2000502485364553_pallasbulk_1302_1_alg».proof.Proof.Gen.ReferenceIdeal.Skeleton
import proofs.«135015_g2000502485364553_pallasbulk_1302_1_alg».proof.Proof.Spec
import proofs.«135015_g2000502485364553_pallasbulk_1302_1_alg».proof.Proof.Ops
import Idealize.ShloMosaic.Lib.Pipeline.FrameBody

set_option maxRecDepth 16384

noncomputable section

namespace Cert.ReferenceIdeal.HV

open Cert.ReferenceIdeal Cert.ReferenceIdeal.Gen
open Idealize.ShloMosaic Idealize.SL.Sem Idealize.ShloMosaic.ValueIdx
open scoped BigOperators

section Generic
variable {F : FTy → Type} [FloatOps F]

def accStep (acc : FVec F S256x128 .f32) (slab : Vec F S1x256x128 .f32) (cell : Vec F S1x1 .f32) : FVec F S256x128 .f32 :=
  addf acc (mulf (shapeCast S256x128 slab shapeCasts_S1x256x128_S256x128)
    (broadcastTo S256x128 (shapeCast S1x1 cell shapeCasts_S1x1_S1x1) broadcasts_S1x1_S256x128))

def accUpTo (P : Fin 16 → Vec F S1x256x128 .f32) (s : Fin 16 → Vec F S1x1 .f32) : (n : ℕ) → n ≤ 16 → FVec F S256x128 .f32
  | 0, _ => broadcast S256x128 (Scalar.ofBits .f32 0x00000000#32 : F .f32)
  | n + 1, h => accStep (accUpTo P s n (Nat.le_of_succ_le h)) (P ⟨n, h⟩) (s ⟨n, h⟩)

def withRow (acc : FVec F S256x128 .f32) (row : Vec F S1x128 .f32) : FVec F S256x128 .f32 :=
  addf acc (broadcastTo S256x128 (shapeCast S1x128 row shapeCasts_S1x128_S1x128) broadcasts_S1x128_S256x128)

theorem slab_inb (ch : Fin 16) : ∀ a, (![ch.val, 0, 0] : Fin 3 → Nat) a + S1x256x128.size a ≤ S16x256x128.size a := fun a => by
  match a with
  | ⟨0, _⟩ => show ch.val + 1 ≤ 16; omega
  | ⟨1, _⟩ => show (0 : ℕ) + 256 ≤ 256; omega
  | ⟨2, _⟩ => show (0 : ℕ) + 128 ≤ 128; omega

theorem cell_inb (ch : Fin 16) : ∀ a, (![ch.val, 0] : Fin 2 → Nat) a + S1x1.size a ≤ S16x1.size a := fun a => by
  match a with
  | ⟨0, _⟩ => show ch.val + 1 ≤ 16; omega
  | ⟨1, _⟩ => show (0 : ℕ) + 1 ≤ 1; omega

def slab (x0 : Vec F S16x256x128 .f32) (ch : Fin 16) : Vec F S1x256x128 .f32 :=
  View.ld x0 (Rect.unit (s := S16x256x128) ![ch.val, 0, 0] S1x256x128.size (slab_inb ch))

def cell (x1 : Vec F S16x1 .f32) (ch : Fin 16) : Vec F S1x1 .f32 :=
  View.ld x1 (Rect.unit (s := S16x1) ![ch.val, 0] S1x1.size (cell_inb ch))

def combTerm (x0 : Vec F S16x256x128 .f32) (x1 : Vec F S16x1 .f32) (x2 : Vec F S1x128 .f32) : FVec F S256x128 .f32 :=
  k1_pay1
    (k1_pay8
      (k1_pay5
        (k1_pay2
          (View.ld x0 (Rect.unit (s := S16x256x128) ![0, 0, 0] S1x256x128.size inb_S16x256x128_S1x256x128_0_0_0)) (View.ld x1 (Rect.unit (s := S16x1) ![0, 0] S1x1.size inb_S16x1_S1x1_0_0))
          (View.ld x0 (Rect.unit (s := S16x256x128) ![1, 0, 0] S1x256x128.size inb_S16x256x128_S1x256x128_1_0_0)) (View.ld x1 (Rect.unit (s := S16x1) ![1, 0] S1x1.size inb_S16x1_S1x1_1_0))
          (View.ld x0 (Rect.unit (s := S16x256x128) ![2, 0, 0] S1x256x128.size inb_S16x256x128_S1x256x128_2_0_0)) (View.ld x1 (Rect.unit (s := S16x1) ![2, 0] S1x1.size inb_S16x1_S1x1_2_0))
          (View.ld x0 (Rect.unit (s := S16x256x128) ![3, 0, 0] S1x256x128.size inb_S16x256x128_S1x256x128_3_0_0)) (View.ld x1 (Rect.unit (s := S16x1) ![3, 0] S1x1.size inb_S16x1_S1x1_3_0)))
        (k1_pay3 (View.ld x0 (Rect.unit (s := S16x256x128) ![4, 0, 0] S1x256x128.size inb_S16x256x128_S1x256x128_4_0_0))) (k1_pay4 (View.ld x1 (Rect.unit (s := S16x1) ![4, 0] S1x1.size inb_S16x1_S1x1_4_0)))
          (View.ld x0 (Rect.unit (s := S16x256x128) ![5, 0, 0] S1x256x128.size inb_S16x256x128_S1x256x128_5_0_0)) (View.ld x1 (Rect.unit (s := S16x1) ![5, 0] S1x1.size inb_S16x1_S1x1_5_0))
          (View.ld x0 (Rect.unit (s := S16x256x128) ![6, 0, 0] S1x256x128.size inb_S16x256x128_S1x256x128_6_0_0)) (View.ld x1 (Rect.unit (s := S16x1) ![6, 0] S1x1.size inb_S16x1_S1x1_6_0))
          (View.ld x0 (Rect.unit (s := S16x256x128) ![7, 0, 0] S1x256x128.size inb_S16x256x128_S1x256x128_7_0_0)) (View.ld x1 (Rect.unit (s := S16x1) ![7, 0] S1x1.size inb_S16x1_S1x1_7_0))
          (View.ld x0 (Rect.unit (s := S16x256x128) ![8, 0, 0] S1x256x128.size inb_S16x256x128_S1x256x128_8_0_0)) (View.ld x1 (Rect.unit (s := S16x1) ![8, 0] S1x1.size inb_S16x1_S1x1_8_0)))
      (k1_pay6 (View.ld x0 (Rect.unit (s := S16x256x128) ![9, 0, 0] S1x256x128.size inb_S16x256x128_S1x256x128_9_0_0))) (k1_pay7 (View.ld x1 (Rect.unit (s := S16x1) ![9, 0] S1x1.size inb_S16x1_S1x1_9_0)))
          (View.ld x0 (Rect.unit (s := S16x256x128) ![10, 0, 0] S1x256x128.size inb_S16x256x128_S1x256x128_10_0_0)) (View.ld x1 (Rect.unit (s := S16x1) ![10, 0] S1x1.size inb_S16x1_S1x1_10_0))
          (View.ld x0 (Rect.unit (s := S16x256x128) ![11, 0, 0] S1x256x128.size inb_S16x256x128_S1x256x128_11_0_0)) (View.ld x1 (Rect.unit (s := S16x1) ![11, 0] S1x1.size inb_S16x1_S1x1_11_0))
          (View.ld x0 (Rect.unit (s := S16x256x128) ![12, 0, 0] S1x256x128.size inb_S16x256x128_S1x256x128_12_0_0)) (View.ld x1 (Rect.unit (s := S16x1) ![12, 0] S1x1.size inb_S16x1_S1x1_12_0))
          (View.ld x0 (Rect.unit (s := S16x256x128) ![13, 0, 0] S1x256x128.size inb_S16x256x128_S1x256x128_13_0_0)) (View.ld x1 (Rect.unit (s := S16x1) ![13, 0] S1x1.size inb_S16x1_S1x1_13_0)))
    (k1_pay9 (View.ld x0 (Rect.unit (s := S16x256x128) ![14, 0, 0] S1x256x128.size inb_S16x256x128_S1x256x128_14_0_0))) (k1_pay10 (View.ld x1 (Rect.unit (s := S16x1) ![14, 0] S1x1.size inb_S16x1_S1x1_14_0)))
          (View.ld x0 (Rect.unit (s := S16x256x128) ![15, 0, 0] S1x256x128.size inb_S16x256x128_S1x256x128_15_0_0)) (View.ld x1 (Rect.unit (s := S16x1) ![15, 0] S1x1.size inb_S16x1_S1x1_15_0))
    (View.ld x2 (Rect.unit (s := S1x128) ![0, 0] S1x128.size inb_S1x128_S1x128_0_0))

theorem combTerm_eq (x0 : Vec F S16x256x128 .f32) (x1 : Vec F S16x1 .f32) (x2 : Vec F S1x128 .f32) :
    combTerm x0 x1 x2 = withRow (accUpTo (slab x0) (cell x1) 16 le_rfl)
      (View.ld x2 (Rect.unit (s := S1x128) ![0, 0] S1x128.size inb_S1x128_S1x128_0_0)) := rfl

end Generic

theorem slab_apply {F : FTy → Type} (x0 : Vec F S16x256x128 .f32) (ch : Fin 16) (u : Fin 1) (r : Fin 256) (k : Fin 128) :
    slab x0 ch (ix3 u r k) = x0 (ix3 ch r k) := by
  unfold slab
  refine congrArg x0 (funext fun a => Fin.ext ?_)
  have hu : u.val = 0 := by omega
  match a with
  | ⟨0, _⟩ => show ch.val + 1 * u.val = ch.val; omega
  | ⟨1, _⟩ => show 0 + 1 * r.val = r.val; omega
  | ⟨2, _⟩ => show 0 + 1 * k.val = k.val; omega

theorem cell_apply {F : FTy → Type} (x1 : Vec F S16x1 .f32) (ch : Fin 16) (u v : Fin 1) :
    cell x1 ch (ix2 u v) = x1 (ix2 ch (0 : Fin 1)) := by
  unfold cell
  refine congrArg x1 (funext fun a => Fin.ext ?_)
  have hu : u.val = 0 := by omega
  have hv : v.val = 0 := by omega
  match a with
  | ⟨0, _⟩ => show ch.val + 1 * u.val = ch.val; omega
  | ⟨1, _⟩ => show 0 + 1 * v.val = 0; omega

theorem row_ld (x2 : Vec Ideal S1x128 .f32) :
    View.ld x2 (Rect.unit (s := S1x128) ![0, 0] S1x128.size inb_S1x128_S1x128_0_0) = x2 :=
  View.ld_unit_zero (by funext a; fin_cases a <;> rfl) _ _

theorem accStep_apply (acc : FVec Ideal S256x128 .f32) (sl : Vec Ideal S1x256x128 .f32) (ce : Vec Ideal S1x1 .f32)
    (r : Fin 256) (k : Fin 128) :
    accStep acc sl ce (ix2 r k) = acc (ix2 r k) + sl (ix3 (0 : Fin 1) r k) * ce (ix2 (0 : Fin 1) (0 : Fin 1)) := by
  unfold accStep
  rw [addf_apply, mulf_apply, shapeCast_1ab_ab_apply, broadcastTo_11_ab_apply, shapeCast_self]

theorem accUpTo_apply (P : Fin 16 → Vec Ideal S1x256x128 .f32) (s : Fin 16 → Vec Ideal S1x1 .f32) (r : Fin 256) (k : Fin 128) :
    ∀ (n : ℕ) (h : n ≤ 16), accUpTo P s n h (ix2 r k)
      = Cert.Spec.accFold (fun ch => P ch (ix3 (0 : Fin 1) r k)) (fun ch => s ch (ix2 (0 : Fin 1) (0 : Fin 1))) n h
  | 0, _ => by
    show Ideal.ofBits .f32 0x00000000#32 = 0
    exact Ideal.ofBits_zero_f32
  | n + 1, h => by
    rw [accUpTo, accStep_apply, accUpTo_apply P s r k n (Nat.le_of_succ_le h), Cert.Spec.accFold]

theorem combTerm_apply (x0 : Vec Ideal S16x256x128 .f32) (x1 : Vec Ideal S16x1 .f32) (x2 : Vec Ideal S1x128 .f32)
    (r : Fin 256) (k : Fin 128) :
    combTerm x0 x1 x2 (ix2 r k)
      = Cert.Spec.accFold (fun ch => x0 (ix3 ch r k)) (fun ch => x1 (ix2 ch (0 : Fin 1))) 16 le_rfl + x2 (ix2 (0 : Fin 1) k) := by
  rw [combTerm_eq, row_ld]
  unfold withRow
  rw [addf_apply, broadcastTo_1b_ab_apply, shapeCast_self, accUpTo_apply]
  refine congrArg (· + x2 (ix2 (0 : Fin 1) k)) ?_
  refine congrArg₂ (fun P s => Cert.Spec.accFold P s 16 le_rfl) ?_ ?_
  · exact funext fun ch => slab_apply x0 ch 0 r k
  · exact funext fun ch => cell_apply x1 ch 0 0

end Cert.ReferenceIdeal.HV

end
-- ==== Proof.RI.Pieces0.lean ====
import Idealize.ShloMosaic.Lib.Pipeline.Value
import proofs.«135015_g2000502485364553_pallasbulk_1302_1_alg».proof.Proof.RI.State0
import proofs.«135015_g2000502485364553_pallasbulk_1302_1_alg».proof.Proof.RI.ValueChan
import proofs.«135015_g2000502485364553_pallasbulk_1302_1_alg».proof.Proof.RI.ValueComb

set_option maxRecDepth 16384

noncomputable section

namespace Cert.ReferenceIdeal.H

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz0_2 : (![0, 0] : Fin 2 → ℕ) = fun _ => 0 := by funext a; fin_cases a <;> rfl
theorem hz0_3 : (![0, 0, 0] : Fin 3 → ℕ) = fun _ => 0 := by funext a; fin_cases a <;> rfl

/-- Channel `ch`'s store: its product, into slab `ch` of the block. -/
def Pc (x0 : Vec F S256x16x256 .f32) (x3 : Vec F S128x16x256 .f32) (ch : Fin 16) : View.Piece (Elt F) S16x256x128 .f32 :=
  ⟨Rect.unit (s := S16x256x128) ![ch.val, 0, 0] S1x256x128.size (HV.slab_inb ch), HV.refChan (HV.xsl x0 ch) (HV.wsl x3 ch)⟩

def chans0 : List (Fin 16) := [15, 14, 13, 12, 11, 10, 9, 8, 7, 6, 5, 4, 3, 2, 1, 0]
theorem mem_chans0 : ∀ ch : Fin 16, ch ∈ chans0 := by decide

/-- The block the sixteen stores leave. -/
def Pblk (x0 : Vec F S256x16x256 .f32) (x3 : Vec F S128x16x256 .f32) : Vec F S16x256x128 .f32 :=
  View.canon (chans0.map (Pc x0 x3))

variable (c : Dev nD) (i : grid0.Coords) (arg1 : Memref sig .tc .vmem S256x16x256 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S128x16x256 .f32) (harg4 : arg4.IsWhole) (arg5 : Memref sig .tc .vmem S16x256x128 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x256 .f32) (harg8 : arg8.IsWhole) (arg9 : Memref sig .tc .vmem S16x256 .f32) (harg9 : arg9.IsWhole)

section
variable (hc0 : cond0_0 i) (hc1 : ¬cond0_1 i) (x0 : Vec F S256x16x256 .f32) (x1 : Vec F S16x1 .f32) (x2 : Vec F S16x1 .f32) (x3 : Vec F S128x16x256 .f32)
include c i arg1 harg1 arg2 harg2 arg3 harg3 arg4 harg4 arg5 harg5 arg6 harg6 arg7 harg7 arg8 harg8 arg9 harg9 hc0 hc1 x0 x1 x2 x3

theorem s1out0_A_eq :
    s1out0_A c i arg1 harg1 arg2 harg2 arg3 harg3 arg4 harg4 arg5 harg5 arg6 harg6 arg7 harg7 arg8 harg8 arg9 harg9 hc0 hc1 x0 x1 x2 x3 = k0_pay10 x0 k0_pay7 := by
  unfold s1out0_A
  rw [View.read_writes_eq_canon _ _ _ (scover0_A_1 c i arg1 harg1 arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S16x256) hz0_2]
  simp only [View.readAt_eq_ld, harg1.read_unread, harg2.read_unread, harg3.read_unread, harg4.read_unread, View.ld_unit_zero (S := S256x16x256) hz0_3, View.ld_unit_zero (S := S16x256) hz0_2, View.ld_unit_zero (S := S16x1) hz0_2, View.readCov_unit_zero (S := S16x256) _ hz0_2]

theorem s2out0_A_eq :
    s2out0_A c i arg1 harg1 arg2 harg2 arg3 harg3 arg4 harg4 arg5 harg5 arg6 harg6 arg7 harg7 arg8 harg8 arg9 harg9 hc0 hc1 x0 x1 x2 x3 = k0_pay11 x0 k0_pay8 := by
  unfold s2out0_A
  rw [View.read_writes_eq_canon _ _ _ (scover0_A_2 c i arg1 harg1 arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S16x256) hz0_2]
  simp only [View.readAt_eq_ld, harg1.read_unread, harg2.read_unread, harg3.read_unread, harg4.read_unread, View.ld_unit_zero (S := S256x16x256) hz0_3, View.ld_unit_zero (S := S16x256) hz0_2, View.ld_unit_zero (S := S16x1) hz0_2, View.readCov_unit_zero (S := S16x256) _ hz0_2]

theorem pout0_A_eq :
    pout0_A c i arg1 harg1 arg2 harg2 arg3 harg3 arg4 harg4 arg5 harg5 arg6 harg6 arg7 harg7 arg8 harg8 arg9 harg9 hc0 hc1 x0 x1 x2 x3 = Pblk x0 x3 := by
  unfold pout0_A
  rw [View.read_writes_eq_canon _ _ _ (cover0_A_P c i arg1 harg1 arg2 harg2 arg3 harg3 arg4 harg4 arg5 harg5 arg6 harg6 arg7 harg7 arg8 harg8 arg9 harg9 hc0 hc1 x0 x1 x2 x3)]
  unfold kernelRun0_A
  dsimp only
  sl_unfold_words
  simp only [View.readAt_eq_ld, harg1.read_unread, harg4.read_unread]
  rfl

end

section
variable (hc0 : ¬cond0_0 i) (hc1 : ¬cond0_1 i) (x0 : Vec F S256x16x256 .f32) (x1 : Vec F S16x1 .f32) (x2 : Vec F S16x1 .f32) (x3 : Vec F S128x16x256 .f32) (xs1 : Vec F S16x256 .f32) (xs2 : Vec F S16x256 .f32)
include c i arg1 harg1 arg2 harg2 arg3 harg3 arg4 harg4 arg5 harg5 arg6 harg6 arg7 harg7 arg8 harg8 arg9 harg9 hc0 hc1 x0 x1 x2 x3 xs1 xs2

theorem s1out0_B_eq :
    s1out0_B c i arg1 harg1 arg2 harg2 arg3 harg3 arg4 harg4 arg5 harg5 arg6 harg6 arg7 harg7 arg8 harg8 arg9 harg9 hc0 hc1 x0 x1 x2 x3 xs1 xs2 = k0_pay10 x0 xs1 := by
  unfold s1out0_B
  rw [View.read_writes_eq_canon _ _ _ (scover0_B_1 c i arg1 harg1 arg2 harg2 arg3 harg3 arg4 harg4 arg5 harg5 arg6 harg6 arg7 harg7 arg8 harg8 arg9 harg9 hc0 hc1 x0 x1 x2 x3 xs1 xs2)]
  unfold kernelRun0_B
  dsimp only
  sl_unfold_words
  rw [View.canon_unit_zero (S := S16x256) hz0_2]
  simp only [View.readAt_eq_ld, harg1.read_unread, harg2.read_unread, harg3.read_unread, harg4.read_unread, harg8.read_unread, harg9.read_unread, View.ld_unit_zero (S := S256x16x256) hz0_3, View.ld_unit_zero (S := S16x256) hz0_2, View.ld_unit_zero (S := S16x1) hz0_2, View.readCov_unit_zero (S := S16x256) _ hz0_2]

theorem s2out0_B_eq :
    s2out0_B c i arg1 harg1 arg2 harg2 arg3 harg3 arg4 harg4 arg5 harg5 arg6 harg6 arg7 harg7 arg8 harg8 arg9 harg9 hc0 hc1 x0 x1 x2 x3 xs1 xs2 = k0_pay11 x0 xs2 := by
  unfold s2out0_B
  rw [View.read_writes_eq_canon _ _ _ (scover0_B_2 c i arg1 harg1 arg2 harg2 arg3 harg3 arg4 harg4 arg5 harg5 arg6 harg6 arg7 harg7 arg8 harg8 arg9 harg9 hc0 hc1 x0 x1 x2 x3 xs1 xs2)]
  unfold kernelRun0_B
  dsimp only
  sl_unfold_words
  rw [View.canon_unit_zero (S := S16x256) hz0_2]
  simp only [View.readAt_eq_ld, harg1.read_unread, harg2.read_unread, harg3.read_unread, harg4.read_unread, harg8.read_unread, harg9.read_unread, View.ld_unit_zero (S := S256x16x256) hz0_3, View.ld_unit_zero (S := S16x256) hz0_2, View.ld_unit_zero (S := S16x1) hz0_2, View.readCov_unit_zero (S := S16x256) _ hz0_2]

theorem pout0_B_eq :
    pout0_B c i arg1 harg1 arg2 harg2 arg3 harg3 arg4 harg4 arg5 harg5 arg6 harg6 arg7 harg7 arg8 harg8 arg9 harg9 hc0 hc1 x0 x1 x2 x3 xs1 xs2 = Pblk x0 x3 := by
  unfold pout0_B
  rw [View.read_writes_eq_canon _ _ _ (cover0_B_P c i arg1 harg1 arg2 harg2 arg3 harg3 arg4 harg4 arg5 harg5 arg6 harg6 arg7 harg7 arg8 harg8 arg9 harg9 hc0 hc1 x0 x1 x2 x3 xs1 xs2)]
  unfold kernelRun0_B
  dsimp only
  sl_unfold_words
  simp only [View.readAt_eq_ld, harg1.read_unread, harg4.read_unread]
  rfl

end

section
variable (hc0 : ¬cond0_0 i) (hc1 : cond0_1 i) (x0 : Vec F S256x16x256 .f32) (x1 : Vec F S16x1 .f32) (x2 : Vec F S16x1 .f32) (x3 : Vec F S128x16x256 .f32) (xs1 : Vec F S16x256 .f32) (xs2 : Vec F S16x256 .f32)
include c i arg1 harg1 arg2 harg2 arg3 harg3 arg4 harg4 arg5 harg5 arg6 harg6 arg7 harg7 arg8 harg8 arg9 harg9 hc0 hc1 x0 x1 x2 x3 xs1 xs2

theorem s1out0_C_eq :
    s1out0_C c i arg1 harg1 arg2 harg2 arg3 harg3 arg4 harg4 arg5 harg5 arg6 harg6 arg7 harg7 arg8 harg8 arg9 harg9 hc0 hc1 x0 x1 x2 x3 xs1 xs2 = k0_pay10 x0 xs1 := by
  unfold s1out0_C
  rw [View.read_writes_eq_canon _ _ _ (scover0_C_1 c i arg1 harg1 arg2 harg2 arg3 harg3 arg4 harg4 arg5 harg5 arg6 harg6 arg7 harg7 arg8 harg8 arg9 harg9 hc0 hc1 x0 x1 x2 x3 xs1 xs2)]
  unfold kernelRun0_C
  dsimp only
  sl_unfold_words
  rw [View.canon_unit_zero (S := S16x256) hz0_2]
  simp only [View.readAt_eq_ld, harg1.read_unread, harg2.read_unread, harg3.read_unread, harg4.read_unread, harg8.read_unread, harg9.read_unread, View.ld_unit_zero (S := S256x16x256) hz0_3, View.ld_unit_zero (S := S16x256) hz0_2, View.ld_unit_zero (S := S16x1) hz0_2, View.readCov_unit_zero (S := S16x256) _ hz0_2]

theorem s2out0_C_eq :
    s2out0_C c i arg1 harg1 arg2 harg2 arg3 harg3 arg4 harg4 arg5 harg5 arg6 harg6 arg7 harg7 arg8 harg8 arg9 harg9 hc0 hc1 x0 x1 x2 x3 xs1 xs2 = k0_pay11 x0 xs2 := by
  unfold s2out0_C
  rw [View.read_writes_eq_canon _ _ _ (scover0_C_2 c i arg1 harg1 arg2 harg2 arg3 harg3 arg4 harg4 arg5 harg5 arg6 harg6 arg7 harg7 arg8 harg8 arg9 harg9 hc0 hc1 x0 x1 x2 x3 xs1 xs2)]
  unfold kernelRun0_C
  dsimp only
  sl_unfold_words
  rw [View.canon_unit_zero (S := S16x256) hz0_2]
  simp only [View.readAt_eq_ld, harg1.read_unread, harg2.read_unread, harg3.read_unread, harg4.read_unread, harg8.read_unread, harg9.read_unread, View.ld_unit_zero (S := S256x16x256) hz0_3, View.ld_unit_zero (S := S16x256) hz0_2, View.ld_unit_zero (S := S16x1) hz0_2, View.readCov_unit_zero (S := S16x256) _ hz0_2]

theorem pout0_C_eq :
    pout0_C c i arg1 harg1 arg2 harg2 arg3 harg3 arg4 harg4 arg5 harg5 arg6 harg6 arg7 harg7 arg8 harg8 arg9 harg9 hc0 hc1 x0 x1 x2 x3 xs1 xs2 = Pblk x0 x3 := by
  unfold pout0_C
  rw [View.read_writes_eq_canon _ _ _ (cover0_C_P c i arg1 harg1 arg2 harg2 arg3 harg3 arg4 harg4 arg5 harg5 arg6 harg6 arg7 harg7 arg8 harg8 arg9 harg9 hc0 hc1 x0 x1 x2 x3 xs1 xs2)]
  unfold kernelRun0_C
  dsimp only
  sl_unfold_words
  simp only [View.readAt_eq_ld, harg1.read_unread, harg4.read_unread]
  rfl

theorem sout0_C_eq :
    sout0_C c i arg1 harg1 arg2 harg2 arg3 harg3 arg4 harg4 arg5 harg5 arg6 harg6 arg7 harg7 arg8 harg8 arg9 harg9 hc0 hc1 x0 x1 x2 x3 xs1 xs2 = k0_pay5 (k0_pay10 x0 xs1) (k0_pay11 x0 xs2) x1 := by
  unfold sout0_C
  rw [View.read_writes_eq_canon _ _ _ (cover0_C_s c i arg1 harg1 arg2 harg2 arg3 harg3 arg4 harg4 arg5 harg5 arg6 harg6 arg7 harg7 arg8 harg8 arg9 harg9 hc0 hc1 x0 x1 x2 x3 xs1 xs2)]
  unfold kernelRun0_C
  dsimp only
  sl_unfold_words
  rw [View.canon_unit_zero (S := S16x1) hz0_2]
  simp only [View.readAt_eq_ld, harg1.read_unread, harg2.read_unread, harg3.read_unread, harg4.read_unread, harg8.read_unread, harg9.read_unread, View.ld_unit_zero (S := S256x16x256) hz0_3, View.ld_unit_zero (S := S16x256) hz0_2, View.ld_unit_zero (S := S16x1) hz0_2, View.readCov_unit_zero (S := S16x256) _ hz0_2]

theorem tout0_C_eq :
    tout0_C c i arg1 harg1 arg2 harg2 arg3 harg3 arg4 harg4 arg5 harg5 arg6 harg6 arg7 harg7 arg8 harg8 arg9 harg9 hc0 hc1 x0 x1 x2 x3 xs1 xs2 = k0_pay6 (k0_pay10 x0 xs1) (k0_pay11 x0 xs2) x1 x2 := by
  unfold tout0_C
  rw [View.read_writes_eq_canon _ _ _ (cover0_C_t c i arg1 harg1 arg2 harg2 arg3 harg3 arg4 harg4 arg5 harg5 arg6 harg6 arg7 harg7 arg8 harg8 arg9 harg9 hc0 hc1 x0 x1 x2 x3 xs1 xs2)]
  unfold kernelRun0_C
  dsimp only
  sl_unfold_words
  rw [View.canon_unit_zero (S := S16x1) hz0_2]
  simp only [View.readAt_eq_ld, harg1.read_unread, harg2.read_unread, harg3.read_unread, harg4.read_unread, harg8.read_unread, harg9.read_unread, View.ld_unit_zero (S := S256x16x256) hz0_3, View.ld_unit_zero (S := S16x256) hz0_2, View.ld_unit_zero (S := S16x1) hz0_2, View.readCov_unit_zero (S := S16x256) _ hz0_2]

end

section Tiles

variable (V : (c : Dev nD) → (b : Ref sig .tc) → Buf (Elt F) ((c : Thread nD τ).loc b))

theorem outsAt0_P (c : Dev nD) (t : Fin cfg0.N) :
    (outsAt0 V c t.val t.isLt).1 = Pblk (iblk0 V c 0 t) (iblk0 V c 3 t) := by
  have hN : t.val < 8 := lt_of_lt_of_eq t.isLt (show cfg0.N = 8 from N_0)
  by_cases h0 : t.val % 8 = 0
  · have h1 : ¬t.val % 8 = 7 := by omega
    rw [outsAt0_A V c t h0 h1]; dsimp only [outs0_A]
    exact pout0_A_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)
  · by_cases h1 : t.val % 8 = 7
    · rw [outsAt0_C V c t h0 h1]; dsimp only [outs0_C]
      exact pout0_C_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
    · rw [outsAt0_B V c t h0 h1]; dsimp only [outs0_B]
      exact pout0_B_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

theorem outsAt0_sum_first (c : Dev nD) (t : Fin cfg0.N) (h0 : t.val % 8 = 0) :
    (outsAt0 V c t.val t.isLt).2.2.2.1 = k0_pay10 (iblk0 V c 0 t) k0_pay7 := by
  have hN : t.val < 8 := lt_of_lt_of_eq t.isLt (show cfg0.N = 8 from N_0)
  have h1 : ¬t.val % 8 = 7 := by omega
  rw [outsAt0_A V c t h0 h1]; dsimp only [outs0_A]
  exact s1out0_A_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)

theorem outsAt0_sum_next (c : Dev nD) (t : Fin cfg0.N) (h0 : ¬t.val % 8 = 0) :
    (outsAt0 V c t.val t.isLt).2.2.2.1 = k0_pay10 (iblk0 V c 0 t) (outsAt0 V c (t.val - 1) (Nat.lt_of_le_of_lt (Nat.sub_le _ _) t.isLt)).2.2.2.1 := by
  by_cases h1 : t.val % 8 = 7
  · rw [outsAt0_C V c t h0 h1]; dsimp only [outs0_C]
    exact s1out0_C_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
  · rw [outsAt0_B V c t h0 h1]; dsimp only [outs0_B]
    exact s1out0_B_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

theorem outsAt0_sumsq_first (c : Dev nD) (t : Fin cfg0.N) (h0 : t.val % 8 = 0) :
    (outsAt0 V c t.val t.isLt).2.2.2.2 = k0_pay11 (iblk0 V c 0 t) k0_pay8 := by
  have hN : t.val < 8 := lt_of_lt_of_eq t.isLt (show cfg0.N = 8 from N_0)
  have h1 : ¬t.val % 8 = 7 := by omega
  rw [outsAt0_A V c t h0 h1]; dsimp only [outs0_A]
  exact s2out0_A_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)

theorem outsAt0_sumsq_next (c : Dev nD) (t : Fin cfg0.N) (h0 : ¬t.val % 8 = 0) :
    (outsAt0 V c t.val t.isLt).2.2.2.2 = k0_pay11 (iblk0 V c 0 t) (outsAt0 V c (t.val - 1) (Nat.lt_of_le_of_lt (Nat.sub_le _ _) t.isLt)).2.2.2.2 := by
  by_cases h1 : t.val % 8 = 7
  · rw [outsAt0_C V c t h0 h1]; dsimp only [outs0_C]
    exact s2out0_C_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
  · rw [outsAt0_B V c t h0 h1]; dsimp only [outs0_B]
    exact s2out0_B_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

theorem outsAt0_s_last (c : Dev nD) (t : Fin cfg0.N) (h1 : t.val % 8 = 7) :
    (outsAt0 V c t.val t.isLt).2.1
      = k0_pay5 (outsAt0 V c t.val t.isLt).2.2.2.1 (outsAt0 V c t.val t.isLt).2.2.2.2 (iblk0 V c 1 t) := by
  have h0 : ¬t.val % 8 = 0 := by omega
  rw [outsAt0_sum_next V c t h0, outsAt0_sumsq_next V c t h0]
  rw [outsAt0_C V c t h0 h1]; dsimp only [outs0_C]
  exact sout0_C_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

theorem outsAt0_t_last (c : Dev nD) (t : Fin cfg0.N) (h1 : t.val % 8 = 7) :
    (outsAt0 V c t.val t.isLt).2.2.1
      = k0_pay6 (outsAt0 V c t.val t.isLt).2.2.2.1 (outsAt0 V c t.val t.isLt).2.2.2.2 (iblk0 V c 1 t) (iblk0 V c 2 t) := by
  have h0 : ¬t.val % 8 = 0 := by omega
  rw [outsAt0_sum_next V c t h0, outsAt0_sumsq_next V c t h0]
  rw [outsAt0_C V c t h0 h1]; dsimp only [outs0_C]
  exact tout0_C_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

end Tiles

end Cert.ReferenceIdeal.H

end
-- ==== Proof.RI.ValueArr0.lean ====
import proofs.«135015_g2000502485364553_pallasbulk_1302_1_alg».proof.Proof.RI.Body0
import proofs.«135015_g2000502485364553_pallasbulk_1302_1_alg».proof.Proof.RI.Pieces0
import proofs.«135015_g2000502485364553_pallasbulk_1302_1_alg».proof.Proof.RI.ValueChan
import proofs.«135015_g2000502485364553_pallasbulk_1302_1_alg».proof.Proof.RI.ValueComb

set_option maxRecDepth 16384

noncomputable section

namespace Cert.ReferenceIdeal.HV

open Cert.ReferenceIdeal Cert.ReferenceIdeal.Gen
open Idealize.ShloMosaic Idealize.ShloMosaic.TcCoe Idealize.SL.Sem Idealize.ShloMosaic.ValueIdx
open Idealize.ShloMosaic.Pipeline (Dat Cfg Window)
open scoped BigOperators

theorem idx3_lt0 {n0 n1 n2 : ℕ} (j : (⟨3, ![n0, n1, n2]⟩ : Shape).Idx) : (j 0).val < n0 := (j 0).isLt
theorem idx3_lt1 {n0 n1 n2 : ℕ} (j : (⟨3, ![n0, n1, n2]⟩ : Shape).Idx) : (j 1).val < n1 := (j 1).isLt
theorem idx3_lt2 {n0 n1 n2 : ℕ} (j : (⟨3, ![n0, n1, n2]⟩ : Shape).Idx) : (j 2).val < n2 := (j 2).isLt

/-- A tile's products block at an entry: every store is a block of one function of the index, so the block is that function. -/
theorem Pblk_apply (x0 : Vec Ideal S256x16x256 .f32) (x3 : Vec Ideal S128x16x256 .f32) (ch : Fin 16) (r : Fin 256) (k : Fin 128) :
    H.Pblk x0 x3 (ix3 ch r k) = ∑ hw : Fin 256, x0 (ix3 r ch hw) * x3 (ix3 k ch hw) := by
  refine (View.canon_apply_of_pieces (fun j : S16x256x128.Idx => ∑ hw : Fin 256,
      x0 (ix3 ⟨(j 1).val, idx3_lt1 j⟩ ⟨(j 0).val, idx3_lt0 j⟩ hw) * x3 (ix3 ⟨(j 2).val, idx3_lt2 j⟩ ⟨(j 0).val, idx3_lt0 j⟩ hw))
    _ (fun p hp x => ?_) (ix3 ch r k) ⟨H.Pc x0 x3 ch, List.mem_map.mpr ⟨ch, H.mem_chans0 ch, rfl⟩, ?_⟩).trans rfl
  · obtain ⟨ch', -, rfl⟩ := List.mem_map.mp hp
    obtain ⟨u, r', k', rfl⟩ : ∃ (u : Fin 1) (r' : Fin 256) (k' : Fin 128), x = ix3 u r' k' := ⟨x 0, x 1, x 2, eq_ix3 x⟩
    have hu : u.val = 0 := by omega
    refine (refChan_slices_apply x0 x3 ch' u r' k').trans (Finset.sum_congr rfl fun hw _ => ?_)
    have e0 : ch' = ⟨((H.Pc x0 x3 ch').1.emb (ix3 u r' k') 0).val, idx3_lt0 _⟩ := Fin.ext (show ch'.val = ch'.val + 1 * u.val by omega)
    have e1 : r' = ⟨((H.Pc x0 x3 ch').1.emb (ix3 u r' k') 1).val, idx3_lt1 _⟩ := Fin.ext (show r'.val = 0 + 1 * r'.val by omega)
    have e2 : k' = ⟨((H.Pc x0 x3 ch').1.emb (ix3 u r' k') 2).val, idx3_lt2 _⟩ := Fin.ext (show k'.val = 0 + 1 * k'.val by omega)
    exact congrArg₂ (· * ·) (congrArg x0 (by rw [← e0, ← e1])) (congrArg x3 (by rw [← e0, ← e2]))
  · show ix3 ch r k ∈ (Rect.unit (s := S16x256x128) ![ch.val, 0, 0] S1x256x128.size (slab_inb ch)).set
    rw [Rect.mem_set_unit]
    intro a
    match a with
    | ⟨0, _⟩ => show ch.val ≤ ch.val ∧ ch.val < ch.val + 1; omega
    | ⟨1, _⟩ => show 0 ≤ r.val ∧ r.val < 0 + 256; omega
    | ⟨2, _⟩ => show 0 ≤ k.val ∧ k.val < 0 + 128; omega

def pFn (X3 : S2048x16x256.Idx → EReal) (W3 : S128x16x256.Idx → EReal) : S16x2048x128.Idx → EReal :=
  fun i => ∑ hw : Fin 256, X3 (ix3 ⟨(i 1).val, idx3_lt1 i⟩ ⟨(i 0).val, idx3_lt0 i⟩ hw)
    * W3 (ix3 ⟨(i 2).val, idx3_lt2 i⟩ ⟨(i 0).val, idx3_lt0 i⟩ hw)

theorem pFn_apply (X3 : S2048x16x256.Idx → EReal) (W3 : S128x16x256.Idx → EReal) (ch : Fin 16) (b : Fin 2048) (k : Fin 128) :
    pFn X3 W3 (ix3 ch b k) = ∑ hw : Fin 256, X3 (ix3 b ch hw) * W3 (ix3 k ch hw) := rfl

section Arr0

variable (V : (c : Dev nD) → (b : Ref sig .tc) → Buf (Elt Ideal) ((c : Thread nD τ).loc b))

theorem idx_facts0 : ∀ t : Fin cfg0.N,
    win0_0.index t (0 : Fin 3) = t.val ∧ win0_0.index t (1 : Fin 3) = 0 ∧ win0_0.index t (2 : Fin 3) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = t.val ∧ win0_4.index t (2 : Fin 3) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem flushed0_4_eq (c : Dev nD) (t : Fin cfg0.N) :
    (H.dat0 V c).flushed 4 t = ((cfg0.win 4).blk t).view.read (Elt Ideal) (pFn (V c main_v0) (V c main_v1)) := by
  show (cfg0.win 4).cut (grid0.coords t) ((H.dat0 V c).after 4 t) = _
  rw [H.after0_4, H.outsAt0_P]
  obtain ⟨e0, e1, e2, e3, e4, e5, e6, e7, e8, -, -, -, -⟩ := idx_facts0 t
  funext j
  obtain ⟨ch, r, k, rfl⟩ : ∃ (ch : Fin 16) (r : Fin 256) (k : Fin 128), j = ix3 ch r k := ⟨j 0, j 1, j 2, eq_ix3 j⟩
  show H.Pblk (H.iblk0 V c 0 t) (H.iblk0 V c 3 t) (ix3 ch r k)
    = pFn (V c main_v0) (V c main_v1) (((cfg0.win 4).blk t).view.emb (ix3 ch r k))
  refine (Pblk_apply (H.iblk0 V c 0 t) (H.iblk0 V c 3 t) ch r k).trans ?_
  unfold pFn
  refine Finset.sum_congr rfl fun hw _ => congrArg₂ (· * ·) ?_ ?_
  · show V c main_v0 (((cfg0.win 0).blk t).view.emb (ix3 r ch hw)) = _
    refine congrArg (V c main_v0) (funext fun a => Fin.ext ?_)
    match a with
    | ⟨0, _⟩ => show win0_0.index t (0 : Fin 3) * 256 + 1 * r.val = win0_4.index t (1 : Fin 3) * 256 + 1 * r.val; omega
    | ⟨1, _⟩ => show win0_0.index t (1 : Fin 3) * 16 + 1 * ch.val = win0_4.index t (0 : Fin 3) * 16 + 1 * ch.val; omega
    | ⟨2, _⟩ => show win0_0.index t (2 : Fin 3) * 256 + 1 * hw.val = hw.val; omega
  · show V c main_v1 (((cfg0.win 3).blk t).view.emb (ix3 k ch hw)) = _
    refine congrArg (V c main_v1) (funext fun a => Fin.ext ?_)
    match a with
    | ⟨0, _⟩ => show win0_3.index t (0 : Fin 3) * 128 + 1 * k.val = win0_4.index t (2 : Fin 3) * 128 + 1 * k.val; omega
    | ⟨1, _⟩ => show win0_3.index t (1 : Fin 3) * 16 + 1 * ch.val = win0_4.index t (0 : Fin 3) * 16 + 1 * ch.val; omega
    | ⟨2, _⟩ => show win0_3.index t (2 : Fin 3) * 256 + 1 * hw.val = hw.val; omega

theorem mem_blk0_4 (t : Fin cfg0.N) (i : S16x2048x128.Idx) :
    i ∈ ((cfg0.win 4).blk t).view.set ↔ ∀ a : Fin 3, win0_4.index t a * S16x256x128.size a ≤ (i a).val
      ∧ (i a).val < win0_4.index t a * S16x256x128.size a + S16x256x128.size a := by
  show i ∈ ((View.whole main_v4_0).slice (win0_4.rect t)).set ↔ _
  rw [View.set_slice_whole, Rect.mem_set_unit]
  exact Iff.rfl

theorem covered0_4 (i : S16x2048x128.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 128 := (i 2).isLt
  have hN : cfg0.N = 8 := N_0
  have ht : (i 1).val / 256 < cfg0.N := by rw [hN]; omega
  obtain ⟨-, -, -, -, -, -, e6, e7, e8, -, -, -, -⟩ := idx_facts0 ⟨(i 1).val / 256, ht⟩
  refine ⟨⟨(i 1).val / 256, ht⟩, flush0_4 _, ?_⟩
  rw [mem_blk0_4]
  intro a
  match a with
  | ⟨0, _⟩ =>
    show win0_4.index ⟨(i 1).val / 256, ht⟩ (0 : Fin 3) * 16 ≤ (i 0).val
      ∧ (i 0).val < win0_4.index ⟨(i 1).val / 256, ht⟩ (0 : Fin 3) * 16 + 16
    rw [e6]; omega
  | ⟨1, _⟩ =>
    show win0_4.index ⟨(i 1).val / 256, ht⟩ (1 : Fin 3) * 256 ≤ (i 1).val
      ∧ (i 1).val < win0_4.index ⟨(i 1).val / 256, ht⟩ (1 : Fin 3) * 256 + 256
    rw [e7]; show (i 1).val / 256 * 256 ≤ (i 1).val ∧ (i 1).val < (i 1).val / 256 * 256 + 256; omega
  | ⟨2, _⟩ =>
    show win0_4.index ⟨(i 1).val / 256, ht⟩ (2 : Fin 3) * 128 ≤ (i 2).val
      ∧ (i 2).val < win0_4.index ⟨(i 1).val / 256, ht⟩ (2 : Fin 3) * 128 + 128
    rw [e8]; omega

theorem final0_4 (c : Dev nD) :
    (H.dat0 V c).arrAt 4 cfg0.N = pFn (V c main_v0) (V c main_v1) :=
  (H.dat0 V c).arrAt_eq_of_cover 4 _ (fun t _ => flushed0_4_eq V c t) covered0_4

end Arr0

section Arr0Cols
variable (V : (c : Dev nD) → (b : Ref sig .tc) → Buf (Elt Ideal) ((c : Thread nD τ).loc b))

def tLast : Fin cfg0.N := ⟨7, by rw [show cfg0.N = 8 from N_0]; decide⟩

theorem eq_tLast (t : Fin cfg0.N) (h : t.val % 8 = 7) : t = tLast := by
  have hN : t.val < 8 := lt_of_lt_of_eq t.isLt (show cfg0.N = 8 from N_0)
  exact Fin.ext (show t.val = 7 by omega)

def stat1 (c : Dev nD) : Vec Ideal S16x256 .f32 := (H.outsAt0 V c tLast.val tLast.isLt).2.2.2.1
def stat2 (c : Dev nD) : Vec Ideal S16x256 .f32 := (H.outsAt0 V c tLast.val tLast.isLt).2.2.2.2

theorem idx_facts0_12 : ∀ t : Fin cfg0.N,
    win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem iblk0_1_eq (c : Dev nD) (t : Fin cfg0.N) : H.iblk0 V c 1 t = V c main_v2 := by
  obtain ⟨e0, e1, -, -⟩ := idx_facts0_12 t
  funext j
  obtain ⟨ch, u, rfl⟩ : ∃ (ch : Fin 16) (u : Fin 1), j = ix2 ch u := ⟨j 0, j 1, eq_ix2 j⟩
  show V c main_v2 (((cfg0.win 1).blk t).view.emb (ix2 ch u)) = V c main_v2 (ix2 ch u)
  refine congrArg (V c main_v2) (funext fun a => Fin.ext ?_)
  match a with
  | ⟨0, _⟩ => show win0_1.index t (0 : Fin 2) * 16 + 1 * ch.val = ch.val; omega
  | ⟨1, _⟩ => show win0_1.index t (1 : Fin 2) * 1 + 1 * u.val = u.val; omega

theorem iblk0_2_eq (c : Dev nD) (t : Fin cfg0.N) : H.iblk0 V c 2 t = V c main_v3 := by
  obtain ⟨-, -, e2, e3⟩ := idx_facts0_12 t
  funext j
  obtain ⟨ch, u, rfl⟩ : ∃ (ch : Fin 16) (u : Fin 1), j = ix2 ch u := ⟨j 0, j 1, eq_ix2 j⟩
  show V c main_v3 (((cfg0.win 2).blk t).view.emb (ix2 ch u)) = V c main_v3 (ix2 ch u)
  refine congrArg (V c main_v3) (funext fun a => Fin.ext ?_)
  match a with
  | ⟨0, _⟩ => show win0_2.index t (0 : Fin 2) * 16 + 1 * ch.val = ch.val; omega
  | ⟨1, _⟩ => show win0_2.index t (1 : Fin 2) * 1 + 1 * u.val = u.val; omega

theorem mem_blk0_5 (t : Fin cfg0.N) (i : S16x1.Idx) : i ∈ ((cfg0.win 5).blk t).view.set := by
  obtain ⟨-, -, -, -, -, -, -, -, -, e9, e10, -, -⟩ := idx_facts0 t
  show i ∈ ((View.whole main_v4_1).slice (win0_5.rect t)).set
  rw [View.set_slice_whole, Rect.mem_set_unit]
  intro a
  have hi0 : (i 0).val < 16 := (i 0).isLt
  have hi1 : (i 1).val < 1 := (i 1).isLt
  match a with
  | ⟨0, _⟩ => show win0_5.index t (0 : Fin 2) * 16 ≤ (i 0).val ∧ (i 0).val < win0_5.index t (0 : Fin 2) * 16 + 16; omega
  | ⟨1, _⟩ => show win0_5.index t (1 : Fin 2) * 1 ≤ (i 1).val ∧ (i 1).val < win0_5.index t (1 : Fin 2) * 1 + 1; omega

theorem mem_blk0_6 (t : Fin cfg0.N) (i : S16x1.Idx) : i ∈ ((cfg0.win 6).blk t).view.set := by
  obtain ⟨-, -, -, -, -, -, -, -, -, -, -, e11, e12⟩ := idx_facts0 t
  show i ∈ ((View.whole main_v4_2).slice (win0_6.rect t)).set
  rw [View.set_slice_whole, Rect.mem_set_unit]
  intro a
  have hi0 : (i 0).val < 16 := (i 0).isLt
  have hi1 : (i 1).val < 1 := (i 1).isLt
  match a with
  | ⟨0, _⟩ => show win0_6.index t (0 : Fin 2) * 16 ≤ (i 0).val ∧ (i 0).val < win0_6.index t (0 : Fin 2) * 16 + 16; omega
  | ⟨1, _⟩ => show win0_6.index t (1 : Fin 2) * 1 ≤ (i 1).val ∧ (i 1).val < win0_6.index t (1 : Fin 2) * 1 + 1; omega

theorem final0_5 (c : Dev nD) :
    (H.dat0 V c).arrAt 5 cfg0.N = k0_pay5 (stat1 V c) (stat2 V c) (V c main_v2) := by
  have hG : ∀ t, (cfg0.win 5).flush t = true → (H.dat0 V c).flushed 5 t
      = ((cfg0.win 5).blk t).view.read (Elt Ideal) (H.outsAt0 V c tLast.val tLast.isLt).2.1 := fun t hf => by
    obtain rfl := eq_tLast t ((flush0_5 t).mp hf)
    obtain ⟨-, -, -, -, -, -, -, -, -, e9, e10, -, -⟩ := idx_facts0 tLast
    show (cfg0.win 5).cut (grid0.coords tLast) ((H.dat0 V c).after 5 tLast) = _
    rw [H.after0_5]
    funext j
    obtain ⟨ch, u, rfl⟩ : ∃ (ch : Fin 16) (u : Fin 1), j = ix2 ch u := ⟨j 0, j 1, eq_ix2 j⟩
    show (H.outsAt0 V c tLast.val tLast.isLt).2.1 (ix2 ch u)
      = (H.outsAt0 V c tLast.val tLast.isLt).2.1 (((cfg0.win 5).blk tLast).view.emb (ix2 ch u))
    refine congrArg (H.outsAt0 V c tLast.val tLast.isLt).2.1 (funext fun a => Fin.ext ?_)
    match a with
    | ⟨0, _⟩ => show ch.val = win0_5.index tLast (0 : Fin 2) * 16 + 1 * ch.val; omega
    | ⟨1, _⟩ => show u.val = win0_5.index tLast (1 : Fin 2) * 1 + 1 * u.val; omega
  have hlast : tLast.val % 8 = 7 := rfl
  refine ((H.dat0 V c).arrAt_eq_of_cover 5 _ hG
    (fun i => ⟨tLast, (flush0_5 tLast).mpr hlast, mem_blk0_5 tLast i⟩)).trans ?_
  refine (H.outsAt0_s_last V c tLast hlast).trans ?_
  exact congrArg (k0_pay5 (stat1 V c) (stat2 V c)) (iblk0_1_eq V c tLast)

theorem final0_6 (c : Dev nD) :
    (H.dat0 V c).arrAt 6 cfg0.N = k0_pay6 (stat1 V c) (stat2 V c) (V c main_v2) (V c main_v3) := by
  have hG : ∀ t, (cfg0.win 6).flush t = true → (H.dat0 V c).flushed 6 t
      = ((cfg0.win 6).blk t).view.read (Elt Ideal) (H.outsAt0 V c tLast.val tLast.isLt).2.2.1 := fun t hf => by
    obtain rfl := eq_tLast t ((flush0_6 t).mp hf)
    obtain ⟨-, -, -, -, -, -, -, -, -, -, -, e11, e12⟩ := idx_facts0 tLast
    show (cfg0.win 6).cut (grid0.coords tLast) ((H.dat0 V c).after 6 tLast) = _
    rw [H.after0_6]
    funext j
    obtain ⟨ch, u, rfl⟩ : ∃ (ch : Fin 16) (u : Fin 1), j = ix2 ch u := ⟨j 0, j 1, eq_ix2 j⟩
    show (H.outsAt0 V c tLast.val tLast.isLt).2.2.1 (ix2 ch u)
      = (H.outsAt0 V c tLast.val tLast.isLt).2.2.1 (((cfg0.win 6).blk tLast).view.emb (ix2 ch u))
    refine congrArg (H.outsAt0 V c tLast.val tLast.isLt).2.2.1 (funext fun a => Fin.ext ?_)
    match a with
    | ⟨0, _⟩ => show ch.val = win0_6.index tLast (0 : Fin 2) * 16 + 1 * ch.val; omega
    | ⟨1, _⟩ => show u.val = win0_6.index tLast (1 : Fin 2) * 1 + 1 * u.val; omega
  have hlast : tLast.val % 8 = 7 := rfl
  refine ((H.dat0 V c).arrAt_eq_of_cover 6 _ hG
    (fun i => ⟨tLast, (flush0_6 tLast).mpr hlast, mem_blk0_6 tLast i⟩)).trans ?_
  refine (H.outsAt0_t_last V c tLast hlast).trans ?_
  exact (congrArg (fun g => k0_pay6 (stat1 V c) (stat2 V c) g (H.iblk0 V c 2 tLast)) (iblk0_1_eq V c tLast)).trans
    (congrArg (k0_pay6 (stat1 V c) (stat2 V c) (V c main_v2)) (iblk0_2_eq V c tLast))

end Arr0Cols

end Cert.ReferenceIdeal.HV

end
-- ==== Proof.RI.ValueArr1.lean ====
import proofs.«135015_g2000502485364553_pallasbulk_1302_1_alg».proof.Proof.RI.Body1
import proofs.«135015_g2000502485364553_pallasbulk_1302_1_alg».proof.Proof.RI.ValueComb

set_option maxRecDepth 16384

noncomputable section

namespace Cert.ReferenceIdeal.HV

open Cert.ReferenceIdeal Cert.ReferenceIdeal.Gen
open Idealize.ShloMosaic Idealize.ShloMosaic.TcCoe Idealize.SL.Sem Idealize.ShloMosaic.ValueIdx
open Idealize.ShloMosaic.Pipeline (Dat Cfg Window)
open scoped BigOperators

theorem pay1_3_eq {F : FTy → Type} [FloatOps F] (x0 : Vec F S16x256x128 .f32) (x1 : Vec F S16x1 .f32) (x2 : Vec F S1x128 .f32) :
    H.pay1_3 x0 x1 x2 = combTerm x0 x1 x2 := rfl

def outFn (Parr : S16x2048x128.Idx → EReal) (sArr : S16x1.Idx → EReal) (row : S1x128.Idx → EReal) : S2048x128.Idx → EReal :=
  fun i => Cert.Spec.accFold (fun ch => Parr (ix3 ch ⟨(i 0).val, idx2_lt0 i⟩ ⟨(i 1).val, idx2_lt1 i⟩))
      (fun ch => sArr (ix2 ch (0 : Fin 1))) 16 le_rfl
    + row (ix2 (0 : Fin 1) ⟨(i 1).val, idx2_lt1 i⟩)

theorem outFn_apply (Parr : S16x2048x128.Idx → EReal) (sArr : S16x1.Idx → EReal) (row : S1x128.Idx → EReal)
    (b : Fin 2048) (k : Fin 128) :
    outFn Parr sArr row (ix2 b k)
      = Cert.Spec.accFold (fun ch => Parr (ix3 ch b k)) (fun ch => sArr (ix2 ch (0 : Fin 1))) 16 le_rfl + row (ix2 (0 : Fin 1) k) := rfl

section Arr1

variable (V : (c : Dev nD) → (b : Ref sig .tc) → Buf (Elt Ideal) ((c : Thread nD τ).loc b))

theorem idx_facts1 : ∀ t : Fin cfg1.N,
    win1_0.index t (0 : Fin 3) = 0 ∧ win1_0.index t (1 : Fin 3) = t.val ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem flushed1_3_eq (c : Dev nD) (t : Fin cfg1.N) :
    (H.dat1 V c).flushed 3 t
      = ((cfg1.win 3).blk t).view.read (Elt Ideal) (outFn (V c main_v4_0) (V c main_v4_1) (V c main_v10)) := by
  show (cfg1.win 3).cut (grid1.coords t) ((H.dat1 V c).after 3 t) = _
  rw [H.after1_3, H.out1_3_eq, pay1_3_eq]
  obtain ⟨e0, e1, e2, e3, e4, e5, e6, e7, e8⟩ := idx_facts1 t
  funext j
  obtain ⟨r, k, rfl⟩ : ∃ (r : Fin 256) (k : Fin 128), j = ix2 r k := ⟨j 0, j 1, eq_ix2 j⟩
  show combTerm (H.iblk1 V c 0 t) (H.iblk1 V c 1 t) (H.iblk1 V c 2 t) (ix2 r k)
    = outFn (V c main_v4_0) (V c main_v4_1) (V c main_v10) (((cfg1.win 3).blk t).view.emb (ix2 r k))
  refine (combTerm_apply (H.iblk1 V c 0 t) (H.iblk1 V c 1 t) (H.iblk1 V c 2 t) r k).trans ?_
  unfold outFn
  refine congrArg₂ (· + ·) (congrArg₂ (fun P s => Cert.Spec.accFold P s 16 le_rfl) (funext fun ch => ?_) (funext fun ch => ?_)) ?_
  · show V c main_v4_0 (((cfg1.win 0).blk t).view.emb (ix3 ch r k)) = _
    refine congrArg (V c main_v4_0) (funext fun a => Fin.ext ?_)
    match a with
    | ⟨0, _⟩ => show win1_0.index t (0 : Fin 3) * 16 + 1 * ch.val = ch.val; omega
    | ⟨1, _⟩ => show win1_0.index t (1 : Fin 3) * 256 + 1 * r.val = win1_3.index t (0 : Fin 2) * 256 + 1 * r.val; omega
    | ⟨2, _⟩ => show win1_0.index t (2 : Fin 3) * 128 + 1 * k.val = win1_3.index t (1 : Fin 2) * 128 + 1 * k.val; omega
  · show V c main_v4_1 (((cfg1.win 1).blk t).view.emb (ix2 ch (0 : Fin 1))) = _
    refine congrArg (V c main_v4_1) (funext fun a => Fin.ext ?_)
    match a with
    | ⟨0, _⟩ => show win1_1.index t (0 : Fin 2) * 16 + 1 * ch.val = ch.val; omega
    | ⟨1, _⟩ => show win1_1.index t (1 : Fin 2) * 1 + 1 * 0 = 0; omega
  · show V c main_v10 (((cfg1.win 2).blk t).view.emb (ix2 (0 : Fin 1) k)) = _
    refine congrArg (V c main_v10) (funext fun a => Fin.ext ?_)
    match a with
    | ⟨0, _⟩ => show win1_2.index t (0 : Fin 2) * 1 + 1 * 0 = 0; omega
    | ⟨1, _⟩ => show win1_2.index t (1 : Fin 2) * 128 + 1 * k.val = win1_3.index t (1 : Fin 2) * 128 + 1 * k.val; omega

theorem mem_blk1_3 (t : Fin cfg1.N) (i : S2048x128.Idx) :
    i ∈ ((cfg1.win 3).blk t).view.set ↔ ∀ a : Fin 2, win1_3.index t a * S256x128.size a ≤ (i a).val
      ∧ (i a).val < win1_3.index t a * S256x128.size a + S256x128.size a := by
  show i ∈ ((View.whole main_v11).slice (win1_3.rect t)).set ↔ _
  rw [View.set_slice_whole, Rect.mem_set_unit]
  exact Iff.rfl

theorem covered1_3 (i : S2048x128.Idx) :
    ∃ t : Fin cfg1.N, (cfg1.win 3).flush t = true ∧ i ∈ ((cfg1.win 3).blk t).view.set := by
  have hi0 : (i 0).val < 2048 := (i 0).isLt
  have hi1 : (i 1).val < 128 := (i 1).isLt
  have hN : cfg1.N = 8 := N_1
  have ht : (i 0).val / 256 < cfg1.N := by rw [hN]; omega
  obtain ⟨e0, e1, e2, e3, e4, e5, e6, e7, e8⟩ := idx_facts1 ⟨(i 0).val / 256, ht⟩
  refine ⟨⟨(i 0).val / 256, ht⟩, flush1_3 _, ?_⟩
  rw [mem_blk1_3]
  intro a
  match a with
  | ⟨0, _⟩ =>
    show win1_3.index ⟨(i 0).val / 256, ht⟩ (0 : Fin 2) * 256 ≤ (i 0).val
      ∧ (i 0).val < win1_3.index ⟨(i 0).val / 256, ht⟩ (0 : Fin 2) * 256 + 256
    rw [e7]; show (i 0).val / 256 * 256 ≤ (i 0).val ∧ (i 0).val < (i 0).val / 256 * 256 + 256; omega
  | ⟨1, _⟩ =>
    show win1_3.index ⟨(i 0).val / 256, ht⟩ (1 : Fin 2) * 128 ≤ (i 1).val
      ∧ (i 1).val < win1_3.index ⟨(i 0).val / 256, ht⟩ (1 : Fin 2) * 128 + 128
    rw [e8]; omega

theorem final1_3 (c : Dev nD) :
    (H.dat1 V c).arrAt 3 cfg1.N = outFn (V c main_v4_0) (V c main_v4_1) (V c main_v10) :=
  (H.dat1 V c).arrAt_eq_of_cover 3 _ (fun t _ => flushed1_3_eq V c t) covered1_3

end Arr1

end Cert.ReferenceIdeal.HV

end
-- ==== Proof.RI.Value.lean ====
import proofs.«135015_g2000502485364553_pallasbulk_1302_1_alg».proof.Proof.RI.Entry
import proofs.«135015_g2000502485364553_pallasbulk_1302_1_alg».proof.Proof.RI.ValueHost
import proofs.«135015_g2000502485364553_pallasbulk_1302_1_alg».proof.Proof.RI.ValueArr0
import proofs.«135015_g2000502485364553_pallasbulk_1302_1_alg».proof.Proof.RI.ValueArr1

set_option maxRecDepth 16384

noncomputable section

namespace Cert.ReferenceIdeal.HV

open Cert.ReferenceIdeal Cert.ReferenceIdeal.Gen
open Idealize.ShloMosaic Idealize.ShloMosaic.TcCoe Idealize.SL.Sem Idealize.ShloMosaic.ValueIdx
open Idealize.ShloMosaic.Pipeline (Dat Cfg Window)
open scoped BigOperators

section Final
variable (m : (ℓ : Loc nD τ sig) → Buf (Elt Ideal) ℓ) (ρ : Dev nD → PrngReg)

abbrev xArr (c : Dev nD) : Vec Ideal S2048x16x256 .f32 := H.V1 m ρ c main_v0
abbrev wArr (c : Dev nD) : Vec Ideal S128x16x256 .f32 := H.V1 m ρ c main_v1
abbrev gammaArr (c : Dev nD) : Vec Ideal S16x1 .f32 := H.V1 m ρ c main_v2
abbrev betaArr (c : Dev nD) : Vec Ideal S16x1 .f32 := H.V1 m ρ c main_v3
abbrev biasArr (c : Dev nD) : Vec Ideal S128 .f32 := m ((c : Thread nD τ).loc main_arg4)

def sCol (c : Dev nD) : Vec Ideal S16x1 .f32 :=
  k0_pay5 (stat1 (H.V1 m ρ) c) (stat2 (H.V1 m ρ) c) (gammaArr m ρ c)

def tCol (c : Dev nD) : Vec Ideal S16x1 .f32 :=
  k0_pay6 (stat1 (H.V1 m ρ) c) (stat2 (H.V1 m ρ) c) (gammaArr m ρ c) (betaArr m ρ c)

theorem resArr_eq_outFn (c : Dev nD) :
    H.resArr m ρ c
      = outFn (pFn (xArr m ρ c) (wArr m ρ c)) (sCol m ρ c) (H.constRow (tCol m ρ c) (wArr m ρ c) (biasArr m c)) := by
  refine (H.resArr_eq m ρ c).trans ((final1_3 (H.V3 m ρ) c).trans ?_)
  rw [H.V3_main_v4_0, H.V3_main_v4_1, H.V3_main_v10, final0_4 (H.V1 m ρ) c, final0_5 (H.V1 m ρ) c, final0_6 (H.V1 m ρ) c]
  rfl

theorem resArr_apply (c : Dev nD) (b : Fin 2048) (k : Fin 128) :
    H.resArr m ρ c (ix2 b k)
      = Cert.Spec.outR
          (fun ch => ∑ hw : Fin 256, xArr m ρ c (ix3 b ch hw) * wArr m ρ c (ix3 k ch hw))
          (fun ch => sCol m ρ c (ix2 ch (0 : Fin 1)))
          (fun ch => tCol m ρ c (ix2 ch (0 : Fin 1)))
          (fun ch => ∑ hw : Fin 256, wArr m ρ c (ix3 k ch hw))
          (biasArr m c (ix1 k)) := by
  refine (congrFun (resArr_eq_outFn m ρ c) (ix2 b k)).trans ?_
  refine (outFn_apply _ _ _ b k).trans ?_
  unfold Cert.Spec.outR
  refine congrArg₂ (· + ·) ?_ ?_
  · exact congrArg (fun P => Cert.Spec.accFold P (fun ch => sCol m ρ c (ix2 ch (0 : Fin 1))) 16 le_rfl)
      (funext fun ch => pFn_apply (xArr m ρ c) (wArr m ρ c) ch b k)
  · exact hostRow_apply (wArr m ρ c) (tCol m ρ c) (biasArr m c) (0 : Fin 1) k

end Final

end Cert.ReferenceIdeal.HV

end
-- ==== Proof.KI.Host.lean ====
import proofs.«135015_g2000502485364553_pallasbulk_1302_1_alg».proof.Proof.Gen.KernelIdeal.Frame
import Idealize.ShloMosaic.Lib.StableHlo.Run

set_option maxRecDepth 16384

noncomputable section

namespace Cert.KernelIdeal.H

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

theorem V_v0 (c : Dev nD) : (Gen.V m c main_v0 : S2048x16x256.Idx → Elt F .f32)
    = shapeCast S2048x16x256 (m ((c : Thread nD τ).loc main_arg0)) shapeCasts_S2048x16x16x16_S2048x16x256 := by
  dsimp only [Gen.V, Gen.hostOps0]; after_results; rfl
theorem V_v1 (c : Dev nD) : (Gen.V m c main_v1 : S128x16x256.Idx → Elt F .f32)
    = shapeCast S128x16x256 (m ((c : Thread nD τ).loc main_arg3)) shapeCasts_S128x4096_S128x16x256 := by
  dsimp only [Gen.V, Gen.hostOps0]; after_results; rfl
theorem V_v2 (c : Dev nD) : (Gen.V m c main_v2 : S16x1.Idx → Elt F .f32)
    = shapeCast S16x1 (m ((c : Thread nD τ).loc main_arg1)) shapeCasts_S16_S16x1 := by
  dsimp only [Gen.V, Gen.hostOps0]; after_results; rfl
theorem V_v3 (c : Dev nD) : (Gen.V m c main_v3 : S16x1.Idx → Elt F .f32)
    = shapeCast S16x1 (m ((c : Thread nD τ).loc main_arg2)) shapeCasts_S16_S16x1 := by
  dsimp only [Gen.V, Gen.hostOps0]; after_results; rfl
theorem V_v4 (c : Dev nD) : (Gen.V m c main_v4 : S1x128.Idx → Elt F .f32)
    = shapeCast S1x128 (m ((c : Thread nD τ).loc main_arg4)) shapeCasts_S128_S1x128 := by
  dsimp only [Gen.V, Gen.hostOps0]; after_results; rfl

end Cert.KernelIdeal.H

end
-- ==== Proof.BridgeX.lean ====
import proofs.«135015_g2000502485364553_pallasbulk_1302_1_alg».proof.Proof.RI.Value
import proofs.«135015_g2000502485364553_pallasbulk_1302_1_alg».proof.Proof.RI.Pieces0
import proofs.«135015_g2000502485364553_pallasbulk_1302_1_alg».proof.Proof.KI.Host
import proofs.«135015_g2000502485364553_pallasbulk_1302_1_alg».proof.Proof.KI.State
import proofs.«135015_g2000502485364553_pallasbulk_1302_1_alg».proof.Proof.KI.StatRec
import proofs.«135015_g2000502485364553_pallasbulk_1302_1_alg».proof.Proof.KI.ValueBlocks
import Idealize.ShloMosaic.Lib.Pipeline.Value
import Idealize.ShloMosaic.Lib.ValueIdx

set_option maxRecDepth 16384

noncomputable section

namespace Cert.Bridge

open Idealize.ShloMosaic Idealize.ShloMosaic.TcCoe Idealize.SL.Sem Idealize.ShloMosaic.ValueIdx

section Generic

variable {F : FTy → Type} [FloatOps F]
variable (m : (ℓ : Loc Cert.KernelIdeal.nD Cert.KernelIdeal.τ Cert.KernelIdeal.sig) → Buf (Elt F) ℓ)
  (m' : (ℓ : Loc Cert.ReferenceIdeal.nD Cert.ReferenceIdeal.τ Cert.ReferenceIdeal.sig) → Buf (Elt F) ℓ) (ρ' : Dev Cert.ReferenceIdeal.nD → PrngReg)
  (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))

include hagree

theorem X3_eq (c : Dev Cert.KernelIdeal.nD) :
    (Cert.ReferenceIdeal.H.V1 m' ρ' c Cert.ReferenceIdeal.main_v0 : Cert.ReferenceIdeal.S2048x16x256.Idx → Elt F .f32) = Cert.KernelIdeal.Gen.V m c Cert.KernelIdeal.main_v0 := by
  have h := Cert.ReferenceIdeal.H.V1_main_v0 m' ρ' c
  rw [(hagree c).1] at h
  exact h.trans (Cert.KernelIdeal.H.V_v0 m c).symm
theorem W3_eq (c : Dev Cert.KernelIdeal.nD) :
    (Cert.ReferenceIdeal.H.V1 m' ρ' c Cert.ReferenceIdeal.main_v1 : Cert.ReferenceIdeal.S128x16x256.Idx → Elt F .f32) = Cert.KernelIdeal.Gen.V m c Cert.KernelIdeal.main_v1 := by
  have h := Cert.ReferenceIdeal.H.V1_main_v1 m' ρ' c
  rw [(hagree c).2.2.2.1] at h
  exact h.trans (Cert.KernelIdeal.H.V_v1 m c).symm
theorem Gamma_eq (c : Dev Cert.KernelIdeal.nD) :
    (Cert.ReferenceIdeal.H.V1 m' ρ' c Cert.ReferenceIdeal.main_v2 : Cert.ReferenceIdeal.S16x1.Idx → Elt F .f32) = Cert.KernelIdeal.Gen.V m c Cert.KernelIdeal.main_v2 := by
  have h := Cert.ReferenceIdeal.H.V1_main_v2 m' ρ' c
  rw [(hagree c).2.1] at h
  exact h.trans (Cert.KernelIdeal.H.V_v2 m c).symm
theorem Beta_eq (c : Dev Cert.KernelIdeal.nD) :
    (Cert.ReferenceIdeal.H.V1 m' ρ' c Cert.ReferenceIdeal.main_v3 : Cert.ReferenceIdeal.S16x1.Idx → Elt F .f32) = Cert.KernelIdeal.Gen.V m c Cert.KernelIdeal.main_v3 := by
  have h := Cert.ReferenceIdeal.H.V1_main_v3 m' ρ' c
  rw [(hagree c).2.2.1] at h
  exact h.trans (Cert.KernelIdeal.H.V_v3 m c).symm

theorem blk_eq_x (c : Dev Cert.KernelIdeal.nD) (n : ℕ) (hK : n < Cert.KernelIdeal.cfg0.N) (hR : n < Cert.ReferenceIdeal.cfg0.N) :
    (Cert.KernelIdeal.Gen.iblk m c 0 ⟨n, hK⟩ : Cert.KernelIdeal.S256x16x256.Idx → Elt F .f32) = Cert.ReferenceIdeal.H.iblk0 (Cert.ReferenceIdeal.H.V1 m' ρ') c 0 ⟨n, hR⟩ :=
  calc (Cert.KernelIdeal.Gen.iblk m c 0 ⟨n, hK⟩ : Cert.KernelIdeal.S256x16x256.Idx → Elt F .f32)
      = ((Cert.KernelIdeal.cfg0.win 0).blk ⟨n, hK⟩).view.read (Elt F) (Cert.KernelIdeal.Gen.V m c Cert.KernelIdeal.main_v0) := rfl
    _ = ((Cert.KernelIdeal.cfg0.win 0).blk ⟨n, hK⟩).view.read (Elt F) (Cert.ReferenceIdeal.H.V1 m' ρ' c Cert.ReferenceIdeal.main_v0) := by
        rw [X3_eq m m' ρ' hagree c]
    _ = ((Cert.ReferenceIdeal.cfg0.win 0).blk ⟨n, hR⟩).view.read (Elt F) (Cert.ReferenceIdeal.H.V1 m' ρ' c Cert.ReferenceIdeal.main_v0) := rfl
    _ = Cert.ReferenceIdeal.H.iblk0 (Cert.ReferenceIdeal.H.V1 m' ρ') c 0 ⟨n, hR⟩ := rfl
theorem sum_eq (c : Dev Cert.KernelIdeal.nD) (n : ℕ) : ∀ (hK : n < Cert.KernelIdeal.cfg0.N) (hR : n < Cert.ReferenceIdeal.cfg0.N),
      ((Cert.KernelIdeal.H.st3 m c n hK).2.1 : Cert.KernelIdeal.S16x256.Idx → Elt F .f32) = (Cert.ReferenceIdeal.H.outsAt0 (Cert.ReferenceIdeal.H.V1 m' ρ') c n hR).2.2.2.1 := by
  induction n with
  | zero =>
    intro hK hR
    exact calc ((Cert.KernelIdeal.H.st3 m c 0 hK).2.1 : Cert.KernelIdeal.S16x256.Idx → Elt F .f32)
        = Cert.KernelIdeal.Gen.k0_pay23 (Cert.KernelIdeal.Gen.iblk m c 0 ⟨0, hK⟩) Cert.KernelIdeal.Gen.k0_pay19 := Cert.KernelIdeal.H.st3_sum_zero m c hK
      _ = Cert.KernelIdeal.Gen.k0_pay23 (Cert.ReferenceIdeal.H.iblk0 (Cert.ReferenceIdeal.H.V1 m' ρ') c 0 ⟨0, hR⟩) Cert.KernelIdeal.Gen.k0_pay19 := by
          rw [blk_eq_x m m' ρ' hagree c 0 hK hR]
      _ = Cert.ReferenceIdeal.Gen.k0_pay10 (Cert.ReferenceIdeal.H.iblk0 (Cert.ReferenceIdeal.H.V1 m' ρ') c 0 ⟨0, hR⟩) Cert.ReferenceIdeal.Gen.k0_pay7 := rfl
      _ = (Cert.ReferenceIdeal.H.outsAt0 (Cert.ReferenceIdeal.H.V1 m' ρ') c 0 hR).2.2.2.1 := (Cert.ReferenceIdeal.H.outsAt0_sum_first (Cert.ReferenceIdeal.H.V1 m' ρ') c ⟨0, hR⟩ (Nat.zero_mod _)).symm
  | succ n ih =>
    intro hK hR
    have hN : n + 1 < 8 := lt_of_lt_of_eq hR (show Cert.ReferenceIdeal.cfg0.N = 8 from Cert.ReferenceIdeal.Gen.N_0)
    exact calc ((Cert.KernelIdeal.H.st3 m c (n + 1) hK).2.1 : Cert.KernelIdeal.S16x256.Idx → Elt F .f32)
        = Cert.KernelIdeal.Gen.k0_pay23 (Cert.KernelIdeal.Gen.iblk m c 0 ⟨n + 1, hK⟩) (Cert.KernelIdeal.H.st3 m c n (Nat.lt_of_succ_lt hK)).2.1 := Cert.KernelIdeal.H.st3_sum_succ m c n hK
      _ = Cert.KernelIdeal.Gen.k0_pay23 (Cert.ReferenceIdeal.H.iblk0 (Cert.ReferenceIdeal.H.V1 m' ρ') c 0 ⟨n + 1, hR⟩) (Cert.ReferenceIdeal.H.outsAt0 (Cert.ReferenceIdeal.H.V1 m' ρ') c n (Nat.lt_of_succ_lt hR)).2.2.2.1 := by
          rw [blk_eq_x m m' ρ' hagree c (n + 1) hK hR, ih (Nat.lt_of_succ_lt hK) (Nat.lt_of_succ_lt hR)]
      _ = Cert.ReferenceIdeal.Gen.k0_pay10 (Cert.ReferenceIdeal.H.iblk0 (Cert.ReferenceIdeal.H.V1 m' ρ') c 0 ⟨n + 1, hR⟩) (Cert.ReferenceIdeal.H.outsAt0 (Cert.ReferenceIdeal.H.V1 m' ρ') c n (Nat.lt_of_succ_lt hR)).2.2.2.1 := rfl
      _ = (Cert.ReferenceIdeal.H.outsAt0 (Cert.ReferenceIdeal.H.V1 m' ρ') c (n + 1) hR).2.2.2.1 :=
          (Cert.ReferenceIdeal.H.outsAt0_sum_next (Cert.ReferenceIdeal.H.V1 m' ρ') c ⟨n + 1, hR⟩ (by show ¬(n + 1) % 8 = 0; omega)).symm

theorem sumsq_eq (c : Dev Cert.KernelIdeal.nD) (n : ℕ) : ∀ (hK : n < Cert.KernelIdeal.cfg0.N) (hR : n < Cert.ReferenceIdeal.cfg0.N),
      ((Cert.KernelIdeal.H.st3 m c n hK).2.2 : Cert.KernelIdeal.S16x256.Idx → Elt F .f32) = (Cert.ReferenceIdeal.H.outsAt0 (Cert.ReferenceIdeal.H.V1 m' ρ') c n hR).2.2.2.2 := by
  induction n with
  | zero =>
    intro hK hR
    exact calc ((Cert.KernelIdeal.H.st3 m c 0 hK).2.2 : Cert.KernelIdeal.S16x256.Idx → Elt F .f32)
        = Cert.KernelIdeal.Gen.k0_pay24 (Cert.KernelIdeal.Gen.iblk m c 0 ⟨0, hK⟩) Cert.KernelIdeal.Gen.k0_pay20 := Cert.KernelIdeal.H.st3_sq_zero m c hK
      _ = Cert.KernelIdeal.Gen.k0_pay24 (Cert.ReferenceIdeal.H.iblk0 (Cert.ReferenceIdeal.H.V1 m' ρ') c 0 ⟨0, hR⟩) Cert.KernelIdeal.Gen.k0_pay20 := by
          rw [blk_eq_x m m' ρ' hagree c 0 hK hR]
      _ = Cert.ReferenceIdeal.Gen.k0_pay11 (Cert.ReferenceIdeal.H.iblk0 (Cert.ReferenceIdeal.H.V1 m' ρ') c 0 ⟨0, hR⟩) Cert.ReferenceIdeal.Gen.k0_pay8 := rfl
      _ = (Cert.ReferenceIdeal.H.outsAt0 (Cert.ReferenceIdeal.H.V1 m' ρ') c 0 hR).2.2.2.2 := (Cert.ReferenceIdeal.H.outsAt0_sumsq_first (Cert.ReferenceIdeal.H.V1 m' ρ') c ⟨0, hR⟩ (Nat.zero_mod _)).symm
  | succ n ih =>
    intro hK hR
    have hN : n + 1 < 8 := lt_of_lt_of_eq hR (show Cert.ReferenceIdeal.cfg0.N = 8 from Cert.ReferenceIdeal.Gen.N_0)
    exact calc ((Cert.KernelIdeal.H.st3 m c (n + 1) hK).2.2 : Cert.KernelIdeal.S16x256.Idx → Elt F .f32)
        = Cert.KernelIdeal.Gen.k0_pay24 (Cert.KernelIdeal.Gen.iblk m c 0 ⟨n + 1, hK⟩) (Cert.KernelIdeal.H.st3 m c n (Nat.lt_of_succ_lt hK)).2.2 := Cert.KernelIdeal.H.st3_sq_succ m c n hK
      _ = Cert.KernelIdeal.Gen.k0_pay24 (Cert.ReferenceIdeal.H.iblk0 (Cert.ReferenceIdeal.H.V1 m' ρ') c 0 ⟨n + 1, hR⟩) (Cert.ReferenceIdeal.H.outsAt0 (Cert.ReferenceIdeal.H.V1 m' ρ') c n (Nat.lt_of_succ_lt hR)).2.2.2.2 := by
          rw [blk_eq_x m m' ρ' hagree c (n + 1) hK hR, ih (Nat.lt_of_succ_lt hK) (Nat.lt_of_succ_lt hR)]
      _ = Cert.ReferenceIdeal.Gen.k0_pay11 (Cert.ReferenceIdeal.H.iblk0 (Cert.ReferenceIdeal.H.V1 m' ρ') c 0 ⟨n + 1, hR⟩) (Cert.ReferenceIdeal.H.outsAt0 (Cert.ReferenceIdeal.H.V1 m' ρ') c n (Nat.lt_of_succ_lt hR)).2.2.2.2 := rfl
      _ = (Cert.ReferenceIdeal.H.outsAt0 (Cert.ReferenceIdeal.H.V1 m' ρ') c (n + 1) hR).2.2.2.2 :=
          (Cert.ReferenceIdeal.H.outsAt0_sumsq_next (Cert.ReferenceIdeal.H.V1 m' ρ') c ⟨n + 1, hR⟩ (by show ¬(n + 1) % 8 = 0; omega)).symm

end Generic

section AtIdeal

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (ρ' : Dev Cert.ReferenceIdeal.nD → PrngReg)
  (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))

theorem pay5_cross {F : FTy → Type} [FloatOps F] (a b : Vec F Cert.KernelIdeal.S16x256 .f32) (g : Vec F Cert.KernelIdeal.S16x1 .f32) :
    Cert.ReferenceIdeal.Gen.k0_pay5 a b g = Cert.KernelIdeal.Gen.k0_pay5 a b g := rfl

theorem pay6_cross {F : FTy → Type} [FloatOps F] (a b : Vec F Cert.KernelIdeal.S16x256 .f32) (g bt : Vec F Cert.KernelIdeal.S16x1 .f32) :
    Cert.ReferenceIdeal.Gen.k0_pay6 a b g bt = Cert.KernelIdeal.Gen.k0_pay6 a b g bt := rfl

include hagree

theorem xArr_eq (c : Dev Cert.KernelIdeal.nD) : Cert.ReferenceIdeal.HV.xArr m' ρ' c = Cert.KernelIdeal.HV.X3 m c := X3_eq m m' ρ' hagree c
theorem wArr_eq (c : Dev Cert.KernelIdeal.nD) : Cert.ReferenceIdeal.HV.wArr m' ρ' c = Cert.KernelIdeal.HV.W3 m c := W3_eq m m' ρ' hagree c
theorem gammaArr_eq (c : Dev Cert.KernelIdeal.nD) : Cert.ReferenceIdeal.HV.gammaArr m' ρ' c = Cert.KernelIdeal.HV.Gm m c := Gamma_eq m m' ρ' hagree c
theorem betaArr_eq (c : Dev Cert.KernelIdeal.nD) : Cert.ReferenceIdeal.HV.betaArr m' ρ' c = Cert.KernelIdeal.HV.Bt m c := Beta_eq m m' ρ' hagree c

theorem stat1_eq_aux (c : Dev Cert.KernelIdeal.nD) (n : ℕ) (hn : n = (Cert.ReferenceIdeal.HV.tLast).val) (hK : n < Cert.KernelIdeal.cfg0.N) :
    (Cert.ReferenceIdeal.HV.stat1 (Cert.ReferenceIdeal.H.V1 m' ρ') c : Cert.ReferenceIdeal.S16x256.Idx → Elt Ideal .f32) = (Cert.KernelIdeal.H.st3 m c n hK).2.1 := by
  subst hn
  unfold Cert.ReferenceIdeal.HV.stat1
  exact (sum_eq m m' ρ' hagree c (Cert.ReferenceIdeal.HV.tLast).val hK (Cert.ReferenceIdeal.HV.tLast).isLt).symm

theorem stat1_eq (c : Dev Cert.KernelIdeal.nD) (h7K : 7 < Cert.KernelIdeal.cfg0.N) :
    (Cert.ReferenceIdeal.HV.stat1 (Cert.ReferenceIdeal.H.V1 m' ρ') c : Cert.ReferenceIdeal.S16x256.Idx → Elt Ideal .f32) = (Cert.KernelIdeal.H.st3 m c 7 h7K).2.1 :=
  stat1_eq_aux m m' ρ' hagree c 7 rfl h7K

theorem stat2_eq_aux (c : Dev Cert.KernelIdeal.nD) (n : ℕ) (hn : n = (Cert.ReferenceIdeal.HV.tLast).val) (hK : n < Cert.KernelIdeal.cfg0.N) :
    (Cert.ReferenceIdeal.HV.stat2 (Cert.ReferenceIdeal.H.V1 m' ρ') c : Cert.ReferenceIdeal.S16x256.Idx → Elt Ideal .f32) = (Cert.KernelIdeal.H.st3 m c n hK).2.2 := by
  subst hn
  unfold Cert.ReferenceIdeal.HV.stat2
  exact (sumsq_eq m m' ρ' hagree c (Cert.ReferenceIdeal.HV.tLast).val hK (Cert.ReferenceIdeal.HV.tLast).isLt).symm

theorem stat2_eq (c : Dev Cert.KernelIdeal.nD) (h7K : 7 < Cert.KernelIdeal.cfg0.N) :
    (Cert.ReferenceIdeal.HV.stat2 (Cert.ReferenceIdeal.H.V1 m' ρ') c : Cert.ReferenceIdeal.S16x256.Idx → Elt Ideal .f32) = (Cert.KernelIdeal.H.st3 m c 7 h7K).2.2 :=
  stat2_eq_aux m m' ρ' hagree c 7 rfl h7K

theorem sCol_eq (c : Dev Cert.KernelIdeal.nD) (h7K : 7 < Cert.KernelIdeal.cfg0.N) :
    Cert.ReferenceIdeal.HV.sCol m' ρ' c = Cert.KernelIdeal.Gen.k0_pay5 (Cert.KernelIdeal.H.st3 m c 7 h7K).2.1 (Cert.KernelIdeal.H.st3 m c 7 h7K).2.2 (Cert.KernelIdeal.HV.Gm m c) := by
  unfold Cert.ReferenceIdeal.HV.sCol
  rw [stat1_eq m m' ρ' hagree c h7K, stat2_eq m m' ρ' hagree c h7K, gammaArr_eq m m' ρ' hagree c]
  exact pay5_cross _ _ _

theorem tCol_eq (c : Dev Cert.KernelIdeal.nD) (h7K : 7 < Cert.KernelIdeal.cfg0.N) :
    Cert.ReferenceIdeal.HV.tCol m' ρ' c = Cert.KernelIdeal.Gen.k0_pay6 (Cert.KernelIdeal.H.st3 m c 7 h7K).2.1 (Cert.KernelIdeal.H.st3 m c 7 h7K).2.2 (Cert.KernelIdeal.HV.Gm m c) (Cert.KernelIdeal.HV.Bt m c) := by
  unfold Cert.ReferenceIdeal.HV.tCol
  rw [stat1_eq m m' ρ' hagree c h7K, stat2_eq m m' ρ' hagree c h7K, gammaArr_eq m m' ρ' hagree c, betaArr_eq m m' ρ' hagree c]
  exact pay6_cross _ _ _ _

theorem bias_eq (c : Dev Cert.KernelIdeal.nD) (k : Fin 128) :
    Cert.ReferenceIdeal.HV.biasArr m' c (ix1 k) = Cert.KernelIdeal.HV.Bi m c (ix2 (0 : Fin 1) k) := by
  have hB : (Cert.KernelIdeal.HV.Bi m c : Cert.KernelIdeal.S1x128.Idx → Elt Ideal .f32)
      = shapeCast Cert.KernelIdeal.S1x128 (m ((c.tc : Thread Cert.KernelIdeal.nD Cert.KernelIdeal.τ).loc Cert.KernelIdeal.main_arg4)) Cert.KernelIdeal.Gen.shapeCasts_S128_S1x128 := Cert.KernelIdeal.H.V_v4 m c
  show m' ((c.tc : Thread Cert.ReferenceIdeal.nD Cert.ReferenceIdeal.τ).loc Cert.ReferenceIdeal.main_arg4) (ix1 k) = _
  rw [hB, (hagree c).2.2.2.2]
  refine ((shapeCast_addUnit_apply ![128] (m ((c.tc : Thread Cert.KernelIdeal.nD Cert.KernelIdeal.τ).loc Cert.KernelIdeal.main_arg4)) Cert.KernelIdeal.Gen.shapeCasts_S128_S1x128 (ix2 (0 : Fin 1) k)).trans ?_).symm
  congr 1
  funext a
  match a with
  | ⟨0, _⟩ => rfl

end AtIdeal

end Cert.Bridge

end
-- ==== Proof.Bridge.lean ====
import proofs.«135015_g2000502485364553_pallasbulk_1302_1_alg».proof.Defs
import proofs.«135015_g2000502485364553_pallasbulk_1302_1_alg».proof.Proof.KI.Frame
import proofs.«135015_g2000502485364553_pallasbulk_1302_1_alg».proof.Proof.KI.ValueP
import proofs.«135015_g2000502485364553_pallasbulk_1302_1_alg».proof.Proof.KI.ValueOut
import proofs.«135015_g2000502485364553_pallasbulk_1302_1_alg».proof.Proof.RI.RunValue
import proofs.«135015_g2000502485364553_pallasbulk_1302_1_alg».proof.Proof.RI.Value
import proofs.«135015_g2000502485364553_pallasbulk_1302_1_alg».proof.Proof.BridgeX
import proofs.«135015_g2000502485364553_pallasbulk_1302_1_alg».proof.Proof.Spec
import Idealize.ShloMosaic.Lib.ValueIdx
import proofs.«135015_g2000502485364553_pallasbulk_1302_1_alg».proof.Proof.Gen.Pre_finite_inputs

noncomputable section

namespace Cert.Bridge

open Idealize.ShloMosaic Idealize.ShloMosaic.TcCoe Idealize.SL.Sem Idealize.ShloMosaic.ValueIdx

theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (c : Dev Cert.KernelIdeal.nD) :
    Cert.ReferenceIdeal.H.resArr (F := Ideal) m' ρ' c = Cert.KernelIdeal.H.outArr (F := Ideal) m c := by
  funext idx
  obtain ⟨b, k, rfl⟩ : ∃ (b : Fin 2048) (k : Fin 128), idx = ix2 b k := ⟨idx 0, idx 1, eq_ix2 idx⟩

  rw [Cert.KernelIdeal.H.outArr_eq]
  refine (Cert.ReferenceIdeal.HV.resArr_apply m' ρ' c b k).trans ?_
  refine Eq.trans ?_ (Cert.KernelIdeal.HV.outV_apply m c b k).symm

  rw [← Cert.Spec.outK_eq_outR]
  rw [Cert.Bridge.xArr_eq m m' ρ' hagree c, Cert.Bridge.wArr_eq m m' ρ' hagree c,
    Cert.Bridge.sCol_eq m m' ρ' hagree c Cert.KernelIdeal.H.lt7, Cert.Bridge.tCol_eq m m' ρ' hagree c Cert.KernelIdeal.H.lt7,
    Cert.Bridge.bias_eq m m' hagree c k]

  simp only [Cert.KernelIdeal.HV.pfull_apply]

theorem algebraic : Cert.algebraic_KernelIdeal_ReferenceIdeal := by
  intro m ρ m' ρ' _ hagree
  refine ⟨fun c => Cert.KernelIdeal.H.outArr (F := Ideal) m c, Cert.KernelIdeal.H.run_value m ρ, ?_⟩
  exact (θ_run Cert.ReferenceIdeal.defs _ _).mono
    (fun r h c => ⟨(h c).1.trans (result_eq m m' ρ' hagree c), (h c).2⟩)
    (Cert.ReferenceIdeal.H.run_value m' ρ')

end Cert.Bridge

end
-- ==== Proof.lean ====
import proofs.«135015_g2000502485364553_pallasbulk_1302_1_alg».proof.Defs
import proofs.«135015_g2000502485364553_pallasbulk_1302_1_alg».proof.Proof.Gen.Kernel
import proofs.«135015_g2000502485364553_pallasbulk_1302_1_alg».proof.Proof.Gen.KernelIdeal
import proofs.«135015_g2000502485364553_pallasbulk_1302_1_alg».proof.Proof.Gen.ReferenceIdeal
import proofs.«135015_g2000502485364553_pallasbulk_1302_1_alg».proof.Proof.Gen.Pre_finite_inputs
import proofs.«135015_g2000502485364553_pallasbulk_1302_1_alg».proof.Proof.KI.Frame
import proofs.«135015_g2000502485364553_pallasbulk_1302_1_alg».proof.Proof.RI.RunValue
import proofs.«135015_g2000502485364553_pallasbulk_1302_1_alg».proof.Proof.Bridge
import Idealize.ShloMosaic.Adequacy
import Idealize.ShloMosaic.Init

noncomputable section

namespace Cert.Proof

open Idealize.ShloMosaic Idealize.SL.Sem

set_option smartUnfolding false in
/-- The two kernel programs are the same text, so the frame proved for every float instance serves both. -/
theorem frame_Kernel : Cert.frame_Kernel := fun m ρ _ => Cert.KernelIdeal.H.frame (F := Bits) m ρ
theorem frame_KernelIdeal : Cert.frame_KernelIdeal := fun m ρ _ => Cert.KernelIdeal.H.frame m ρ
theorem frame_ReferenceIdeal : Cert.frame_ReferenceIdeal := fun m ρ _ => Cert.ReferenceIdeal.H.frame m ρ

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, Cert.Bridge.algebraic⟩

end Cert.Proof

end
